-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v243) = v2 c
          ∧ r.2.mem ((c.tc : Thread Cert.ReferenceIdeal.nD Cert.ReferenceIdeal.τ).loc Cert.ReferenceIdeal.main_v172) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x1024 : Shape := ⟨3, ![16, 128, 1024]⟩
abbrev S16x2048x1024 : Shape := ⟨3, ![16, 2048, 1024]⟩
abbrev S16 : Shape := ⟨1, ![16]⟩
abbrev S16x64x3 : Shape := ⟨3, ![16, 64, 3]⟩
abbrev S_ : Shape := ⟨0, ![]⟩
abbrev S16x64x1 : Shape := ⟨3, ![16, 64, 1]⟩

class Facts : Prop where
  bcast_S_S16x128x1024 : S_.BroadcastsInDim S16x128x1024 (![] : Fin 0 → Fin S16x128x1024.rank)
  reducesTo_S16x128x1024_S_d0_1_2 : S16x128x1024.ReducesTo [0, 1, 2] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S_S16 : S_.BroadcastsInDim S16 (![] : Fin 0 → Fin S16.rank)
  reducesTo_S16_S_d0 : S16.ReducesTo [0] S_
  slices_S16x64x3_S16x64x1_0_0_0 : S16x64x3.Slices ![0, 0, 0] S16x64x1
  slices_S16x64x3_S16x64x1_0_0_1 : S16x64x3.Slices ![0, 0, 1] S16x64x1
  slices_S16x64x3_S16x64x1_0_0_2 : S16x64x3.Slices ![0, 0, 2] S16x64x1
  bcast_S_S16x64x1 : S_.BroadcastsInDim S16x64x1 (![] : Fin 0 → Fin S16x64x1.rank)
  reducesTo_S16x64x1_S_d0_1_2 : S16x64x1.ReducesTo [0, 1, 2] S_

variable [Facts]

def fn_part4 {F : FTy → Type} [FloatOps F] (main_v59 : IVec S_ 1) (main_v61 : IVec S16x64x1 32) (main_v62 : IVec S16x64x1 32) (main_v70 : IVec S16x64x1 1) (main_c_22 : IVec S_ 32) : IVec S_ 1 :=
  let main_v71 : IVec S16x64x1 32 := broadcastInDim S16x64x1 ![] bcast_S_S16x64x1 main_c_22
  let main_v72 : IVec S16x64x1 1 := cmpi .sle main_v61 main_v71
  let main_v73 : IVec S16x64x1 1 := andi main_v70 main_v72
  let main_c_23 : IVec S_ 32 := constantI S_ 32 0#32
  let main_v74 : IVec S16x64x1 32 := broadcastInDim S16x64x1 ![] bcast_S_S16x64x1 main_c_23
  let main_v75 : IVec S16x64x1 1 := cmpi .sge main_v62 main_v74
  let main_v76 : IVec S16x64x1 1 := andi main_v73 main_v75
  let main_c_24 : IVec S_ 32 := constantI S_ 32 2046#32
  let main_v77 : IVec S16x64x1 32 := broadcastInDim S16x64x1 ![] bcast_S_S16x64x1 main_c_24
  let main_v78 : IVec S16x64x1 1 := cmpi .sle main_v62 main_v77
  let main_v79 : IVec S16x64x1 1 := andi main_v76 main_v78
  let main_c_25 : IVec S_ 1 := constantI S_ 1 1#1
  let main_v80 : IVec S_ 1 := (fun x v => Host.reduce IntOp.andi x v reducesTo_S16x64x1_S_d0_1_2 h_S_) main_v79 main_c_25
  let main_v81 : IVec S_ 1 := andi main_v59 main_v80
  main_v81

def fn_part3 {F : FTy → Type} [FloatOps F] (main_arg5 : IVec S16x64x3 32) (main_v37 : IVec S_ 1) (main_v40 : IVec S16x64x1 32) (main_v51 : IVec S16x64x1 1) (main_v52 : IVec S16x64x1 32) : IVec S_ 1 :=
  let main_v53 : IVec S16x64x1 1 := cmpi .sge main_v40 main_v52
  let main_v54 : IVec S16x64x1 1 := andi main_v51 main_v53
  let main_c_17 : IVec S_ 32 := constantI S_ 32 2046#32
  let main_v55 : IVec S16x64x1 32 := broadcastInDim S16x64x1 ![] bcast_S_S16x64x1 main_c_17
  let main_v56 : IVec S16x64x1 1 := cmpi .sle main_v40 main_v55
  let main_v57 : IVec S16x64x1 1 := andi main_v54 main_v56
  let main_c_18 : IVec S_ 1 := constantI S_ 1 1#1
  let main_v58 : IVec S_ 1 := (fun x v => Host.reduce IntOp.andi x v reducesTo_S16x64x1_S_d0_1_2 h_S_) main_v57 main_c_18
  let main_v59 : IVec S_ 1 := andi main_v37 main_v58
  let main_v60 : IVec S16x64x1 32 := (extractStridedSlice S16x64x1 ![0, 0, 0] · slices_S16x64x3_S16x64x1_0_0_0) main_arg5
  let main_v61 : IVec S16x64x1 32 := (extractStridedSlice S16x64x1 ![0, 0, 1] · slices_S16x64x3_S16x64x1_0_0_1) main_arg5
  let main_v62 : IVec S16x64x1 32 := (extractStridedSlice S16x64x1 ![0, 0, 2] · slices_S16x64x3_S16x64x1_0_0_2) main_arg5
  let main_c_19 : IVec S_ 32 := constantI S_ 32 0#32
  let main_v63 : IVec S16x64x1 32 := broadcastInDim S16x64x1 ![] bcast_S_S16x64x1 main_c_19
  let main_v64 : IVec S16x64x1 1 := cmpi .sge main_v60 main_v63
  let main_c_20 : IVec S_ 32 := constantI S_ 32 15#32
  let main_v65 : IVec S16x64x1 32 := broadcastInDim S16x64x1 ![] bcast_S_S16x64x1 main_c_20
  let main_v66 : IVec S16x64x1 1 := cmpi .sle main_v60 main_v65
  let main_v67 : IVec S16x64x1 1 := andi main_v64 main_v66
  let main_c_21 : IVec S_ 32 := constantI S_ 32 1#32
  let main_v68 : IVec S16x64x1 32 := broadcastInDim S16x64x1 ![] bcast_S_S16x64x1 main_c_21
  let main_v69 : IVec S16x64x1 1 := cmpi .sge main_v61 main_v68
  let main_v70 : IVec S16x64x1 1 := andi main_v67 main_v69
  let main_c_22 : IVec S_ 32 := constantI S_ 32 2047#32
  fn_part4 (F := F) main_v59 main_v61 main_v62 main_v70 main_c_22

def fn_part2 {F : FTy → Type} [FloatOps F] (main_arg4 : IVec S16x64x3 32) (main_arg5 : IVec S16x64x3 32) (main_v15 : IVec S_ 1) (main_v32 : IVec S16x64x1 1) (main_v34 : IVec S16x64x1 1) : IVec S_ 1 :=
  let main_v35 : IVec S16x64x1 1 := andi main_v32 main_v34
  let main_c_11 : IVec S_ 1 := constantI S_ 1 1#1
  let main_v36 : IVec S_ 1 := (fun x v => Host.reduce IntOp.andi x v reducesTo_S16x64x1_S_d0_1_2 h_S_) main_v35 main_c_11
  let main_v37 : IVec S_ 1 := andi main_v15 main_v36
  let main_v38 : IVec S16x64x1 32 := (extractStridedSlice S16x64x1 ![0, 0, 0] · slices_S16x64x3_S16x64x1_0_0_0) main_arg4
  let main_v39 : IVec S16x64x1 32 := (extractStridedSlice S16x64x1 ![0, 0, 1] · slices_S16x64x3_S16x64x1_0_0_1) main_arg4
  let main_v40 : IVec S16x64x1 32 := (extractStridedSlice S16x64x1 ![0, 0, 2] · slices_S16x64x3_S16x64x1_0_0_2) main_arg4
  let main_c_12 : IVec S_ 32 := constantI S_ 32 0#32
  let main_v41 : IVec S16x64x1 32 := broadcastInDim S16x64x1 ![] bcast_S_S16x64x1 main_c_12
  let main_v42 : IVec S16x64x1 1 := cmpi .sge main_v38 main_v41
  let main_c_13 : IVec S_ 32 := constantI S_ 32 15#32
  let main_v43 : IVec S16x64x1 32 := broadcastInDim S16x64x1 ![] bcast_S_S16x64x1 main_c_13
  let main_v44 : IVec S16x64x1 1 := cmpi .sle main_v38 main_v43
  let main_v45 : IVec S16x64x1 1 := andi main_v42 main_v44
  let main_c_14 : IVec S_ 32 := constantI S_ 32 1#32
  let main_v46 : IVec S16x64x1 32 := broadcastInDim S16x64x1 ![] bcast_S_S16x64x1 main_c_14
  let main_v47 : IVec S16x64x1 1 := cmpi .sge main_v39 main_v46
  let main_v48 : IVec S16x64x1 1 := andi main_v45 main_v47
  let main_c_15 : IVec S_ 32 := constantI S_ 32 2047#32
  let main_v49 : IVec S16x64x1 32 := broadcastInDim S16x64x1 ![] bcast_S_S16x64x1 main_c_15
  let main_v50 : IVec S16x64x1 1 := cmpi .sle main_v39 main_v49
  let main_v51 : IVec S16x64x1 1 := andi main_v48 main_v50
  let main_c_16 : IVec S_ 32 := constantI S_ 32 0#32
  let main_v52 : IVec S16x64x1 32 := broadcastInDim S16x64x1 ![] bcast_S_S16x64x1 main_c_16
  fn_part3 (F := F) main_arg5 main_v37 main_v40 main_v51 main_v52

def fn_part1 {F : FTy → Type} [FloatOps F] (main_arg3 : IVec S16x64x3 32) (main_arg4 : IVec S16x64x3 32) (main_arg5 : IVec S16x64x3 32) (main_v15 : IVec S_ 1) (main_v16 : IVec S16x64x1 32) : IVec S_ 1 :=
  let main_v17 : IVec S16x64x1 32 := (extractStridedSlice S16x64x1 ![0, 0, 1] · slices_S16x64x3_S16x64x1_0_0_1) main_arg3
  let main_v18 : IVec S16x64x1 32 := (extractStridedSlice S16x64x1 ![0, 0, 2] · slices_S16x64x3_S16x64x1_0_0_2) main_arg3
  let main_c_5 : IVec S_ 32 := constantI S_ 32 0#32
  let main_v19 : IVec S16x64x1 32 := broadcastInDim S16x64x1 ![] bcast_S_S16x64x1 main_c_5
  let main_v20 : IVec S16x64x1 1 := cmpi .sge main_v16 main_v19
  let main_c_6 : IVec S_ 32 := constantI S_ 32 15#32
  let main_v21 : IVec S16x64x1 32 := broadcastInDim S16x64x1 ![] bcast_S_S16x64x1 main_c_6
  let main_v22 : IVec S16x64x1 1 := cmpi .sle main_v16 main_v21
  let main_v23 : IVec S16x64x1 1 := andi main_v20 main_v22
  let main_c_7 : IVec S_ 32 := constantI S_ 32 1#32
  let main_v24 : IVec S16x64x1 32 := broadcastInDim S16x64x1 ![] bcast_S_S16x64x1 main_c_7
  let main_v25 : IVec S16x64x1 1 := cmpi .sge main_v17 main_v24
  let main_v26 : IVec S16x64x1 1 := andi main_v23 main_v25
  let main_c_8 : IVec S_ 32 := constantI S_ 32 2047#32
  let main_v27 : IVec S16x64x1 32 := broadcastInDim S16x64x1 ![] bcast_S_S16x64x1 main_c_8
  let main_v28 : IVec S16x64x1 1 := cmpi .sle main_v17 main_v27
  let main_v29 : IVec S16x64x1 1 := andi main_v26 main_v28
  let main_c_9 : IVec S_ 32 := constantI S_ 32 0#32
  let main_v30 : IVec S16x64x1 32 := broadcastInDim S16x64x1 ![] bcast_S_S16x64x1 main_c_9
  let main_v31 : IVec S16x64x1 1 := cmpi .sge main_v18 main_v30
  let main_v32 : IVec S16x64x1 1 := andi main_v29 main_v31
  let main_c_10 : IVec S_ 32 := constantI S_ 32 2046#32
  let main_v33 : IVec S16x64x1 32 := broadcastInDim S16x64x1 ![] bcast_S_S16x64x1 main_c_10
  let main_v34 : IVec S16x64x1 1 := cmpi .sle main_v18 main_v33
  fn_part2 (F := F) main_arg4 main_arg5 main_v15 main_v32 main_v34

def fn {F : FTy → Type} [FloatOps F] (main_arg0 : FVec F S16x128x1024 .f32) (main_arg1 : FVec F S16x2048x1024 .f32) (main_arg2 : IVec S16 32) (main_arg3 : IVec S16x64x3 32) (main_arg4 : IVec S16x64x3 32) (main_arg5 : IVec S16x64x3 32) : IVec S_ 1 :=
  let main_v0 : FVec F S16x128x1024 .f32 := Host.absf main_arg0
  let main_cst : FVec F S_ .f32 := constant S_ .f32 0x7F800000#32
  let main_v1 : FVec F S16x128x1024 .f32 := broadcastInDim S16x128x1024 ![] bcast_S_S16x128x1024 main_cst
  let main_v2 : IVec S16x128x1024 1 := cmpf .olt main_v0 main_v1
  let main_c : IVec S_ 1 := constantI S_ 1 1#1
  let main_v3 : IVec S_ 1 := (fun x v => Host.reduce IntOp.andi x v reducesTo_S16x128x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_c_2 : IVec S_ 32 := constantI S_ 32 1#32
  let main_v9 : IVec S16 32 := broadcastInDim S16 ![] bcast_S_S16 main_c_2
  let main_v10 : IVec S16 1 := cmpi .sge main_arg2 main_v9
  let main_c_3 : IVec S_ 32 := constantI S_ 32 128#32
  let main_v11 : IVec S16 32 := broadcastInDim S16 ![] bcast_S_S16 main_c_3
  let main_v12 : IVec S16 1 := cmpi .sle main_arg2 main_v11
  let main_v13 : IVec S16 1 := andi main_v10 main_v12
  let main_c_4 : IVec S_ 1 := constantI S_ 1 1#1
  let main_v14 : IVec S_ 1 := (fun x v => Host.reduce IntOp.andi x v reducesTo_S16_S_d0 h_S_) main_v13 main_c_4
  let main_v15 : IVec S_ 1 := andi main_v8 main_v14
  let main_v16 : IVec S16x64x1 32 := (extractStridedSlice S16x64x1 ![0, 0, 0] · slices_S16x64x3_S16x64x1_0_0_0) main_arg3
  fn_part1 (F := F) main_arg3 main_arg4 main_arg5 main_v15 main_v16
-- ==== Kernel.lean ====
abbrev S16x128x1024 : Shape := ⟨3, ![16, 128, 1024]⟩
abbrev S16x2048x1024 : Shape := ⟨3, ![16, 2048, 1024]⟩
abbrev S16 : Shape := ⟨1, ![16]⟩
abbrev S16x64x3 : Shape := ⟨3, ![16, 64, 3]⟩
abbrev S16x1024 : Shape := ⟨2, ![16, 1024]⟩
abbrev S2x1024 : Shape := ⟨2, ![2, 1024]⟩
abbrev S2 : Shape := ⟨1, ![2]⟩
abbrev S1 : Shape := ⟨1, ![1]⟩
abbrev S_ : Shape := ⟨0, ![]⟩
abbrev S1x1024 : Shape := ⟨2, ![1, 1024]⟩
abbrev S1024 : Shape := ⟨1, ![1024]⟩
abbrev S1x1x1024 : Shape := ⟨3, ![1, 1, 1024]⟩
abbrev S1x512 : Shape := ⟨2, ![1, 512]⟩
abbrev S512 : Shape := ⟨1, ![512]⟩
abbrev S16x64x2048 : Shape := ⟨3, ![16, 64, 2048]⟩
abbrev S1x64x2048 : Shape := ⟨3, ![1, 64, 2048]⟩
abbrev S4x1024 : Shape := ⟨2, ![4, 1024]⟩
abbrev S4 : Shape := ⟨1, ![4]⟩
abbrev S1x1x1 : Shape := ⟨3, ![1, 1, 1]⟩
abbrev S1x1x512 : Shape := ⟨3, ![1, 1, 512]⟩

abbrev nBuf : Space → Nat
  | .hbm => 6
  | .vmem => 11
  | .smem => 4
  | _ => 0

abbrev bufTy : (tb : Table) → Fin (tcTables nBuf tb) → BufTy
  | .hbm, ⟨0, _⟩ => ⟨S16x128x1024, .f32⟩
  | .hbm, ⟨1, _⟩ => ⟨S16x2048x1024, .f32⟩
  | .hbm, ⟨2, _⟩ => ⟨S16x1024, .f32⟩
  | .hbm, ⟨3, _⟩ => ⟨S16x64x2048, .f32⟩
  | .hbm, ⟨4, _⟩ => ⟨S16x64x2048, .f32⟩
  | .hbm, ⟨5, _⟩ => ⟨S16x64x2048, .f32⟩
  | .local _ .vmem, ⟨0, _⟩ => ⟨S16x1024, .f32⟩
  | .local _ .vmem, ⟨1, _⟩ => ⟨S2x1024, .f32⟩
  | .local _ .vmem, ⟨2, _⟩ => ⟨S1x64x2048, .f32⟩
  | .local _ .vmem, ⟨3, _⟩ => ⟨S1x64x2048, .f32⟩
  | .local _ .vmem, ⟨4, _⟩ => ⟨S4x1024, .f32⟩
  | .local _ .vmem, ⟨5, _⟩ => ⟨S1x64x2048, .f32⟩
  | .local _ .vmem, ⟨6, _⟩ => ⟨S1x64x2048, .f32⟩
  | .local _ .vmem, ⟨7, _⟩ => ⟨S4x1024, .f32⟩
  | .local _ .vmem, ⟨8, _⟩ => ⟨S1x64x2048, .f32⟩
  | .local _ .vmem, ⟨9, _⟩ => ⟨S1x64x2048, .f32⟩
  | .local _ .vmem, ⟨10, _⟩ => ⟨S4x1024, .f32⟩
  | .local _ .smem, ⟨0, _⟩ => ⟨S16, .i32⟩
  | .local _ .smem, ⟨1, _⟩ => ⟨S16x64x3, .i32⟩
  | .local _ .smem, ⟨2, _⟩ => ⟨S16x64x3, .i32⟩
  | .local _ .smem, ⟨3, _⟩ => ⟨S16x64x3, .i32⟩
  | _, _ => ⟨S16x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev cc0_stg0_0 : Ref sig .tc := ⟨.vmem, 0, rfl⟩
abbrev cc0_scratch0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_scratch0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_scratch0 : Ref sig .tc := ⟨.vmem, 7, rfl⟩
abbrev cc3_stg0_0 : Ref sig .tc := ⟨.vmem, 8, rfl⟩
abbrev cc3_stg0_1 : Ref sig .tc := ⟨.vmem, 9, rfl⟩
abbrev cc3_scratch0 : Ref sig .tc := ⟨.vmem, 10, rfl⟩
abbrev cc0_sem0_0 : DmaSem sig := 0
abbrev cc1_sem0_0 : DmaSem sig := 3
abbrev cc1_sem0_1 : DmaSem sig := 4
abbrev cc2_sem0_0 : DmaSem sig := 9
abbrev cc2_sem0_1 : DmaSem sig := 10
abbrev cc3_sem0_0 : DmaSem sig := 15
abbrev cc3_sem0_1 : DmaSem sig := 16

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 1 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let v3 : Index := Scalar.indexCast v2
  ![v3.toNat]
def k0_off2 (k0_t1 : Fin k0_t1_loop.trips) (v4 : BitVec 32) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c1_i32_3 : BitVec 32 := 1#32
  let v5 : BitVec 32 := Scalar.subi v4 c1_i32_3
  let c0_i32_7 : BitVec 32 := 0#32
  ![v2.toNat, v5.toNat, 0]

def k0_chk1 (k0_t1 : Fin k0_t1_loop.trips) (v4 : BitVec 32) : Prop :=
  (∀ a, (k0_off2 k0_t1 v4) a + S1x1x1024.size a ≤ S16x128x1024.size a)
instance k0_chk1.dec : ∀ (k0_t1 : Fin k0_t1_loop.trips) (v4 : BitVec 32), Decidable (k0_chk1 k0_t1 v4) := fun k0_t1 v4 => decidable_of_iff' _ (Iff.of_eq (k0_chk1.eq_1 k0_t1 v4))
theorem k0_off2_inb : ∀ (k0_t1 : Fin k0_t1_loop.trips) (v4 : BitVec 32) (k0_hw1 : k0_chk1 k0_t1 v4), ∀ a, (k0_off2 k0_t1 v4) a + S1x1x1024.size a ≤ S16x128x1024.size a := fun k0_t1 v4 k0_hw1 => k0_hw1

def k0_off3 (k0_t1 : Fin k0_t1_loop.trips) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c0_i32_8 : BitVec 32 := 0#32
  let c0_i32_12 : BitVec 32 := 0#32
  ![v2.toNat, 0, 0]
def k0_off4 (k0_t1 : Fin k0_t1_loop.trips) : Fin 2 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let v32 : Index := Scalar.indexCast v2
  let c0_23 : Index := 0#32
  ![v32.toNat, 0]
def k0_off5 (k0_t1 : Fin k0_t1_loop.trips) : Fin 2 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let v38 : Index := Scalar.indexCast v2
  let c512_24 : Index := 512#32
  ![v38.toNat, 512]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev grid1 : Pipeline.Grid := ⟨1, ![16], ![false]⟩

abbrev pre1 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k1_off1 (i : grid1.Coords) (k1_t1 : Fin k1_t1_loop.trips) : Fin 3 → Nat :=
  let arg0 : BitVec 32 := BitVec.ofNat 32 (i 0).val
  let v3 : Index := Scalar.indexCast arg0
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v1 : BitVec 32 := Scalar.muli arg6 c1_i32_1
  let v2 : BitVec 32 := Scalar.addi c0_i32_2 v1
  let v4 : Index := Scalar.indexCast v2
  let c0 : Index := 0#32
  ![v3.toNat, v4.toNat, 0]
def k1_off2 (i : grid1.Coords) (k1_t1 : Fin k1_t1_loop.trips) : Fin 3 → Nat :=
  let arg0 : BitVec 32 := BitVec.ofNat 32 (i 0).val
  let v6 : Index := Scalar.indexCast arg0
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v1 : BitVec 32 := Scalar.muli arg6 c1_i32_1
  let v2 : BitVec 32 := Scalar.addi c0_i32_2 v1
  let v7 : Index := Scalar.indexCast v2
  let c1 : Index := 1#32
  ![v6.toNat, v7.toNat, 1]
def k1_off3 (i : grid1.Coords) (k1_t1 : Fin k1_t1_loop.trips) : Fin 3 → Nat :=
  let arg0 : BitVec 32 := BitVec.ofNat 32 (i 0).val
  let v9 : Index := Scalar.indexCast arg0
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v1 : BitVec 32 := Scalar.muli arg6 c1_i32_1
  let v2 : BitVec 32 := Scalar.addi c0_i32_2 v1
  let v10 : Index := Scalar.indexCast v2
  let c2 : Index := 2#32
  ![v9.toNat, v10.toNat, 2]
def k1_off4 (v5 : BitVec 32) (v8 : BitVec 32) : Fin 3 → Nat :=
  let c1_i32_3 : BitVec 32 := 1#32
  let v12 : BitVec 32 := Scalar.subi v8 c1_i32_3
  let c0_i32_8 : BitVec 32 := 0#32
  ![v5.toNat, v12.toNat, 0]

def k1_off5 (v5 : BitVec 32) (v11 : BitVec 32) : Fin 3 → Nat :=
  let c0_i32_12 : BitVec 32 := 0#32
  ![v5.toNat, v11.toNat, 0]

def k1_off6 (v5 : BitVec 32) (v11 : BitVec 32) : Fin 3 → Nat :=
  let c1_i32_4 : BitVec 32 := 1#32
  let v13 : BitVec 32 := Scalar.addi v11 c1_i32_4
  let c0_i32_15 : BitVec 32 := 0#32
  ![v5.toNat, v13.toNat, 0]

def k1_chk2 (v5 : BitVec 32) (v11 : BitVec 32) : Prop :=
  (∀ a, (k1_off5 v5 v11) a + S1x1x1024.size a ≤ S16x2048x1024.size a) ∧
  (∀ a, (k1_off6 v5 v11) a + S1x1x1024.size a ≤ S16x2048x1024.size a)
instance k1_chk2.dec : ∀ (v5 : BitVec 32) (v11 : BitVec 32), Decidable (k1_chk2 v5 v11) := fun v5 v11 => decidable_of_iff' _ (Iff.of_eq (k1_chk2.eq_1 v5 v11))
theorem k1_off5_inb : ∀ (v5 : BitVec 32) (v11 : BitVec 32) (k1_hw2 : k1_chk2 v5 v11), ∀ a, (k1_off5 v5 v11) a + S1x1x1024.size a ≤ S16x2048x1024.size a := fun v5 v11 k1_hw2 => k1_hw2.1
theorem k1_off6_inb : ∀ (v5 : BitVec 32) (v11 : BitVec 32) (k1_hw2 : k1_chk2 v5 v11), ∀ a, (k1_off6 v5 v11) a + S1x1x1024.size a ≤ S16x2048x1024.size a := fun v5 v11 k1_hw2 => k1_hw2.2

def k1_off7 (v5 : BitVec 32) (v8 : BitVec 32) : Fin 3 → Nat :=
  let c0_i32_18 : BitVec 32 := 0#32
  ![v5.toNat, v8.toNat, 0]
def k1_off8 (v5 : BitVec 32) (v8 : BitVec 32) : Fin 3 → Nat :=
  let c1_i32_3 : BitVec 32 := 1#32
  let v12 : BitVec 32 := Scalar.subi v8 c1_i32_3
  let c0_i32_22 : BitVec 32 := 0#32
  ![v5.toNat, v12.toNat, 0]

def k1_chk1 (v5 : BitVec 32) (v8 : BitVec 32) : Prop :=
  (∀ a, (k1_off4 v5 v8) a + S1x1x1024.size a ≤ S16x2048x1024.size a) ∧
  (∀ a, (k1_off7 v5 v8) a + S1x1x1024.size a ≤ S16x2048x1024.size a) ∧
  (∀ a, (k1_off8 v5 v8) a + S1x1x1024.size a ≤ S16x2048x1024.size a)
instance k1_chk1.dec : ∀ (v5 : BitVec 32) (v8 : BitVec 32), Decidable (k1_chk1 v5 v8) := fun v5 v8 => decidable_of_iff' _ (Iff.of_eq (k1_chk1.eq_1 v5 v8))
theorem k1_off4_inb : ∀ (v5 : BitVec 32) (v8 : BitVec 32) (k1_hw1 : k1_chk1 v5 v8), ∀ a, (k1_off4 v5 v8) a + S1x1x1024.size a ≤ S16x2048x1024.size a := fun v5 v8 k1_hw1 => k1_hw1.1
theorem k1_off7_inb : ∀ (v5 : BitVec 32) (v8 : BitVec 32) (k1_hw1 : k1_chk1 v5 v8), ∀ a, (k1_off7 v5 v8) a + S1x1x1024.size a ≤ S16x2048x1024.size a := fun v5 v8 k1_hw1 => k1_hw1.2.1
theorem k1_off8_inb : ∀ (v5 : BitVec 32) (v8 : BitVec 32) (k1_hw1 : k1_chk1 v5 v8), ∀ a, (k1_off8 v5 v8) a + S1x1x1024.size a ≤ S16x2048x1024.size a := fun v5 v8 k1_hw1 => k1_hw1.2.2

def k1_off9 (k1_t1 : Fin k1_t1_loop.trips) : Fin 3 → Nat :=
  let c0_41 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v1 : BitVec 32 := Scalar.muli arg6 c1_i32_1
  let v2 : BitVec 32 := Scalar.addi c0_i32_2 v1
  let v71 : Index := Scalar.indexCast v2
  let c0_42 : Index := 0#32
  ![0, v71.toNat, 0]
def k1_off10 (k1_t1 : Fin k1_t1_loop.trips) : Fin 3 → Nat :=
  let c0_43 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v1 : BitVec 32 := Scalar.muli arg6 c1_i32_1
  let v2 : BitVec 32 := Scalar.addi c0_i32_2 v1
  let v76 : Index := Scalar.indexCast v2
  let c512_44 : Index := 512#32
  ![0, v76.toNat, 512]
def k1_off11 (k1_t1 : Fin k1_t1_loop.trips) : Fin 3 → Nat :=
  let c0_45 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v1 : BitVec 32 := Scalar.muli arg6 c1_i32_1
  let v2 : BitVec 32 := Scalar.addi c0_i32_2 v1
  let v80 : Index := Scalar.indexCast v2
  let c1024 : Index := 1024#32
  ![0, v80.toNat, 1024]
def k1_off12 (k1_t1 : Fin k1_t1_loop.trips) : Fin 3 → Nat :=
  let c0_46 : Index := 0#32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v1 : BitVec 32 := Scalar.muli arg6 c1_i32_1
  let v2 : BitVec 32 := Scalar.addi c0_i32_2 v1
  let v84 : Index := Scalar.indexCast v2
  let c1536 : Index := 1536#32
  ![0, v84.toNat, 1536]
def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![16], ![false]⟩

abbrev pre2 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

@[reducible] def k2_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k2_off1 (i : grid2.Coords) (k2_t1 : Fin k2_t1_loop.trips) : Fin 3 → Nat :=
  let arg0 : BitVec 32 := BitVec.ofNat 32 (i 0).val
  let v3 : Index := Scalar.indexCast arg0
  let c0_i32_2 : BitVec 32 := 0#32
  let c0_i32 : BitVec 32 := 0#32
  let c1_i32 : BitVec 32 := 1#32
  let arg6 : BitVec 32 := Scf.iv c0_i32 c1_i32 k2_t1
  let c1_i32_1 : BitVec 32 := 1#32
  let v1 : BitVec 32 := Scalar.muli arg6 c1_i32_1
  let v2 : BitVec 32 := Scalar.addi c0_i32_2 v1
  let v4 : Index := Scalar.indexCast v2
  let c0 : Index := 0#32
  ![v3.toNat, v4.toNat, 0]
def k2_off2 (i : grid2.Coords) (k2_t1 : Fin k2_t1_loop.trips) : Fin 3 → Nat :=
  let arg0 : BitVec 32 := BitVec.ofNat 32 (i 0).val
  let v6 : Index := Scalar.indexCast arg0
  let c0_i32_2 : BitVec 32 := 0#32
  let c0_i32 : BitVec 32 := 0#32
  let c1_i32 : BitVec 32 := 1#32
  let arg6 : BitVec 32 := Scf.iv c0_i32 c1_i32 k2_t1
  let c1_i32_1 : BitVec 32 := 1#32
  let v1 : BitVec 32 := Scalar.muli arg6 c1_i32_1
  let v2 : BitVec 32 := Scalar.addi c0_i32_2 v1
  let v7 : Index := Scalar.indexCast v2
  let c1 : Index := 1#32
  ![v6.toNat, v7.toNat, 1]
def k2_off3 (i : grid2.Coords) (k2_t1 : Fin k2_t1_loop.trips) : Fin 3 → Nat :=
  let arg0 : BitVec 32 := BitVec.ofNat 32 (i 0).val
  let v9 : Index := Scalar.indexCast arg0
  let c0_i32_2 : BitVec 32 := 0#32
  let c0_i32 : BitVec 32 := 0#32
  let c1_i32 : BitVec 32 := 1#32
  let arg6 : BitVec 32 := Scf.iv c0_i32 c1_i32 k2_t1
  let c1_i32_1 : BitVec 32 := 1#32
  let v1 : BitVec 32 := Scalar.muli arg6 c1_i32_1
  let v2 : BitVec 32 := Scalar.addi c0_i32_2 v1
  let v10 : Index := Scalar.indexCast v2
  let c2 : Index := 2#32
  ![v9.toNat, v10.toNat, 2]
def k2_off4 (v5 : BitVec 32) (v8 : BitVec 32) : Fin 3 → Nat :=
  let c1_i32_3 : BitVec 32 := 1#32
  let v12 : BitVec 32 := Scalar.subi v8 c1_i32_3
  let c0_i32_8 : BitVec 32 := 0#32
  ![v5.toNat, v12.toNat, 0]

def k2_off5 (v5 : BitVec 32) (v11 : BitVec 32) : Fin 3 → Nat :=
  let c0_i32_12 : BitVec 32 := 0#32
  ![v5.toNat, v11.toNat, 0]

def k2_off6 (v5 : BitVec 32) (v11 : BitVec 32) : Fin 3 → Nat :=
  let c1_i32_4 : BitVec 32 := 1#32
  let v13 : BitVec 32 := Scalar.addi v11 c1_i32_4
  let c0_i32_15 : BitVec 32 := 0#32
  ![v5.toNat, v13.toNat, 0]

def k2_chk2 (v5 : BitVec 32) (v11 : BitVec 32) : Prop :=
  (∀ a, (k2_off5 v5 v11) a + S1x1x1024.size a ≤ S16x2048x1024.size a) ∧
  (∀ a, (k2_off6 v5 v11) a + S1x1x1024.size a ≤ S16x2048x1024.size a)
instance k2_chk2.dec : ∀ (v5 : BitVec 32) (v11 : BitVec 32), Decidable (k2_chk2 v5 v11) := fun v5 v11 => decidable_of_iff' _ (Iff.of_eq (k2_chk2.eq_1 v5 v11))
theorem k2_off5_inb : ∀ (v5 : BitVec 32) (v11 : BitVec 32) (k2_hw2 : k2_chk2 v5 v11), ∀ a, (k2_off5 v5 v11) a + S1x1x1024.size a ≤ S16x2048x1024.size a := fun v5 v11 k2_hw2 => k2_hw2.1
theorem k2_off6_inb : ∀ (v5 : BitVec 32) (v11 : BitVec 32) (k2_hw2 : k2_chk2 v5 v11), ∀ a, (k2_off6 v5 v11) a + S1x1x1024.size a ≤ S16x2048x1024.size a := fun v5 v11 k2_hw2 => k2_hw2.2

def k2_off7 (v5 : BitVec 32) (v8 : BitVec 32) : Fin 3 → Nat :=
  let c0_i32_18 : BitVec 32 := 0#32
  ![v5.toNat, v8.toNat, 0]
def k2_off8 (v5 : BitVec 32) (v8 : BitVec 32) : Fin 3 → Nat :=
  let c1_i32_3 : BitVec 32 := 1#32
  let v12 : BitVec 32 := Scalar.subi v8 c1_i32_3
  let c0_i32_22 : BitVec 32 := 0#32
  ![v5.toNat, v12.toNat, 0]

def k2_chk1 (v5 : BitVec 32) (v8 : BitVec 32) : Prop :=
  (∀ a, (k2_off4 v5 v8) a + S1x1x1024.size a ≤ S16x2048x1024.size a) ∧
  (∀ a, (k2_off7 v5 v8) a + S1x1x1024.size a ≤ S16x2048x1024.size a) ∧
  (∀ a, (k2_off8 v5 v8) a + S1x1x1024.size a ≤ S16x2048x1024.size a)
instance k2_chk1.dec : ∀ (v5 : BitVec 32) (v8 : BitVec 32), Decidable (k2_chk1 v5 v8) := fun v5 v8 => decidable_of_iff' _ (Iff.of_eq (k2_chk1.eq_1 v5 v8))
theorem k2_off4_inb : ∀ (v5 : BitVec 32) (v8 : BitVec 32) (k2_hw1 : k2_chk1 v5 v8), ∀ a, (k2_off4 v5 v8) a + S1x1x1024.size a ≤ S16x2048x1024.size a := fun v5 v8 k2_hw1 => k2_hw1.1
theorem k2_off7_inb : ∀ (v5 : BitVec 32) (v8 : BitVec 32) (k2_hw1 : k2_chk1 v5 v8), ∀ a, (k2_off7 v5 v8) a + S1x1x1024.size a ≤ S16x2048x1024.size a := fun v5 v8 k2_hw1 => k2_hw1.2.1
theorem k2_off8_inb : ∀ (v5 : BitVec 32) (v8 : BitVec 32) (k2_hw1 : k2_chk1 v5 v8), ∀ a, (k2_off8 v5 v8) a + S1x1x1024.size a ≤ S16x2048x1024.size a := fun v5 v8 k2_hw1 => k2_hw1.2.2

def k2_off9 (k2_t1 : Fin k2_t1_loop.trips) : Fin 3 → Nat :=
  let c0_41 : Index := 0#32
  let c0_i32_2 : BitVec 32 := 0#32
  let c0_i32 : BitVec 32 := 0#32
  let c1_i32 : BitVec 32 := 1#32
  let arg6 : BitVec 32 := Scf.iv c0_i32 c1_i32 k2_t1
  let c1_i32_1 : BitVec 32 := 1#32
  let v1 : BitVec 32 := Scalar.muli arg6 c1_i32_1
  let v2 : BitVec 32 := Scalar.addi c0_i32_2 v1
  let v71 : Index := Scalar.indexCast v2
  let c0_42 : Index := 0#32
  ![0, v71.toNat, 0]
def k2_off10 (k2_t1 : Fin k2_t1_loop.trips) : Fin 3 → Nat :=
  let c0_43 : Index := 0#32
  let c0_i32_2 : BitVec 32 := 0#32
  let c0_i32 : BitVec 32 := 0#32
  let c1_i32 : BitVec 32 := 1#32
  let arg6 : BitVec 32 := Scf.iv c0_i32 c1_i32 k2_t1
  let c1_i32_1 : BitVec 32 := 1#32
  let v1 : BitVec 32 := Scalar.muli arg6 c1_i32_1
  let v2 : BitVec 32 := Scalar.addi c0_i32_2 v1
  let v76 : Index := Scalar.indexCast v2
  let c512_44 : Index := 512#32
  ![0, v76.toNat, 512]
def k2_off11 (k2_t1 : Fin k2_t1_loop.trips) : Fin 3 → Nat :=
  let c0_45 : Index := 0#32
  let c0_i32_2 : BitVec 32 := 0#32
  let c0_i32 : BitVec 32 := 0#32
  let c1_i32 : BitVec 32 := 1#32
  let arg6 : BitVec 32 := Scf.iv c0_i32 c1_i32 k2_t1
  let c1_i32_1 : BitVec 32 := 1#32
  let v1 : BitVec 32 := Scalar.muli arg6 c1_i32_1
  let v2 : BitVec 32 := Scalar.addi c0_i32_2 v1
  let v80 : Index := Scalar.indexCast v2
  let c1024 : Index := 1024#32
  ![0, v80.toNat, 1024]
def k2_off12 (k2_t1 : Fin k2_t1_loop.trips) : Fin 3 → Nat :=
  let c0_46 : Index := 0#32
  let c0_i32_2 : BitVec 32 := 0#32
  let c0_i32 : BitVec 32 := 0#32
  let c1_i32 : BitVec 32 := 1#32
  let arg6 : BitVec 32 := Scf.iv c0_i32 c1_i32 k2_t1
  let c1_i32_1 : BitVec 32 := 1#32
  let v1 : BitVec 32 := Scalar.muli arg6 c1_i32_1
  let v2 : BitVec 32 := Scalar.addi c0_i32_2 v1
  let v84 : Index := Scalar.indexCast v2
  let c1536 : Index := 1536#32
  ![0, v84.toNat, 1536]
def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x64x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨1, ![16], ![false]⟩

abbrev pre3 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

@[reducible] def k3_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k3_off1 (i : grid3.Coords) (k3_t1 : Fin k3_t1_loop.trips) : Fin 3 → Nat :=
  let arg0 : BitVec 32 := BitVec.ofNat 32 (i 0).val
  let v3 : Index := Scalar.indexCast arg0
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let v4 : Index := Scalar.indexCast v2
  let c0 : Index := 0#32
  ![v3.toNat, v4.toNat, 0]
def k3_off2 (i : grid3.Coords) (k3_t1 : Fin k3_t1_loop.trips) : Fin 3 → Nat :=
  let arg0 : BitVec 32 := BitVec.ofNat 32 (i 0).val
  let v6 : Index := Scalar.indexCast arg0
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let v7 : Index := Scalar.indexCast v2
  let c1 : Index := 1#32
  ![v6.toNat, v7.toNat, 1]
def k3_off3 (i : grid3.Coords) (k3_t1 : Fin k3_t1_loop.trips) : Fin 3 → Nat :=
  let arg0 : BitVec 32 := BitVec.ofNat 32 (i 0).val
  let v9 : Index := Scalar.indexCast arg0
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let v10 : Index := Scalar.indexCast v2
  let c2 : Index := 2#32
  ![v9.toNat, v10.toNat, 2]
def k3_off4 (v5 : BitVec 32) (v8 : BitVec 32) : Fin 3 → Nat :=
  let c1_i32_3 : BitVec 32 := 1#32
  let v12 : BitVec 32 := Scalar.subi v8 c1_i32_3
  let c0_i32_8 : BitVec 32 := 0#32
  ![v5.toNat, v12.toNat, 0]

def k3_off5 (v5 : BitVec 32) (v11 : BitVec 32) : Fin 3 → Nat :=
  let c0_i32_12 : BitVec 32 := 0#32
  ![v5.toNat, v11.toNat, 0]

def k3_off6 (v5 : BitVec 32) (v11 : BitVec 32) : Fin 3 → Nat :=
  let c1_i32_4 : BitVec 32 := 1#32
  let v13 : BitVec 32 := Scalar.addi v11 c1_i32_4
  let c0_i32_15 : BitVec 32 := 0#32
  ![v5.toNat, v13.toNat, 0]

def k3_chk2 (v5 : BitVec 32) (v11 : BitVec 32) : Prop :=
  (∀ a, (k3_off5 v5 v11) a + S1x1x1024.size a ≤ S16x2048x1024.size a) ∧
  (∀ a, (k3_off6 v5 v11) a + S1x1x1024.size a ≤ S16x2048x1024.size a)
instance k3_chk2.dec : ∀ (v5 : BitVec 32) (v11 : BitVec 32), Decidable (k3_chk2 v5 v11) := fun v5 v11 => decidable_of_iff' _ (Iff.of_eq (k3_chk2.eq_1 v5 v11))
theorem k3_off5_inb : ∀ (v5 : BitVec 32) (v11 : BitVec 32) (k3_hw2 : k3_chk2 v5 v11), ∀ a, (k3_off5 v5 v11) a + S1x1x1024.size a ≤ S16x2048x1024.size a := fun v5 v11 k3_hw2 => k3_hw2.1
theorem k3_off6_inb : ∀ (v5 : BitVec 32) (v11 : BitVec 32) (k3_hw2 : k3_chk2 v5 v11), ∀ a, (k3_off6 v5 v11) a + S1x1x1024.size a ≤ S16x2048x1024.size a := fun v5 v11 k3_hw2 => k3_hw2.2

def k3_off7 (v5 : BitVec 32) (v8 : BitVec 32) : Fin 3 → Nat :=
  let c0_i32_18 : BitVec 32 := 0#32
  ![v5.toNat, v8.toNat, 0]
def k3_off8 (v5 : BitVec 32) (v8 : BitVec 32) : Fin 3 → Nat :=
  let c1_i32_3 : BitVec 32 := 1#32
  let v12 : BitVec 32 := Scalar.subi v8 c1_i32_3
  let c0_i32_22 : BitVec 32 := 0#32
  ![v5.toNat, v12.toNat, 0]

def k3_chk1 (v5 : BitVec 32) (v8 : BitVec 32) : Prop :=
  (∀ a, (k3_off4 v5 v8) a + S1x1x1024.size a ≤ S16x2048x1024.size a) ∧
  (∀ a, (k3_off7 v5 v8) a + S1x1x1024.size a ≤ S16x2048x1024.size a) ∧
  (∀ a, (k3_off8 v5 v8) a + S1x1x1024.size a ≤ S16x2048x1024.size a)
instance k3_chk1.dec : ∀ (v5 : BitVec 32) (v8 : BitVec 32), Decidable (k3_chk1 v5 v8) := fun v5 v8 => decidable_of_iff' _ (Iff.of_eq (k3_chk1.eq_1 v5 v8))
theorem k3_off4_inb : ∀ (v5 : BitVec 32) (v8 : BitVec 32) (k3_hw1 : k3_chk1 v5 v8), ∀ a, (k3_off4 v5 v8) a + S1x1x1024.size a ≤ S16x2048x1024.size a := fun v5 v8 k3_hw1 => k3_hw1.1
theorem k3_off7_inb : ∀ (v5 : BitVec 32) (v8 : BitVec 32) (k3_hw1 : k3_chk1 v5 v8), ∀ a, (k3_off7 v5 v8) a + S1x1x1024.size a ≤ S16x2048x1024.size a := fun v5 v8 k3_hw1 => k3_hw1.2.1
theorem k3_off8_inb : ∀ (v5 : BitVec 32) (v8 : BitVec 32) (k3_hw1 : k3_chk1 v5 v8), ∀ a, (k3_off8 v5 v8) a + S1x1x1024.size a ≤ S16x2048x1024.size a := fun v5 v8 k3_hw1 => k3_hw1.2.2

def k3_off9 (k3_t1 : Fin k3_t1_loop.trips) : Fin 3 → Nat :=
  let c0_41 : Index := 0#32
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let v71 : Index := Scalar.indexCast v2
  let c0_42 : Index := 0#32
  ![0, v71.toNat, 0]
def k3_off10 (k3_t1 : Fin k3_t1_loop.trips) : Fin 3 → Nat :=
  let c0_43 : Index := 0#32
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let v76 : Index := Scalar.indexCast v2
  let c512_44 : Index := 512#32
  ![0, v76.toNat, 512]
def k3_off11 (k3_t1 : Fin k3_t1_loop.trips) : Fin 3 → Nat :=
  let c0_45 : Index := 0#32
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let v80 : Index := Scalar.indexCast v2
  let c1024 : Index := 1024#32
  ![0, v80.toNat, 1024]
def k3_off12 (k3_t1 : Fin k3_t1_loop.trips) : Fin 3 → Nat :=
  let c0_46 : Index := 0#32
  let c0_i32_2 : BitVec 32 := 0#32
  let c0_i32 : BitVec 32 := 0#32
  let c1_i32 : BitVec 32 := 1#32
  let arg6 : BitVec 32 := Scf.iv c0_i32 c1_i32 k3_t1
  let c1_i32_1 : BitVec 32 := 1#32
  let v1 : BitVec 32 := Scalar.muli arg6 c1_i32_1
  let v2 : BitVec 32 := Scalar.addi c0_i32_2 v1
  let v84 : Index := Scalar.indexCast v2
  let c1536 : Index := 1536#32
  ![0, v84.toNat, 1536]
def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x64x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

class Facts₀ : Prop where
  numel1_S1 : S1.numel = 1
  inb_S2_S1_0 : ∀ a, (![0] : Fin 1 → Nat) a + S1.size a ≤ S2.size a
  squeezes_S1_S_ : S1.Squeezes S_
  inb_S2x1024_S1x1024_0_0 : ∀ a, (![0, 0] : Fin 2 → Nat) a + S1x1024.size a ≤ S2x1024.size a
  squeezes_S1x1024_S1024 : S1x1024.Squeezes S1024
  squeezes_S1x1x1024_S1024 : S1x1x1024.Squeezes S1024
  inb_S2_S1_1 : ∀ a, (![1] : Fin 1 → Nat) a + S1.size a ≤ S2.size a
  inb_S2x1024_S1x1024_1_0 : ∀ a, (![1, 0] : Fin 2 → Nat) a + S1x1024.size a ≤ S2x1024.size a
  inb_S2x1024_S1x512_0_0 : ∀ a, (![0, 0] : Fin 2 → Nat) a + S1x512.size a ≤ S2x1024.size a
  h_S1x512 : 0 < S1x512.numel
  shapeCasts_S1x512_S512 : S1x512.ShapeCasts S512
  shapeCasts_S512_S1x512 : S512.ShapeCasts S1x512
  inb_S2x1024_S1x512_1_512 : ∀ a, (![1, 512] : Fin 2 → Nat) a + S1x512.size a ≤ S2x1024.size a
  numel1_S1x1x1 : S1x1x1.numel = 1
  inb_S4_S1_0 : ∀ a, (![0] : Fin 1 → Nat) a + S1.size a ≤ S4.size a
  inb_S4x1024_S1x1024_0_0 : ∀ a, (![0, 0] : Fin 2 → Nat) a + S1x1024.size a ≤ S4x1024.size a
  inb_S4_S1_1 : ∀ a, (![1] : Fin 1 → Nat) a + S1.size a ≤ S4.size a
  inb_S4x1024_S1x1024_1_0 : ∀ a, (![1, 0] : Fin 2 → Nat) a + S1x1024.size a ≤ S4x1024.size a
  inb_S4_S1_2 : ∀ a, (![2] : Fin 1 → Nat) a + S1.size a ≤ S4.size a
  inb_S4x1024_S1x1024_2_0 : ∀ a, (![2, 0] : Fin 2 → Nat) a + S1x1024.size a ≤ S4x1024.size a
  inb_S4_S1_3 : ∀ a, (![3] : Fin 1 → Nat) a + S1.size a ≤ S4.size a
  inb_S4x1024_S1x1024_3_0 : ∀ a, (![3, 0] : Fin 2 → Nat) a + S1x1024.size a ≤ S4x1024.size a
  inb_S4x1024_S1x512_0_0 : ∀ a, (![0, 0] : Fin 2 → Nat) a + S1x512.size a ≤ S4x1024.size a
  inb_S4x1024_S1x512_1_0 : ∀ a, (![1, 0] : Fin 2 → Nat) a + S1x512.size a ≤ S4x1024.size a
  inb_S4x1024_S1x512_2_512 : ∀ a, (![2, 512] : Fin 2 → Nat) a + S1x512.size a ≤ S4x1024.size a
  inb_S4x1024_S1x512_3_512 : ∀ a, (![3, 512] : Fin 2 → Nat) a + S1x512.size a ≤ S4x1024.size a
  h_S1x1x512 : 0 < S1x1x512.numel
  shapeCasts_S1x1x512_S512 : S1x1x512.ShapeCasts S512
  shapeCasts_S512_S1x1x512 : S512.ShapeCasts S1x1x512
  hcc0_scratch1 : 1 + S2.numel ≤ 21
  hcc1_scratch1 : 5 + S4.numel ≤ 21
  hcc2_scratch1 : 11 + S4.numel ≤ 21
  hcc3_scratch1 : 17 + S4.numel ≤ 21
  hrank0 : 0 < grid0.rank
  k0_t1_ok : k0_t1_loop.OK
  k0_off1_inb : ∀ k0_t1 : Fin k0_t1_loop.trips, ∀ a, (k0_off1 k0_t1) a + S1.size a ≤ S16.size a
  k0_off3_inb : ∀ k0_t1 : Fin k0_t1_loop.trips, ∀ a, (k0_off3 k0_t1) a + S1x1x1024.size a ≤ S16x128x1024.size a
  k0_off4_inb : ∀ k0_t1 : Fin k0_t1_loop.trips, ∀ a, (k0_off4 k0_t1) a + S1x512.size a ≤ S16x1024.size a
  k0_off5_inb : ∀ k0_t1 : Fin k0_t1_loop.trips, ∀ a, (k0_off5 k0_t1) a + S1x512.size a ≤ S16x1024.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S16x1024.size a ≤ S16x1024.size a
  hwx0_0 : ∀ i : grid0.Coords, EltTy.bits .f32 = 32 ∨ (Rect.block (s := S16x1024) S16x1024.size (cc0_transform_1 i) (hinb0_0 i)).WholeWords (EltTy.packing .f32)
  hrank1 : 0 < grid1.rank
  k1_t1_ok : k1_t1_loop.OK
  k1_off1_inb : ∀ (i : grid1.Coords) (k1_t1 : Fin k1_t1_loop.trips), ∀ a, (k1_off1 i k1_t1) a + S1x1x1.size a ≤ S16x64x3.size a
  k1_off2_inb : ∀ (i : grid1.Coords) (k1_t1 : Fin k1_t1_loop.trips), ∀ a, (k1_off2 i k1_t1) a + S1x1x1.size a ≤ S16x64x3.size a
  k1_off3_inb : ∀ (i : grid1.Coords) (k1_t1 : Fin k1_t1_loop.trips), ∀ a, (k1_off3 i k1_t1) a + S1x1x1.size a ≤ S16x64x3.size a
  k1_off9_inb : ∀ k1_t1 : Fin k1_t1_loop.trips, ∀ a, (k1_off9 k1_t1) a + S1x1x512.size a ≤ S1x64x2048.size a
  k1_off10_inb : ∀ k1_t1 : Fin k1_t1_loop.trips, ∀ a, (k1_off10 k1_t1) a + S1x1x512.size a ≤ S1x64x2048.size a
  k1_off11_inb : ∀ k1_t1 : Fin k1_t1_loop.trips, ∀ a, (k1_off11 k1_t1) a + S1x1x512.size a ≤ S1x64x2048.size a
  k1_off12_inb : ∀ k1_t1 : Fin k1_t1_loop.trips, ∀ a, (k1_off12 k1_t1) a + S1x1x512.size a ≤ S1x64x2048.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S1x64x2048.size a ≤ S16x64x2048.size a
  hwx1_0 : ∀ i : grid1.Coords, EltTy.bits .f32 = 32 ∨ (Rect.block (s := S16x64x2048) S1x64x2048.size (cc1_transform_1 i) (hinb1_0 i)).WholeWords (EltTy.packing .f32)
  hrank2 : 0 < grid2.rank
  k2_t1_ok : k2_t1_loop.OK
  k2_off1_inb : ∀ (i : grid2.Coords) (k2_t1 : Fin k2_t1_loop.trips), ∀ a, (k2_off1 i k2_t1) a + S1x1x1.size a ≤ S16x64x3.size a
  k2_off2_inb : ∀ (i : grid2.Coords) (k2_t1 : Fin k2_t1_loop.trips), ∀ a, (k2_off2 i k2_t1) a + S1x1x1.size a ≤ S16x64x3.size a
  k2_off3_inb : ∀ (i : grid2.Coords) (k2_t1 : Fin k2_t1_loop.trips), ∀ a, (k2_off3 i k2_t1) a + S1x1x1.size a ≤ S16x64x3.size a
  k2_off9_inb : ∀ k2_t1 : Fin k2_t1_loop.trips, ∀ a, (k2_off9 k2_t1) a + S1x1x512.size a ≤ S1x64x2048.size a
  k2_off10_inb : ∀ k2_t1 : Fin k2_t1_loop.trips, ∀ a, (k2_off10 k2_t1) a + S1x1x512.size a ≤ S1x64x2048.size a
  k2_off11_inb : ∀ k2_t1 : Fin k2_t1_loop.trips, ∀ a, (k2_off11 k2_t1) a + S1x1x512.size a ≤ S1x64x2048.size a
  k2_off12_inb : ∀ k2_t1 : Fin k2_t1_loop.trips, ∀ a, (k2_off12 k2_t1) a + S1x1x512.size a ≤ S1x64x2048.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S1x64x2048.size a ≤ S16x64x2048.size a
  hwx2_0 : ∀ i : grid2.Coords, EltTy.bits .f32 = 32 ∨ (Rect.block (s := S16x64x2048) S1x64x2048.size (cc2_transform_1 i) (hinb2_0 i)).WholeWords (EltTy.packing .f32)
  hrank3 : 0 < grid3.rank
  k3_t1_ok : k3_t1_loop.OK
  k3_off1_inb : ∀ (i : grid3.Coords) (k3_t1 : Fin k3_t1_loop.trips), ∀ a, (k3_off1 i k3_t1) a + S1x1x1.size a ≤ S16x64x3.size a
  k3_off2_inb : ∀ (i : grid3.Coords) (k3_t1 : Fin k3_t1_loop.trips), ∀ a, (k3_off2 i k3_t1) a + S1x1x1.size a ≤ S16x64x3.size a
  k3_off3_inb : ∀ (i : grid3.Coords) (k3_t1 : Fin k3_t1_loop.trips), ∀ a, (k3_off3 i k3_t1) a + S1x1x1.size a ≤ S16x64x3.size a
  k3_off9_inb : ∀ k3_t1 : Fin k3_t1_loop.trips, ∀ a, (k3_off9 k3_t1) a + S1x1x512.size a ≤ S1x64x2048.size a
  k3_off10_inb : ∀ k3_t1 : Fin k3_t1_loop.trips, ∀ a, (k3_off10 k3_t1) a + S1x1x512.size a ≤ S1x64x2048.size a
  k3_off11_inb : ∀ k3_t1 : Fin k3_t1_loop.trips, ∀ a, (k3_off11 k3_t1) a + S1x1x512.size a ≤ S1x64x2048.size a
  k3_off12_inb : ∀ k3_t1 : Fin k3_t1_loop.trips, ∀ a, (k3_off12 k3_t1) a + S1x1x512.size a ≤ S1x64x2048.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S1x64x2048.size a ≤ S16x64x2048.size a
  hwx3_0 : ∀ i : grid3.Coords, EltTy.bits .f32 = 32 ∨ (Rect.block (s := S16x64x2048) S1x64x2048.size (cc3_transform_1 i) (hinb3_0 i)).WholeWords (EltTy.packing .f32)

variable [Facts₀]

abbrev cc0_scratch1 : DmaSems sig S2 := SemArray.consecutive 1 S2 hcc0_scratch1
abbrev cc1_scratch1 : DmaSems sig S4 := SemArray.consecutive 5 S4 hcc1_scratch1
abbrev cc2_scratch1 : DmaSems sig S4 := SemArray.consecutive 11 S4 hcc2_scratch1
abbrev cc3_scratch1 : DmaSems sig S4 := SemArray.consecutive 17 S4 hcc3_scratch1

abbrev spec0_0 : Pipeline.WinSpec sig grid0.rank :=
  Pipeline.WinSpec.ofSpec (Memref.whole main_v0) S16x1024.size reads0_0 true true 1 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev spec1_0 : Pipeline.WinSpec sig grid1.rank :=
  Pipeline.WinSpec.ofSpec (Memref.whole main_v1) S1x64x2048.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev spec2_0 : Pipeline.WinSpec sig grid2.rank :=
  Pipeline.WinSpec.ofSpec (Memref.whole main_v2) S1x64x2048.size reads2_0 true false 2 stage2_0 sem2_0 nbuf2_0 hstage2_0

abbrev spec2 : Fin 1 → Pipeline.WinSpec sig grid2.rank := fun | 0 => spec2_0 | ⟨_ + 1, h⟩ => absurd h (Nat.not_lt.2 (Nat.le_add_left _ _))
theorem hcount2 : ∀ w, grid2.bufCount (spec2 w).reads (spec2 w).sync = (spec2 w).nbuf := fun | 0 => nbuf2_0 | ⟨_ + 1, h⟩ => absurd h (Nat.not_lt.2 (Nat.le_add_left _ _))
abbrev ix2 (pf : pre2.Contents (Elt F)) : (w : Fin 1) → grid2.Coords → Fin (spec2 w).shape.rank → Nat := fun | 0 => cc2_transform_1 | ⟨_ + 1, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | ⟨_ + 1, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | ⟨_ + 1, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | ⟨_ + 1, h⟩ => absurd h (Nat.not_lt.2 (Nat.le_add_left _ _))
abbrev spec3_0 : Pipeline.WinSpec sig grid3.rank :=
  Pipeline.WinSpec.ofSpec (Memref.whole main_v3) S1x64x2048.size reads3_0 true false 2 stage3_0 sem3_0 nbuf3_0 hstage3_0

abbrev spec3 : Fin 1 → Pipeline.WinSpec sig grid3.rank := fun | 0 => spec3_0 | ⟨_ + 1, h⟩ => absurd h (Nat.not_lt.2 (Nat.le_add_left _ _))
theorem hcount3 : ∀ w, grid3.bufCount (spec3 w).reads (spec3 w).sync = (spec3 w).nbuf := fun | 0 => nbuf3_0 | ⟨_ + 1, h⟩ => absurd h (Nat.not_lt.2 (Nat.le_add_left _ _))
abbrev ix3 (pf : pre3.Contents (Elt F)) : (w : Fin 1) → grid3.Coords → Fin (spec3 w).shape.rank → Nat := fun | 0 => cc3_transform_1 | ⟨_ + 1, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | ⟨_ + 1, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | ⟨_ + 1, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | ⟨_ + 1, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole

variable [Facts]
-- ==== ReferenceIdeal.lean ====
abbrev S16x128x1024 : Shape := ⟨3, ![16, 128, 1024]⟩
abbrev S16x2048x1024 : Shape := ⟨3, ![16, 2048, 1024]⟩
abbrev S16 : Shape := ⟨1, ![16]⟩
abbrev S16x64x3 : Shape := ⟨3, ![16, 64, 3]⟩
abbrev S_ : Shape := ⟨0, ![]⟩
abbrev S16x1 : Shape := ⟨2, ![16, 1]⟩
abbrev S16x3 : Shape := ⟨2, ![16, 3]⟩
abbrev S16x512 : Shape := ⟨2, ![16, 512]⟩
abbrev S16x1024 : Shape := ⟨2, ![16, 1024]⟩
abbrev S16x64x1 : Shape := ⟨3, ![16, 64, 1]⟩
abbrev S16x64 : Shape := ⟨2, ![16, 64]⟩
abbrev S16x2048x512 : Shape := ⟨3, ![16, 2048, 512]⟩
abbrev S16x64x2 : Shape := ⟨3, ![16, 64, 2]⟩
abbrev S16x64x512 : Shape := ⟨3, ![16, 64, 512]⟩
abbrev S16x64x2048 : Shape := ⟨3, ![16, 64, 2048]⟩

abbrev nBuf : Space → Nat
  | .hbm => 314
  | .vmem => 0
  | .smem => 0
  | _ => 0

abbrev hbmTy0_0 (i : Nat) : BufTy := match i % 128 with
  | 0 => ⟨S16x128x1024, .f32⟩
  | 1 => ⟨S16x2048x1024, .f32⟩
  | 2 => ⟨S16, .i32⟩
  | 3 => ⟨S16x64x3, .i32⟩
  | 4 => ⟨S16x64x3, .i32⟩
  | 5 => ⟨S16x64x3, .i32⟩
  | 6 => ⟨S16, .i32⟩
  | 7 => ⟨S_, .i32⟩
  | 8 => ⟨S16, .i32⟩
  | 9 => ⟨S16, .i32⟩
  | 10 => ⟨S_, .i32⟩
  | 11 => ⟨S16, .i32⟩
  | 12 => ⟨S16, .i1⟩
  | 13 => ⟨S_, .i32⟩
  | 14 => ⟨S16, .i32⟩
  | 15 => ⟨S16, .i32⟩
  | 16 => ⟨S16, .i32⟩
  | 17 => ⟨S_, .i32⟩
  | 18 => ⟨S16, .i32⟩
  | 19 => ⟨S16, .i1⟩
  | 20 => ⟨S_, .i32⟩
  | 21 => ⟨S16, .i32⟩
  | 22 => ⟨S16, .i32⟩
  | 23 => ⟨S16, .i32⟩
  | 24 => ⟨S16x1, .i32⟩
  | 25 => ⟨S16x1, .i32⟩
  | 26 => ⟨S_, .i32⟩
  | 27 => ⟨S16x1, .i32⟩
  | 28 => ⟨S16x3, .i32⟩
  | 29 => ⟨S16x512, .f32⟩
  | 30 => ⟨S_, .i32⟩
  | 31 => ⟨S16, .i32⟩
  | 32 => ⟨S16, .i1⟩
  | 33 => ⟨S_, .i32⟩
  | 34 => ⟨S16, .i32⟩
  | 35 => ⟨S16, .i32⟩
  | 36 => ⟨S16, .i32⟩
  | 37 => ⟨S_, .i32⟩
  | 38 => ⟨S16, .i32⟩
  | 39 => ⟨S16, .i32⟩
  | 40 => ⟨S16x1, .i32⟩
  | 41 => ⟨S16x1, .i32⟩
  | 42 => ⟨S_, .i32⟩
  | 43 => ⟨S16x1, .i32⟩
  | 44 => ⟨S16x3, .i32⟩
  | 45 => ⟨S16x512, .f32⟩
  | 46 => ⟨S16x1024, .f32⟩
  | 47 => ⟨S16x64x1, .i32⟩
  | 48 => ⟨S16x64, .i32⟩
  | 49 => ⟨S16x64x1, .i32⟩
  | 50 => ⟨S16x64, .i32⟩
  | 51 => ⟨S16x64x1, .i32⟩
  | 52 => ⟨S16x64, .i32⟩
  | 53 => ⟨S16x2048x512, .f32⟩
  | 54 => ⟨S16x2048x512, .f32⟩
  | 55 => ⟨S_, .i32⟩
  | 56 => ⟨S16x64, .i32⟩
  | 57 => ⟨S16x64, .i32⟩
  | 58 => ⟨S_, .i32⟩
  | 59 => ⟨S16x64, .i32⟩
  | 60 => ⟨S16x64, .i1⟩
  | 61 => ⟨S_, .i32⟩
  | 62 => ⟨S16x64, .i32⟩
  | 63 => ⟨S16x64, .i32⟩
  | 64 => ⟨S16x64, .i32⟩
  | 65 => ⟨S_, .i32⟩
  | 66 => ⟨S16x64, .i32⟩
  | 67 => ⟨S16x64, .i1⟩
  | 68 => ⟨S_, .i32⟩
  | 69 => ⟨S16x64, .i32⟩
  | 70 => ⟨S16x64, .i32⟩
  | 71 => ⟨S16x64, .i32⟩
  | 72 => ⟨S16x64x1, .i32⟩
  | 73 => ⟨S16x64x1, .i32⟩
  | 74 => ⟨S16x64x2, .i32⟩
  | 75 => ⟨S16x64x512, .f32⟩
  | 76 => ⟨S_, .i32⟩
  | 77 => ⟨S16x64, .i32⟩
  | 78 => ⟨S16x64, .i1⟩
  | 79 => ⟨S_, .i32⟩
  | 80 => ⟨S16x64, .i32⟩
  | 81 => ⟨S16x64, .i32⟩
  | 82 => ⟨S16x64, .i32⟩
  | 83 => ⟨S_, .i32⟩
  | 84 => ⟨S16x64, .i32⟩
  | 85 => ⟨S16x64, .i1⟩
  | 86 => ⟨S_, .i32⟩
  | 87 => ⟨S16x64, .i32⟩
  | 88 => ⟨S16x64, .i32⟩
  | 89 => ⟨S16x64, .i32⟩
  | 90 => ⟨S16x64x1, .i32⟩
  | 91 => ⟨S16x64x1, .i32⟩
  | 92 => ⟨S16x64x2, .i32⟩
  | 93 => ⟨S16x64x512, .f32⟩
  | 94 => ⟨S_, .i32⟩
  | 95 => ⟨S16x64, .i32⟩
  | 96 => ⟨S16x64, .i32⟩
  | 97 => ⟨S_, .i32⟩
  | 98 => ⟨S16x64, .i32⟩
  | 99 => ⟨S16x64, .i1⟩
  | 100 => ⟨S_, .i32⟩
  | 101 => ⟨S16x64, .i32⟩
  | 102 => ⟨S16x64, .i32⟩
  | 103 => ⟨S16x64, .i32⟩
  | 104 => ⟨S_, .i32⟩
  | 105 => ⟨S16x64, .i32⟩
  | 106 => ⟨S16x64, .i1⟩
  | 107 => ⟨S_, .i32⟩
  | 108 => ⟨S16x64, .i32⟩
  | 109 => ⟨S16x64, .i32⟩
  | 110 => ⟨S16x64, .i32⟩
  | 111 => ⟨S16x64x1, .i32⟩
  | 112 => ⟨S16x64x1, .i32⟩
  | 113 => ⟨S16x64x2, .i32⟩
  | 114 => ⟨S16x64x512, .f32⟩
  | 115 => ⟨S_, .i32⟩
  | 116 => ⟨S16x64, .i32⟩
  | 117 => ⟨S16x64, .i1⟩
  | 118 => ⟨S_, .i32⟩
  | 119 => ⟨S16x64, .i32⟩
  | 120 => ⟨S16x64, .i32⟩
  | 121 => ⟨S16x64, .i32⟩
  | 122 => ⟨S_, .i32⟩
  | 123 => ⟨S16x64, .i32⟩
  | 124 => ⟨S16x64, .i1⟩
  | 125 => ⟨S_, .i32⟩
  | 126 => ⟨S16x64, .i32⟩
  | 127 => ⟨S16x64, .i32⟩
  | _ => ⟨S16x128x1024, .f32⟩

abbrev hbmTy0_1 (i : Nat) : BufTy := match i % 128 with
  | 0 => ⟨S16x64, .i32⟩
  | 1 => ⟨S16x64x1, .i32⟩
  | 2 => ⟨S16x64x1, .i32⟩
  | 3 => ⟨S16x64x2, .i32⟩
  | 4 => ⟨S16x64x512, .f32⟩
  | 5 => ⟨S16x64x512, .f32⟩
  | 6 => ⟨S16x64x512, .f32⟩
  | 7 => ⟨S16x64x2048, .f32⟩
  | 8 => ⟨S16x64x1, .i32⟩
  | 9 => ⟨S16x64, .i32⟩
  | 10 => ⟨S16x64x1, .i32⟩
  | 11 => ⟨S16x64, .i32⟩
  | 12 => ⟨S16x64x1, .i32⟩
  | 13 => ⟨S16x64, .i32⟩
  | 14 => ⟨S16x2048x512, .f32⟩
  | 15 => ⟨S16x2048x512, .f32⟩
  | 16 => ⟨S_, .i32⟩
  | 17 => ⟨S16x64, .i32⟩
  | 18 => ⟨S16x64, .i32⟩
  | 19 => ⟨S_, .i32⟩
  | 20 => ⟨S16x64, .i32⟩
  | 21 => ⟨S16x64, .i1⟩
  | 22 => ⟨S_, .i32⟩
  | 23 => ⟨S16x64, .i32⟩
  | 24 => ⟨S16x64, .i32⟩
  | 25 => ⟨S16x64, .i32⟩
  | 26 => ⟨S_, .i32⟩
  | 27 => ⟨S16x64, .i32⟩
  | 28 => ⟨S16x64, .i1⟩
  | 29 => ⟨S_, .i32⟩
  | 30 => ⟨S16x64, .i32⟩
  | 31 => ⟨S16x64, .i32⟩
  | 32 => ⟨S16x64, .i32⟩
  | 33 => ⟨S16x64x1, .i32⟩
  | 34 => ⟨S16x64x1, .i32⟩
  | 35 => ⟨S16x64x2, .i32⟩
  | 36 => ⟨S16x64x512, .f32⟩
  | 37 => ⟨S_, .i32⟩
  | 38 => ⟨S16x64, .i32⟩
  | 39 => ⟨S16x64, .i1⟩
  | 40 => ⟨S_, .i32⟩
  | 41 => ⟨S16x64, .i32⟩
  | 42 => ⟨S16x64, .i32⟩
  | 43 => ⟨S16x64, .i32⟩
  | 44 => ⟨S_, .i32⟩
  | 45 => ⟨S16x64, .i32⟩
  | 46 => ⟨S16x64, .i1⟩
  | 47 => ⟨S_, .i32⟩
  | 48 => ⟨S16x64, .i32⟩
  | 49 => ⟨S16x64, .i32⟩
  | 50 => ⟨S16x64, .i32⟩
  | 51 => ⟨S16x64x1, .i32⟩
  | 52 => ⟨S16x64x1, .i32⟩
  | 53 => ⟨S16x64x2, .i32⟩
  | 54 => ⟨S16x64x512, .f32⟩
  | 55 => ⟨S_, .i32⟩
  | 56 => ⟨S16x64, .i32⟩
  | 57 => ⟨S16x64, .i32⟩
  | 58 => ⟨S_, .i32⟩
  | 59 => ⟨S16x64, .i32⟩
  | 60 => ⟨S16x64, .i1⟩
  | 61 => ⟨S_, .i32⟩
  | 62 => ⟨S16x64, .i32⟩
  | 63 => ⟨S16x64, .i32⟩
  | 64 => ⟨S16x64, .i32⟩
  | 65 => ⟨S_, .i32⟩
  | 66 => ⟨S16x64, .i32⟩
  | 67 => ⟨S16x64, .i1⟩
  | 68 => ⟨S_, .i32⟩
  | 69 => ⟨S16x64, .i32⟩
  | 70 => ⟨S16x64, .i32⟩
  | 71 => ⟨S16x64, .i32⟩
  | 72 => ⟨S16x64x1, .i32⟩
  | 73 => ⟨S16x64x1, .i32⟩
  | 74 => ⟨S16x64x2, .i32⟩
  | 75 => ⟨S16x64x512, .f32⟩
  | 76 => ⟨S_, .i32⟩
  | 77 => ⟨S16x64, .i32⟩
  | 78 => ⟨S16x64, .i1⟩
  | 79 => ⟨S_, .i32⟩
  | 80 => ⟨S16x64, .i32⟩
  | 81 => ⟨S16x64, .i32⟩
  | 82 => ⟨S16x64, .i32⟩
  | 83 => ⟨S_, .i32⟩
  | 84 => ⟨S16x64, .i32⟩
  | 85 => ⟨S16x64, .i1⟩
  | 86 => ⟨S_, .i32⟩
  | 87 => ⟨S16x64, .i32⟩
  | 88 => ⟨S16x64, .i32⟩
  | 89 => ⟨S16x64, .i32⟩
  | 90 => ⟨S16x64x1, .i32⟩
  | 91 => ⟨S16x64x1, .i32⟩
  | 92 => ⟨S16x64x2, .i32⟩
  | 93 => ⟨S16x64x512, .f32⟩
  | 94 => ⟨S16x64x512, .f32⟩
  | 95 => ⟨S16x64x512, .f32⟩
  | 96 => ⟨S16x64x2048, .f32⟩
  | 97 => ⟨S16x64x1, .i32⟩
  | 98 => ⟨S16x64, .i32⟩
  | 99 => ⟨S16x64x1, .i32⟩
  | 100 => ⟨S16x64, .i32⟩
  | 101 => ⟨S16x64x1, .i32⟩
  | 102 => ⟨S16x64, .i32⟩
  | 103 => ⟨S16x2048x512, .f32⟩
  | 104 => ⟨S16x2048x512, .f32⟩
  | 105 => ⟨S_, .i32⟩
  | 106 => ⟨S16x64, .i32⟩
  | 107 => ⟨S16x64, .i32⟩
  | 108 => ⟨S_, .i32⟩
  | 109 => ⟨S16x64, .i32⟩
  | 110 => ⟨S16x64, .i1⟩
  | 111 => ⟨S_, .i32⟩
  | 112 => ⟨S16x64, .i32⟩
  | 113 => ⟨S16x64, .i32⟩
  | 114 => ⟨S16x64, .i32⟩
  | 115 => ⟨S_, .i32⟩
  | 116 => ⟨S16x64, .i32⟩
  | 117 => ⟨S16x64, .i1⟩
  | 118 => ⟨S_, .i32⟩
  | 119 => ⟨S16x64, .i32⟩
  | 120 => ⟨S16x64, .i32⟩
  | 121 => ⟨S16x64, .i32⟩
  | 122 => ⟨S16x64x1, .i32⟩
  | 123 => ⟨S16x64x1, .i32⟩
  | 124 => ⟨S16x64x2, .i32⟩
  | 125 => ⟨S16x64x512, .f32⟩
  | 126 => ⟨S_, .i32⟩
  | 127 => ⟨S16x64, .i32⟩
  | _ => ⟨S16x128x1024, .f32⟩

abbrev hbmTy0_2 (i : Nat) : BufTy := match i % 128 with
  | 0 => ⟨S16x64, .i1⟩
  | 1 => ⟨S_, .i32⟩
  | 2 => ⟨S16x64, .i32⟩
  | 3 => ⟨S16x64, .i32⟩
  | 4 => ⟨S16x64, .i32⟩
  | 5 => ⟨S_, .i32⟩
  | 6 => ⟨S16x64, .i32⟩
  | 7 => ⟨S16x64, .i1⟩
  | 8 => ⟨S_, .i32⟩
  | 9 => ⟨S16x64, .i32⟩
  | 10 => ⟨S16x64, .i32⟩
  | 11 => ⟨S16x64, .i32⟩
  | 12 => ⟨S16x64x1, .i32⟩
  | 13 => ⟨S16x64x1, .i32⟩
  | 14 => ⟨S16x64x2, .i32⟩
  | 15 => ⟨S16x64x512, .f32⟩
  | 16 => ⟨S_, .i32⟩
  | 17 => ⟨S16x64, .i32⟩
  | 18 => ⟨S16x64, .i32⟩
  | 19 => ⟨S_, .i32⟩
  | 20 => ⟨S16x64, .i32⟩
  | 21 => ⟨S16x64, .i1⟩
  | 22 => ⟨S_, .i32⟩
  | 23 => ⟨S16x64, .i32⟩
  | 24 => ⟨S16x64, .i32⟩
  | 25 => ⟨S16x64, .i32⟩
  | 26 => ⟨S_, .i32⟩
  | 27 => ⟨S16x64, .i32⟩
  | 28 => ⟨S16x64, .i1⟩
  | 29 => ⟨S_, .i32⟩
  | 30 => ⟨S16x64, .i32⟩
  | 31 => ⟨S16x64, .i32⟩
  | 32 => ⟨S16x64, .i32⟩
  | 33 => ⟨S16x64x1, .i32⟩
  | 34 => ⟨S16x64x1, .i32⟩
  | 35 => ⟨S16x64x2, .i32⟩
  | 36 => ⟨S16x64x512, .f32⟩
  | 37 => ⟨S_, .i32⟩
  | 38 => ⟨S16x64, .i32⟩
  | 39 => ⟨S16x64, .i1⟩
  | 40 => ⟨S_, .i32⟩
  | 41 => ⟨S16x64, .i32⟩
  | 42 => ⟨S16x64, .i32⟩
  | 43 => ⟨S16x64, .i32⟩
  | 44 => ⟨S_, .i32⟩
  | 45 => ⟨S16x64, .i32⟩
  | 46 => ⟨S16x64, .i1⟩
  | 47 => ⟨S_, .i32⟩
  | 48 => ⟨S16x64, .i32⟩
  | 49 => ⟨S16x64, .i32⟩
  | 50 => ⟨S16x64, .i32⟩
  | 51 => ⟨S16x64x1, .i32⟩
  | 52 => ⟨S16x64x1, .i32⟩
  | 53 => ⟨S16x64x2, .i32⟩
  | 54 => ⟨S16x64x512, .f32⟩
  | 55 => ⟨S16x64x512, .f32⟩
  | 56 => ⟨S16x64x512, .f32⟩
  | 57 => ⟨S16x64x2048, .f32⟩
  | _ => ⟨S16x128x1024, .f32⟩

abbrev hbmTy (i : Nat) : BufTy := match i / 128 with
  | 0 => hbmTy0_0 i
  | 1 => hbmTy0_1 i
  | 2 => hbmTy0_2 i
  | _ => ⟨S16x128x1024, .f32⟩

abbrev bufTy : (tb : Table) → Fin (tcTables nBuf tb) → BufTy
  | .hbm, ⟨i, _⟩ => hbmTy i
  | _, _ => ⟨S16x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_c_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_12 : Ref sig .tc := ⟨.hbm, 65, rfl⟩
abbrev main_v46 : Ref sig .tc := ⟨.hbm, 66, rfl⟩
abbrev main_v47 : Ref sig .tc := ⟨.hbm, 67, rfl⟩
abbrev main_c_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_14 : Ref sig .tc := ⟨.hbm, 76, rfl⟩
abbrev main_v55 : Ref sig .tc := ⟨.hbm, 77, rfl⟩
abbrev main_v56 : Ref sig .tc := ⟨.hbm, 78, rfl⟩
abbrev main_c_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_16 : Ref sig .tc := ⟨.hbm, 83, rfl⟩
abbrev main_v60 : Ref sig .tc := ⟨.hbm, 84, rfl⟩
abbrev main_v61 : Ref sig .tc := ⟨.hbm, 85, rfl⟩
abbrev main_c_17 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_18 : Ref sig .tc := ⟨.hbm, 94, rfl⟩
abbrev main_v69 : Ref sig .tc := ⟨.hbm, 95, rfl⟩
abbrev main_v70 : Ref sig .tc := ⟨.hbm, 96, rfl⟩
abbrev main_c_19 : Ref sig .tc := ⟨.hbm, 97, rfl⟩
abbrev main_v71 : Ref sig .tc := ⟨.hbm, 98, rfl⟩
abbrev main_v72 : Ref sig .tc := ⟨.hbm, 99, rfl⟩
abbrev main_c_20 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_21 : Ref sig .tc := ⟨.hbm, 104, rfl⟩
abbrev main_v76 : Ref sig .tc := ⟨.hbm, 105, rfl⟩
abbrev main_v77 : Ref sig .tc := ⟨.hbm, 106, rfl⟩
abbrev main_c_22 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_23 : Ref sig .tc := ⟨.hbm, 115, rfl⟩
abbrev main_v85 : Ref sig .tc := ⟨.hbm, 116, rfl⟩
abbrev main_v86 : Ref sig .tc := ⟨.hbm, 117, rfl⟩
abbrev main_c_24 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_25 : Ref sig .tc := ⟨.hbm, 122, rfl⟩
abbrev main_v90 : Ref sig .tc := ⟨.hbm, 123, rfl⟩
abbrev main_v91 : Ref sig .tc := ⟨.hbm, 124, rfl⟩
abbrev main_c_26 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_27 : Ref sig .tc := ⟨.hbm, 144, rfl⟩
abbrev main_v110 : Ref sig .tc := ⟨.hbm, 145, rfl⟩
abbrev main_v111 : Ref sig .tc := ⟨.hbm, 146, rfl⟩
abbrev main_c_28 : Ref sig .tc := ⟨.hbm, 147, rfl⟩
abbrev main_v112 : Ref sig .tc := ⟨.hbm, 148, rfl⟩
abbrev main_v113 : Ref sig .tc := ⟨.hbm, 149, rfl⟩
abbrev main_c_29 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_30 : Ref sig .tc := ⟨.hbm, 154, rfl⟩
abbrev main_v117 : Ref sig .tc := ⟨.hbm, 155, rfl⟩
abbrev main_v118 : Ref sig .tc := ⟨.hbm, 156, rfl⟩
abbrev main_c_31 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_32 : Ref sig .tc := ⟨.hbm, 165, rfl⟩
abbrev main_v126 : Ref sig .tc := ⟨.hbm, 166, rfl⟩
abbrev main_v127 : Ref sig .tc := ⟨.hbm, 167, rfl⟩
abbrev main_c_33 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_c_34 : Ref sig .tc := ⟨.hbm, 172, rfl⟩
abbrev main_v131 : Ref sig .tc := ⟨.hbm, 173, rfl⟩
abbrev main_v132 : Ref sig .tc := ⟨.hbm, 174, rfl⟩
abbrev main_c_35 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_36 : Ref sig .tc := ⟨.hbm, 183, rfl⟩
abbrev main_v140 : Ref sig .tc := ⟨.hbm, 184, rfl⟩
abbrev main_v141 : Ref sig .tc := ⟨.hbm, 185, rfl⟩
abbrev main_c_37 : Ref sig .tc := ⟨.hbm, 186, rfl⟩
abbrev main_v142 : Ref sig .tc := ⟨.hbm, 187, rfl⟩
abbrev main_v143 : Ref sig .tc := ⟨.hbm, 188, rfl⟩
abbrev main_c_38 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_39 : Ref sig .tc := ⟨.hbm, 193, rfl⟩
abbrev main_v147 : Ref sig .tc := ⟨.hbm, 194, rfl⟩
abbrev main_v148 : Ref sig .tc := ⟨.hbm, 195, rfl⟩
abbrev main_c_40 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_c_41 : Ref sig .tc := ⟨.hbm, 204, rfl⟩
abbrev main_v156 : Ref sig .tc := ⟨.hbm, 205, rfl⟩
abbrev main_v157 : Ref sig .tc := ⟨.hbm, 206, rfl⟩
abbrev main_c_42 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_c_43 : Ref sig .tc := ⟨.hbm, 211, rfl⟩
abbrev main_v161 : Ref sig .tc := ⟨.hbm, 212, rfl⟩
abbrev main_v162 : Ref sig .tc := ⟨.hbm, 213, rfl⟩
abbrev main_c_44 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_c_45 : Ref sig .tc := ⟨.hbm, 233, rfl⟩
abbrev main_v181 : Ref sig .tc := ⟨.hbm, 234, rfl⟩
abbrev main_v182 : Ref sig .tc := ⟨.hbm, 235, rfl⟩
abbrev main_c_46 : Ref sig .tc := ⟨.hbm, 236, rfl⟩
abbrev main_v183 : Ref sig .tc := ⟨.hbm, 237, rfl⟩
abbrev main_v184 : Ref sig .tc := ⟨.hbm, 238, rfl⟩
abbrev main_c_47 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_c_48 : Ref sig .tc := ⟨.hbm, 243, rfl⟩
abbrev main_v188 : Ref sig .tc := ⟨.hbm, 244, rfl⟩
abbrev main_v189 : Ref sig .tc := ⟨.hbm, 245, rfl⟩
abbrev main_c_49 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_c_50 : Ref sig .tc := ⟨.hbm, 254, rfl⟩
abbrev main_v197 : Ref sig .tc := ⟨.hbm, 255, rfl⟩
abbrev main_v198 : Ref sig .tc := ⟨.hbm, 256, rfl⟩
abbrev main_c_51 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_c_52 : Ref sig .tc := ⟨.hbm, 261, rfl⟩
abbrev main_v202 : Ref sig .tc := ⟨.hbm, 262, rfl⟩
abbrev main_v203 : Ref sig .tc := ⟨.hbm, 263, rfl⟩
abbrev main_c_53 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_c_54 : Ref sig .tc := ⟨.hbm, 272, rfl⟩
abbrev main_v211 : Ref sig .tc := ⟨.hbm, 273, rfl⟩
abbrev main_v212 : Ref sig .tc := ⟨.hbm, 274, rfl⟩
abbrev main_c_55 : Ref sig .tc := ⟨.hbm, 275, rfl⟩
abbrev main_v213 : Ref sig .tc := ⟨.hbm, 276, rfl⟩
abbrev main_v214 : Ref sig .tc := ⟨.hbm, 277, rfl⟩
abbrev main_c_56 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_c_57 : Ref sig .tc := ⟨.hbm, 282, rfl⟩
abbrev main_v218 : Ref sig .tc := ⟨.hbm, 283, rfl⟩
abbrev main_v219 : Ref sig .tc := ⟨.hbm, 284, rfl⟩
abbrev main_c_58 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_c_59 : Ref sig .tc := ⟨.hbm, 293, rfl⟩
abbrev main_v227 : Ref sig .tc := ⟨.hbm, 294, rfl⟩
abbrev main_v228 : Ref sig .tc := ⟨.hbm, 295, rfl⟩
abbrev main_c_60 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_c_61 : Ref sig .tc := ⟨.hbm, 300, rfl⟩
abbrev main_v232 : Ref sig .tc := ⟨.hbm, 301, rfl⟩
abbrev main_v233 : Ref sig .tc := ⟨.hbm, 302, rfl⟩
abbrev main_c_62 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  concatenates_S16x1_S16x1_S16x1_S16x3_d1 : Shape.Concatenates [S16x1, S16x1, S16x1] S16x3 1
  concatenates_S16x512_S16x512_S16x1024_d1 : Shape.Concatenates [S16x512, S16x512] S16x1024 1
  slices_S16x64x3_S16x64x1_0_0_0 : S16x64x3.Slices ![0, 0, 0] S16x64x1
  shapeCasts_S16x64x1_S16x64 : S16x64x1.ShapeCasts S16x64
  slices_S16x64x3_S16x64x1_0_0_1 : S16x64x3.Slices ![0, 0, 1] S16x64x1
  slices_S16x64x3_S16x64x1_0_0_2 : S16x64x3.Slices ![0, 0, 2] S16x64x1
  slices_S16x2048x1024_S16x2048x512_0_0_0 : S16x2048x1024.Slices ![0, 0, 0] S16x2048x512
  slices_S16x2048x1024_S16x2048x512_0_0_512 : S16x2048x1024.Slices ![0, 0, 512] S16x2048x512
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  concatenates_S16x64x1_S16x64x1_S16x64x2_d2 : Shape.Concatenates [S16x64x1, S16x64x1] S16x64x2 2
  concatenates_S16x64x512_S16x64x512_S16x64x512_S16x64x512_S16x64x2048_d2 : Shape.Concatenates [S16x64x512, S16x64x512, S16x64x512, S16x64x512] S16x64x2048 2
  gather_S16x128x1024_S16x3_S16x512_1_01_n_n_012_1_11512_wf : GatherDims.WF S16x128x1024 S16x3 S16x512 [1] [0, 1] [] [0, 1, 2] [] 1 ![1, 1, 512]
  gather_S16x2048x512_S16x64x2_S16x64x512_2_01_n_n_01_2_11512_wf : GatherDims.WF S16x2048x512 S16x64x2 S16x64x512 [2] [0, 1] [] [0, 1] [] 2 ![1, 1, 512]

variable [Facts₀]

def gather_S16x128x1024_S16x3_S16x512_1_01_n_n_012_1_11512 : GatherDims S16x128x1024 S16x3 S16x512 where
  offsetDims := [1]
  collapsedSliceDims := [0, 1]
  operandBatchingDims := []
  startIndicesBatchingDims := []
  startIndexMap := [0, 1, 2]
  indexVectorDim := 1
  sliceSizes := ![1, 1, 512]
  wf := gather_S16x128x1024_S16x3_S16x512_1_01_n_n_012_1_11512_wf
def gather_S16x2048x512_S16x64x2_S16x64x512_2_01_n_n_01_2_11512 : GatherDims S16x2048x512 S16x64x2 S16x64x512 where
  offsetDims := [2]
  collapsedSliceDims := [0, 1]
  operandBatchingDims := []
  startIndicesBatchingDims := []
  startIndexMap := [0, 1]
  indexVectorDim := 2
  sliceSizes := ![1, 1, 512]
  wf := gather_S16x2048x512_S16x64x2_S16x64x512_2_01_n_n_01_2_11512_wf

class Facts : Prop extends Facts₀ where

variable [Facts]
-- ==== Proof.PreFacts.lean ====
import proofs.«409333_j59115929862503_1_alg».proof.Pre_finite_inputs
import proofs.«409333_j59115929862503_1_alg».proof.Proof.Gen.Pre_finite_inputs
import Idealize.ShloMosaic.Lib.ValueIdx
import Idealize.ShloMosaic.Lib.ReduceAll

noncomputable section

namespace Cert.Proof.PreFacts

open Idealize.ShloMosaic Cert.Pre_finite_inputs

variable {F : FTy → Type} [FloatOps F] [Cert.Pre_finite_inputs.Facts]

instance subsingleton_scalar : Subsingleton S_.Idx := ⟨fun _ _ => funext fun d => d.elim0⟩

theorem toNat_range (w : BitVec 32) (lo hi : Nat) (hlo : lo < 2147483648) (hhi : hi < 2147483648)
    (h0 : IntOp.cmpi .sge w (BitVec.ofNat 32 lo) = 1#1) (h1 : IntOp.cmpi .sle w (BitVec.ofNat 32 hi) = 1#1) :
    lo ≤ w.toNat ∧ w.toNat ≤ hi := by
  rw [IntOp.cmpi_sge] at h0
  rw [IntOp.cmpi_sle] at h1
  have el : (BitVec.ofNat 32 lo).toInt = (lo : Int) := by
    rw [BitVec.toInt_eq_toNat_of_lt (by rw [BitVec.toNat_ofNat]; omega), BitVec.toNat_ofNat]; omega
  have eh : (BitVec.ofNat 32 hi).toInt = (hi : Int) := by
    rw [BitVec.toInt_eq_toNat_of_lt (by rw [BitVec.toNat_ofNat]; omega), BitVec.toNat_ofNat]; omega
  rw [el] at h0
  rw [eh] at h1
  have hw := w.isLt
  by_cases hc : 2 * w.toNat < 2 ^ 32
  · rw [BitVec.toInt_eq_toNat_of_lt hc] at h0 h1; omega
  · rw [BitVec.toInt_eq_toNat_cond, if_neg hc] at h0; omega

theorem and_scalar {A B : IVec S_ 1} (e : andi A B ValueIdx.ix0 = 1#1) : A ValueIdx.ix0 = 1#1 ∧ B ValueIdx.ix0 = 1#1 :=
  IntOp.andi_eq_one.1 e

theorem slice_col (x : IVec S16x64x3 32) (off : Fin 3 → Nat) (k : Fin 3) (h : S16x64x3.Slices off S16x64x1)
    (h0 : off 0 = 0) (h1 : off 1 = 0) (h2 : off 2 = k.val) (b : Fin 16) (n : Fin 64) :
    extractStridedSlice S16x64x1 off x h (ValueIdx.ix3 b n 0) = x (ValueIdx.ix3 b n k) := by
  unfold extractStridedSlice
  refine congrArg x (funext fun a => Fin.ext ?_)
  match a with
  | ⟨0, _⟩ => show off 0 + b.val = b.val; omega
  | ⟨1, _⟩ => show off 1 + n.val = n.val; omega
  | ⟨2, _⟩ => show off 2 + 0 = k.val; omega

theorem lens_ok (a0 : FVec F S16x128x1024 .f32) (a1 : FVec F S16x2048x1024 .f32) (a2 : IVec S16 32) (a3 a4 a5 : IVec S16x64x3 32)
    (h : Cert.Pre_finite_inputs.fn (F := F) a0 a1 a2 a3 a4 a5 = fun _ => 1#1) :
    ∀ b : Fin 16, 1 ≤ (a2 (ValueIdx.ix1 b)).toNat ∧ (a2 (ValueIdx.ix1 b)).toNat ≤ 128 := by
  intro b
  have e := congrFun h ValueIdx.ix0
  dsimp only [fn, fn_part1, fn_part2, fn_part3, fn_part4] at e
  obtain ⟨e, -⟩ := and_scalar e
  obtain ⟨e, -⟩ := and_scalar e
  obtain ⟨e, -⟩ := and_scalar e
  obtain ⟨-, e⟩ := and_scalar e
  have eb := Host.reduce_andi_all _ _ _ _ _ e (ValueIdx.ix1 b)
  obtain ⟨c0, c1⟩ := IntOp.andi_eq_one.1 eb
  exact toNat_range _ 1 128 (by decide) (by decide) c0 c1

theorem span_elem (x : IVec S16x64x3 32) (b : Fin 16) (n : Fin 64)
    (s0 : S16x64x3.Slices ![0, 0, 0] S16x64x1) (s1 : S16x64x3.Slices ![0, 0, 1] S16x64x1) (s2 : S16x64x3.Slices ![0, 0, 2] S16x64x1)
    (hb : S_.BroadcastsInDim S16x64x1 (![] : Fin 0 → Fin S16x64x1.rank))
    (e : andi (andi (andi (andi (andi
          (cmpi .sge (extractStridedSlice S16x64x1 ![0, 0, 0] x s0) (broadcastInDim S16x64x1 ![] hb (constantI S_ 32 0#32)))
          (cmpi .sle (extractStridedSlice S16x64x1 ![0, 0, 0] x s0) (broadcastInDim S16x64x1 ![] hb (constantI S_ 32 15#32))))
          (cmpi .sge (extractStridedSlice S16x64x1 ![0, 0, 1] x s1) (broadcastInDim S16x64x1 ![] hb (constantI S_ 32 1#32))))
          (cmpi .sle (extractStridedSlice S16x64x1 ![0, 0, 1] x s1) (broadcastInDim S16x64x1 ![] hb (constantI S_ 32 2047#32))))
          (cmpi .sge (extractStridedSlice S16x64x1 ![0, 0, 2] x s2) (broadcastInDim S16x64x1 ![] hb (constantI S_ 32 0#32))))
          (cmpi .sle (extractStridedSlice S16x64x1 ![0, 0, 2] x s2) (broadcastInDim S16x64x1 ![] hb (constantI S_ 32 2046#32)))
          (ValueIdx.ix3 b n 0) = 1#1) :
    (x (ValueIdx.ix3 b n 0)).toNat < 16 ∧ 1 ≤ (x (ValueIdx.ix3 b n 1)).toNat ∧ (x (ValueIdx.ix3 b n 1)).toNat ≤ 2047
      ∧ (x (ValueIdx.ix3 b n 2)).toNat ≤ 2046 := by
  obtain ⟨e, c5⟩ := IntOp.andi_eq_one.1 e
  obtain ⟨e, c4⟩ := IntOp.andi_eq_one.1 e
  obtain ⟨e, c3⟩ := IntOp.andi_eq_one.1 e
  obtain ⟨e, c2⟩ := IntOp.andi_eq_one.1 e
  obtain ⟨c0, c1⟩ := IntOp.andi_eq_one.1 e
  have q0 := slice_col x ![0, 0, 0] 0 s0 rfl rfl rfl b n
  have q1 := slice_col x ![0, 0, 1] 1 s1 rfl rfl rfl b n
  have q2 := slice_col x ![0, 0, 2] 2 s2 rfl rfl rfl b n
  have r0 := toNat_range (x (ValueIdx.ix3 b n 0)) 0 15 (by decide) (by decide) (q0 ▸ c0) (q0 ▸ c1)
  have r1 := toNat_range (x (ValueIdx.ix3 b n 1)) 1 2047 (by decide) (by decide) (q1 ▸ c2) (q1 ▸ c3)
  have r2 := toNat_range (x (ValueIdx.ix3 b n 2)) 0 2046 (by decide) (by decide) (q2 ▸ c4) (q2 ▸ c5)
  exact ⟨by omega, r1.1, r1.2, r2.2⟩

theorem spans_ok (a0 : FVec F S16x128x1024 .f32) (a1 : FVec F S16x2048x1024 .f32) (a2 : IVec S16 32) (a3 a4 a5 : IVec S16x64x3 32)
    (h : Cert.Pre_finite_inputs.fn (F := F) a0 a1 a2 a3 a4 a5 = fun _ => 1#1) :
    (∀ (b : Fin 16) (n : Fin 64), (a3 (ValueIdx.ix3 b n 0)).toNat < 16 ∧ 1 ≤ (a3 (ValueIdx.ix3 b n 1)).toNat ∧ (a3 (ValueIdx.ix3 b n 1)).toNat ≤ 2047 ∧ (a3 (ValueIdx.ix3 b n 2)).toNat ≤ 2046)
    ∧ (∀ (b : Fin 16) (n : Fin 64), (a4 (ValueIdx.ix3 b n 0)).toNat < 16 ∧ 1 ≤ (a4 (ValueIdx.ix3 b n 1)).toNat ∧ (a4 (ValueIdx.ix3 b n 1)).toNat ≤ 2047 ∧ (a4 (ValueIdx.ix3 b n 2)).toNat ≤ 2046)
    ∧ (∀ (b : Fin 16) (n : Fin 64), (a5 (ValueIdx.ix3 b n 0)).toNat < 16 ∧ 1 ≤ (a5 (ValueIdx.ix3 b n 1)).toNat ∧ (a5 (ValueIdx.ix3 b n 1)).toNat ≤ 2047 ∧ (a5 (ValueIdx.ix3 b n 2)).toNat ≤ 2046) := by
  have e := congrFun h ValueIdx.ix0
  dsimp only [fn, fn_part1, fn_part2, fn_part3, fn_part4] at e
  obtain ⟨e, e5⟩ := and_scalar e
  obtain ⟨e, e4⟩ := and_scalar e
  obtain ⟨-, e3⟩ := and_scalar e
  exact ⟨fun b n => span_elem a3 b n _ _ _ _ (Host.reduce_andi_all _ _ _ _ _ e3 (ValueIdx.ix3 b n 0)),
    fun b n => span_elem a4 b n _ _ _ _ (Host.reduce_andi_all _ _ _ _ _ e4 (ValueIdx.ix3 b n 0)),
    fun b n => span_elem a5 b n _ _ _ _ (Host.reduce_andi_all _ _ _ _ _ e5 (ValueIdx.ix3 b n 0))⟩

end Cert.Proof.PreFacts

end
-- ==== Proof.KI.Common.lean ====
import proofs.«409333_j59115929862503_1_alg».proof.Proof.Gen.KernelIdeal.Launch
import proofs.«409333_j59115929862503_1_alg».proof.Proof.Gen.KernelIdeal.Loops
import Idealize.ShloMosaic.Lib.Tactic
import Idealize.ShloMosaic.Lib.Pipeline.Kit
import Idealize.ShloMosaic.Lib.ValueIdx

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

abbrev MM (F : FTy → Type) [FloatOps F] : Type := MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MM F) :=
  M.view.loc (c : Thread nD τ) ↦{fullShare} f

abbrev osem0 : Fin 2 → SemLoc sig := fun | 0 => .dma 1 | 1 => .dma 2
abbrev osem1 : Fin 4 → SemLoc sig := fun | 0 => .dma 5 | 1 => .dma 6 | 2 => .dma 7 | 3 => .dma 8
abbrev osem2 : Fin 4 → SemLoc sig := fun | 0 => .dma 11 | 1 => .dma 12 | 2 => .dma 13 | 3 => .dma 14
abbrev osem3 : Fin 4 → SemLoc sig := fun | 0 => .dma 17 | 1 => .dma 18 | 2 => .dma 19 | 3 => .dma 20

abbrev sems0_0 (c : Dev nD) : sProp (MM F) :=
  iprop(semVal ((c : Thread nD τ), osem0 0) 0 ∗ semVal ((c : Thread nD τ), osem0 1) 0)
abbrev sems0_1 (c : Dev nD) : sProp (MM F) :=
  iprop(semVal ((c : Thread nD τ), osem1 0) 0 ∗ semVal ((c : Thread nD τ), osem1 1) 0 ∗ semVal ((c : Thread nD τ), osem1 2) 0 ∗ semVal ((c : Thread nD τ), osem1 3) 0)
abbrev sems0_2 (c : Dev nD) : sProp (MM F) :=
  iprop(semVal ((c : Thread nD τ), osem2 0) 0 ∗ semVal ((c : Thread nD τ), osem2 1) 0 ∗ semVal ((c : Thread nD τ), osem2 2) 0 ∗ semVal ((c : Thread nD τ), osem2 3) 0)
abbrev sems0_3 (c : Dev nD) : sProp (MM F) :=
  iprop(semVal ((c : Thread nD τ), osem3 0) 0 ∗ semVal ((c : Thread nD τ), osem3 1) 0 ∗ semVal ((c : Thread nD τ), osem3 2) 0 ∗ semVal ((c : Thread nD τ), osem3 3) 0)

def tIdx (b r j : Nat) : S16x128x1024.Idx :=
  ValueIdx.ix3 ⟨b % 16, Nat.mod_lt _ (by decide)⟩ ⟨r % 128, Nat.mod_lt _ (by decide)⟩ ⟨j % 1024, Nat.mod_lt _ (by decide)⟩

def wIdx (e r j : Nat) : S16x2048x1024.Idx :=
  ValueIdx.ix3 ⟨e % 16, Nat.mod_lt _ (by decide)⟩ ⟨r % 2048, Nat.mod_lt _ (by decide)⟩ ⟨j % 1024, Nat.mod_lt _ (by decide)⟩

def sIdx (b : Fin 16) (n : Fin 64) (k : Fin 3) : S16x64x3.Idx := ValueIdx.ix3 b n k

def LensOk (lens : S16.Idx → BitVec 32) : Prop :=
  ∀ b : Fin 16, 1 ≤ (lens (ValueIdx.ix1 b)).toNat ∧ (lens (ValueIdx.ix1 b)).toNat ≤ 128

def SpansOk (sp : S16x64x3.Idx → BitVec 32) : Prop :=
  ∀ (b : Fin 16) (n : Fin 64), (sp (sIdx b n 0)).toNat < 16 ∧ 1 ≤ (sp (sIdx b n 1)).toNat ∧ (sp (sIdx b n 1)).toNat ≤ 2047
    ∧ (sp (sIdx b n 2)).toNat ≤ 2046

def tRow (X : S16x128x1024.Idx → Elt F .f32) (b r off : Nat) : FVec F S512 .f32 := fun j => X (tIdx b r (off + (j 0).val))

def wRow (X : S16x2048x1024.Idx → Elt F .f32) (e r off : Nat) : FVec F S512 .f32 := fun j => X (wIdx e r (off + (j 0).val))

def topicBlk (X : S16x128x1024.Idx → Elt F .f32) (lens : S16.Idx → BitVec 32) : S16x1024.Idx → Elt F .f32 := fun y =>
  let b := (y 0).val
  let j := (y 1).val
  if j < 512 then X (tIdx b ((lens (ValueIdx.ix1 (y 0))).toNat - 1) j) else X (tIdx b 0 j)

def spE (sp : S16x64x3.Idx → BitVec 32) (b : Fin 16) (n : Fin 64) : Nat := (sp (sIdx b n 0)).toNat
def spS (sp : S16x64x3.Idx → BitVec 32) (b : Fin 16) (n : Fin 64) : Nat := (sp (sIdx b n 1)).toNat
def spEn (sp : S16x64x3.Idx → BitVec 32) (b : Fin 16) (n : Fin 64) : Nat := (sp (sIdx b n 2)).toNat

def diffAt (X : S16x2048x1024.Idx → Elt F .f32) (sp : S16x64x3.Idx → BitVec 32) (b : Fin 16) (n : Fin 64) (j : Nat) : Elt F .f32 :=
  let e := spE sp b n
  let s := spS sp b n
  let en := spEn sp b n
  if j < 512 then subf (wRow X e en 0) (wRow X e (s - 1) 0) (ValueIdx.ix1 ⟨j % 512, Nat.mod_lt _ (by decide)⟩)
  else if j < 1024 then subf (wRow X e s 512) (wRow X e (en + 1) 512) (ValueIdx.ix1 ⟨j % 512, Nat.mod_lt _ (by decide)⟩)
  else if j < 1536 then X (wIdx e (s - 1) (j - 1024))
  else X (wIdx e (en + 1) (j - 1024))

def diffBlk (X : S16x2048x1024.Idx → Elt F .f32) (sp : S16x64x3.Idx → BitVec 32) (b : Fin 16) : S1x64x2048.Idx → Elt F .f32 :=
  fun y => diffAt X sp b (y 1) (y 2).val

def diffArr (X : S16x2048x1024.Idx → Elt F .f32) (sp : S16x64x3.Idx → BitVec 32) : S16x64x2048.Idx → Elt F .f32 :=
  fun y => diffAt X sp (y 0) (y 1) (y 2).val

end Cert.Proof.KI

end
-- ==== Proof.KI.Dats.lean ====
import proofs.«409333_j59115929862503_1_alg».proof.Proof.KI.Common
import proofs.«409333_j59115929862503_1_alg».proof.Proof.Gen.KernelIdeal.Regions

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

abbrev W0 (c : Dev nD) (b : Ref sig .tc) : Buf (Elt F) ((c : Thread nD τ).loc b) := m ((c : Thread nD τ).loc b)

def adm : (p : Fin 4) → (pcfgs (F := F) p).Adm
  | ⟨0, _⟩ => ⟨fun | 0 => W0 m 0 main_arg2 | ⟨_ + 1, h⟩ => absurd h (Nat.not_lt.2 (Nat.le_add_left _ _)), trivial⟩
  | ⟨1, _⟩ => ⟨fun | 0 => W0 m 0 main_arg3 | ⟨_ + 1, h⟩ => absurd h (Nat.not_lt.2 (Nat.le_add_left _ _)), trivial⟩
  | ⟨2, _⟩ => ⟨fun | 0 => W0 m 0 main_arg4 | ⟨_ + 1, h⟩ => absurd h (Nat.not_lt.2 (Nat.le_add_left _ _)), trivial⟩
  | ⟨3, _⟩ => ⟨fun | 0 => W0 m 0 main_arg5 | ⟨_ + 1, h⟩ => absurd h (Nat.not_lt.2 (Nat.le_add_left _ _)), trivial⟩
  | ⟨_ + 4, h⟩ => absurd h (Nat.not_lt.2 (Nat.le_add_left _ _))

def Φ0 (c : Dev nD) : sProp (MM F) :=
  iprop(pt c (Memref.whole main_arg0) (W0 m c main_arg0) ∗ pt c (Memref.whole main_arg2) (W0 m c main_arg2) ∗ sems0_0 c
    ∗ Pipeline.scopedRest (Ix := Unit) (Name := ℕ) (U := UU nD τ) (Lvl := ℕ) (Val := Elt F) spec0 c)
def Φ1 (c : Dev nD) : sProp (MM F) :=
  iprop(pt c (Memref.whole main_arg1) (W0 m c main_arg1) ∗ pt c (Memref.whole main_arg3) (W0 m c main_arg3) ∗ sems0_1 c
    ∗ Pipeline.scopedRest (Ix := Unit) (Name := ℕ) (U := UU nD τ) (Lvl := ℕ) (Val := Elt F) spec1 c)
def Φ2 (c : Dev nD) : sProp (MM F) :=
  iprop(pt c (Memref.whole main_arg1) (W0 m c main_arg1) ∗ pt c (Memref.whole main_arg4) (W0 m c main_arg4) ∗ sems0_2 c
    ∗ Pipeline.scopedRest (Ix := Unit) (Name := ℕ) (U := UU nD τ) (Lvl := ℕ) (Val := Elt F) spec2 c)
def Φ3 (c : Dev nD) : sProp (MM F) :=
  iprop(pt c (Memref.whole main_arg1) (W0 m c main_arg1) ∗ pt c (Memref.whole main_arg5) (W0 m c main_arg5) ∗ sems0_3 c
    ∗ Pipeline.scopedRest (Ix := Unit) (Name := ℕ) (U := UU nD τ) (Lvl := ℕ) (Val := Elt F) spec3 c)

def dat0 (c : Dev nD) : Pipeline.Dat τ (Elt F) Unit ℕ (UU nD τ) ℕ (cfg0 (adm m 0)) c where
  A w := W0 m c (Pipeline.arrRef spec0 w)
  after w _ := match w with | ⟨0, _⟩ => topicBlk (W0 m c main_arg0) (W0 m c main_arg2)
  Φ _ := Φ0 m c
  q _ := fullShare
  owed _ := 0
def dat1 (c : Dev nD) : Pipeline.Dat τ (Elt F) Unit ℕ (UU nD τ) ℕ (cfg1 (adm m 1)) c where
  A w := W0 m c (Pipeline.arrRef spec1 w)
  after w t := match w with | ⟨0, _⟩ => diffBlk (W0 m c main_arg1) (W0 m c main_arg3) (grid1.coords t 0)
  Φ _ := Φ1 m c
  q _ := fullShare
  owed _ := 0
def dat2 (c : Dev nD) : Pipeline.Dat τ (Elt F) Unit ℕ (UU nD τ) ℕ (cfg2 (adm m 2)) c where
  A w := W0 m c (Pipeline.arrRef spec2 w)
  after w t := match w with | ⟨0, _⟩ => diffBlk (W0 m c main_arg1) (W0 m c main_arg4) (grid2.coords t 0)
  Φ _ := Φ2 m c
  q _ := fullShare
  owed _ := 0
def dat3 (c : Dev nD) : Pipeline.Dat τ (Elt F) Unit ℕ (UU nD τ) ℕ (cfg3 (adm m 3)) c where
  A w := W0 m c (Pipeline.arrRef spec3 w)
  after w t := match w with | ⟨0, _⟩ => diffBlk (W0 m c main_arg1) (W0 m c main_arg5) (grid3.coords t 0)
  Φ _ := Φ3 m c
  q _ := fullShare
  owed _ := 0

def pdats : (p : Fin 4) → (c : Dev nD) → Pipeline.Dat τ (Elt F) Unit ℕ (UU nD τ) ℕ (Pipeline.pin (pcfgs (F := F)) (adm m) p) c
  | ⟨0, _⟩ => fun c => dat0 m c
  | ⟨1, _⟩ => fun c => dat1 m c
  | ⟨2, _⟩ => fun c => dat2 m c
  | ⟨3, _⟩ => fun c => dat3 m c
  | ⟨_ + 4, h⟩ => absurd h (Nat.not_lt.2 (Nat.le_add_left _ _))

def final0 (c : Dev nD) : Buf (Elt F) ((c : Thread nD τ).loc main_v0) := (dat0 m c).arrAt 0 (cfg0 (adm m 0)).N
def final1 (c : Dev nD) : Buf (Elt F) ((c : Thread nD τ).loc main_v1) := (dat1 m c).arrAt 0 (cfg1 (adm m 1)).N
def final2 (c : Dev nD) : Buf (Elt F) ((c : Thread nD τ).loc main_v2) := (dat2 m c).arrAt 0 (cfg2 (adm m 2)).N
def final3 (c : Dev nD) : Buf (Elt F) ((c : Thread nD τ).loc main_v3) := (dat3 m c).arrAt 0 (cfg3 (adm m 3)).N

end Cert.Proof.KI

end
-- ==== Proof.KI.Body0.lean ====
import proofs.«409333_j59115929862503_1_alg».proof.Proof.KI.Common
import Idealize.ShloMosaic.Lib.QrPanel.StackBlock
import Idealize.ShloMosaic.Lib.WritesUnit

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace B0

open Idealize.ShloMosaic.ValueIdx

theorem trips_eq : k0_t1_loop.trips = 16 := by decide

theorem off1_eq : ∀ k : Fin k0_t1_loop.trips, k0_off1 k = ![k.val] := by decide
theorem off3_eq : ∀ k : Fin k0_t1_loop.trips, k0_off3 k = ![k.val, 0, 0] := by decide
theorem off4_eq : ∀ k : Fin k0_t1_loop.trips, k0_off4 k = ![k.val, 0] := by decide
theorem off5_eq : ∀ k : Fin k0_t1_loop.trips, k0_off5 k = ![k.val, 512] := by decide

theorem off2_eq (k : Fin k0_t1_loop.trips) (w : BitVec 32) : k0_off2 k w = ![k.val, (w - 1#32).toNat, 0] := by
  have h := congrFun (off3_eq k) 0
  unfold k0_off3 at h
  unfold k0_off2
  funext a
  fin_cases a
  · exact h
  · rfl
  · rfl

theorem chk1_of_le (k : Fin k0_t1_loop.trips) (w : BitVec 32) (h1 : 1 ≤ w.toNat) (h2 : w.toNat ≤ 128) : k0_chk1 k w := by
  have hk : k.val < 16 := lt_of_lt_of_eq k.isLt trips_eq
  have hw : (w - 1#32).toNat = w.toNat - 1 := by
    rw [BitVec.toNat_sub_of_le (by rw [BitVec.le_def]; simpa using h1)]
    rfl
  intro a
  rw [off2_eq]
  fin_cases a
  · show k.val + 1 ≤ 16; omega
  · show (w - 1#32).toNat + 1 ≤ 128; omega
  · show 0 + 1024 ≤ 1024; omega

theorem word_eq (c : Dev nD) (lens : Bf (F := F) c (Memref.whole main_arg2)) (k : Fin k0_t1_loop.trips)
    (h : ∀ a, (k0_off1 k) a + S1.size a ≤ S16.size a) (x : (Rect.unit (s := S16) (k0_off1 k) S1.size h).toLoadRect.shape.Idx) :
    View.readAt (Elt F) (Memref.whole main_arg2).view (Rect.unit (s := S16) (k0_off1 k) S1.size h).toLoadRect lens x
      = lens (ix1 ⟨k.val, lt_of_lt_of_eq k.isLt trips_eq⟩) := by
  rw [View.readAt_apply]
  show lens _ = lens _
  congr 1
  funext a
  fin_cases a
  apply Fin.ext
  show k0_off1 k 0 + 1 * (x 0).val = k.val
  have hx : (x 0).val < 1 := (x 0).isLt
  have h1 : k0_off1 k 0 = k.val := congrFun (off1_eq k) 0
  omega

theorem chk1_word (c : Dev nD) (lens : Bf (F := F) c (Memref.whole main_arg2)) (hl : LensOk lens) (k : Fin k0_t1_loop.trips)
    (h : ∀ a, (k0_off1 k) a + S1.size a ≤ S16.size a) (x : (Rect.unit (s := S16) (k0_off1 k) S1.size h).toLoadRect.shape.Idx) :
    k0_chk1 k (View.readAt (Elt F) (Memref.whole main_arg2).view (Rect.unit (s := S16) (k0_off1 k) S1.size h).toLoadRect lens x) := by
  rw [word_eq]
  exact chk1_of_le k _ (hl _).1 (hl _).2

abbrev ptq (c : Dev nD) {sp : Space} {S : Shape} {e : EltTy} (M : Memref sig .tc sp S e) (q : PosShare TreeShare) (f : Bf (F := F) c M) : sProp (MM F) :=
  M.view.loc (c : Thread nD τ) ↦{q} f

abbrev heldX (c : Dev nD) (X : Bf (F := F) c (Memref.whole main_arg0)) : sProp (MM F) :=
  iprop(ptq c (Memref.whole main_arg0) (Transfers.shareDrop fullShare 3) X ∗ ptq c (Memref.whole main_arg0) (Transfers.shareTokN fullShare 2) X
    ∗ ptq c (Memref.whole main_arg0) (Transfers.shareTokN fullShare 1) X ∗ ptq c (Memref.whole main_arg0) (Transfers.shareTokN fullShare 0) X)

theorem heldX_split (c : Dev nD) (X : Bf (F := F) c (Memref.whole main_arg0)) : pt c (Memref.whole main_arg0) X ⊢ heldX c X := by
  iintro H
  ihave Ha := (pointsTo_share (PosShare.mem_left_op_right fullShare)).1 $$ H
  icases Ha with ⟨H1, T0⟩
  ihave Hb := (pointsTo_share (PosShare.mem_left_op_right fullShare.left)).1 $$ H1
  icases Hb with ⟨H2, T1⟩
  ihave Hc := (pointsTo_share (PosShare.mem_left_op_right fullShare.left.left)).1 $$ H2
  icases Hc with ⟨H3, T2⟩
  isplitl [H3]; · iexact H3
  isplitl [T2]; · iexact T2
  isplitl [T1]; · iexact T1
  iexact T0

theorem heldX_join (c : Dev nD) (X : Bf (F := F) c (Memref.whole main_arg0)) : heldX c X ⊢ pt c (Memref.whole main_arg0) X := by
  iintro ⟨H3, T2, T1, T0⟩
  ihave H2 := (pointsTo_share (PosShare.mem_left_op_right fullShare.left.left)).2 $$ [H3 T2]
  · isplitl [H3]; · iexact H3
    iexact T2
  ihave H1 := (pointsTo_share (PosShare.mem_left_op_right fullShare.left)).2 $$ [H2 T1]
  · isplitl [H2]; · iexact H2
    iexact T1
  ihave H0 := (pointsTo_share (PosShare.mem_left_op_right fullShare)).2 $$ [H1 T0]
  · isplitl [H1]; · iexact H1
    iexact T0
  iexact H0

theorem scratch_row_emb (off : Fin 2 → ℕ) (r : Fin 2) (hoff : off = ![r.val, 0])
    (inb : ∀ a, off a + S1x1024.size a ≤ S2x1024.size a) (hs : ∀ a, (Rect.unit (s := S2x1024) off S1x1024.size inb).stride a = 1)
    (hq : S1x1024.Squeezes S1024) (j : Fin 1024) :
    (((Memref.whole cc0_scratch0).slice (Rect.unit (s := S2x1024) off S1x1024.size inb) hs).squeeze S1024 hq).view.emb (ix1 j) = ix2 r j := by
  subst hoff
  show (Rect.unit (s := S2x1024) ![r.val, 0] S1x1024.size inb).emb (Shape.reshapeEquiv hq.numel_eq (ix1 j)) = ix2 r j
  rw [Shape.reshapeEquiv_cons_one]
  funext a
  apply Fin.ext
  rw [Rect.emb_apply]
  match a with
  | ⟨0, _⟩ => show r.val + 1 * 0 = r.val; omega
  | ⟨1, _⟩ => show 0 + 1 * j.val = j.val; omega

theorem scratch_write_hit (c : Dev nD) (off : Fin 2 → ℕ) (r : Fin 2) (hoff : off = ![r.val, 0])
    (inb : ∀ a, off a + S1x1024.size a ≤ S2x1024.size a) (hs : ∀ a, (Rect.unit (s := S2x1024) off S1x1024.size inb).stride a = 1)
    (hq : S1x1024.Squeezes S1024) (f : Bf (F := F) c (Memref.whole cc0_scratch0)) (w : S1024.Idx → Elt F .f32) (j : Fin 1024) :
    View.write (Elt F) (((Memref.whole cc0_scratch0).slice (Rect.unit (s := S2x1024) off S1x1024.size inb) hs).squeeze S1024 hq).view f w Finset.univ (ix2 r j)
      = w (ix1 j) := by
  rw [← scratch_row_emb off r hoff inb hs hq j, View.write_emb_of_mem _ _ (Finset.mem_univ _)]
  rfl

theorem scratch_write_miss (c : Dev nD) (off : Fin 2 → ℕ) (r r' : Fin 2) (hne : r' ≠ r) (hoff : off = ![r.val, 0])
    (inb : ∀ a, off a + S1x1024.size a ≤ S2x1024.size a) (hs : ∀ a, (Rect.unit (s := S2x1024) off S1x1024.size inb).stride a = 1)
    (hq : S1x1024.Squeezes S1024) (f : Bf (F := F) c (Memref.whole cc0_scratch0)) (w : S1024.Idx → Elt F .f32) (j : Fin 1024) :
    View.write (Elt F) (((Memref.whole cc0_scratch0).slice (Rect.unit (s := S2x1024) off S1x1024.size inb) hs).squeeze S1024 hq).view f w Finset.univ (ix2 r' j)
      = f (ix2 r' j) := by
  apply View.write_of_not_mem
  rw [View.setOn_univ]
  intro hm
  obtain ⟨z, -, hz⟩ := Finset.mem_map.mp hm
  obtain ⟨j', rfl⟩ : ∃ j' : Fin 1024, z = ix1 j' := ⟨z 0, eq_ix1 z⟩
  rw [scratch_row_emb off r hoff inb hs hq j'] at hz
  exact hne (congrFun hz 0).symm

theorem src_read (c : Dev nD) (off : Fin 3 → ℕ) (b : Fin 16) (ρ : Fin 128) (hoff : off = ![b.val, ρ.val, 0])
    (inb : ∀ a, off a + S1x1x1024.size a ≤ S16x128x1024.size a) (hs : ∀ a, (Rect.unit (s := S16x128x1024) off S1x1x1024.size inb).stride a = 1)
    (hq : S1x1x1024.Squeezes S1024) (X : Bf (F := F) c (Memref.whole main_arg0)) (j : Fin 1024) :
    View.read (Elt F) (((Memref.whole main_arg0).slice (Rect.unit (s := S16x128x1024) off S1x1x1024.size inb) hs).squeeze S1024 hq).view X (ix1 j)
      = X (ix3 b ρ j) := by
  subst hoff
  show X ((Rect.unit (s := S16x128x1024) ![b.val, ρ.val, 0] S1x1x1024.size inb).emb (Shape.reshapeEquiv hq.numel_eq (ix1 j))) = X (ix3 b ρ j)
  rw [QrPanel.StackBlock.reshapeEquiv_cons_one_one]
  congr 1
  funext a
  apply Fin.ext
  rw [Rect.emb_apply]
  match a with
  | ⟨0, _⟩ => show b.val + 1 * 0 = b.val; omega
  | ⟨1, _⟩ => show ρ.val + 1 * 0 = ρ.val; omega
  | ⟨2, _⟩ => show 0 + 1 * j.val = j.val; omega

theorem load_lo (c : Dev nD) (fs : Bf (F := F) c (Memref.whole cc0_scratch0)) (d0 d1 : S1024.Idx → Elt F .f32)
    (inb0 : ∀ a, (![0, 0] : Fin 2 → ℕ) a + S1x1024.size a ≤ S2x1024.size a) (hs0 : ∀ a, (Rect.unit (s := S2x1024) ![0, 0] S1x1024.size inb0).stride a = 1)
    (inb1 : ∀ a, (![1, 0] : Fin 2 → ℕ) a + S1x1024.size a ≤ S2x1024.size a) (hs1 : ∀ a, (Rect.unit (s := S2x1024) ![1, 0] S1x1024.size inb1).stride a = 1)
    (hq : S1x1024.Squeezes S1024) (inbL : ∀ a, (![0, 0] : Fin 2 → ℕ) a + S1x512.size a ≤ S2x1024.size a)
    (x : (Rect.unit (s := S2x1024) ![0, 0] S1x512.size inbL).toLoadRect.shape.Idx) :
    View.readAt (Elt F) (Memref.whole cc0_scratch0).view (Rect.unit (s := S2x1024) ![0, 0] S1x512.size inbL).toLoadRect
        (View.write (Elt F) (((Memref.whole cc0_scratch0).slice (Rect.unit (s := S2x1024) ![1, 0] S1x1024.size inb1) hs1).squeeze S1024 hq).view
          (View.write (Elt F) (((Memref.whole cc0_scratch0).slice (Rect.unit (s := S2x1024) ![0, 0] S1x1024.size inb0) hs0).squeeze S1024 hq).view fs d0 Finset.univ)
          d1 Finset.univ) x
      = d0 (ix1 ⟨(x 1).val, lt_of_lt_of_le (show (x 1).val < 512 from (x 1).isLt) (by decide)⟩) := by
  have h0 : (x 0).val < 1 := (x 0).isLt
  have hidx : (Rect.unit (s := S2x1024) ![0, 0] S1x512.size inbL).toLoadRect.idx x
      = ix2 (0 : Fin 2) (⟨(x 1).val, lt_of_lt_of_le (show (x 1).val < 512 from (x 1).isLt) (by decide)⟩ : Fin 1024) :=
    funext fun a => Fin.ext (match a with
      | ⟨0, _⟩ => (show 0 + 1 * (x 0).val = 0 by omega)
      | ⟨1, _⟩ => (show 0 + 1 * (x 1).val = (x 1).val by omega))
  rw [View.readAt_apply, hidx]
  exact (scratch_write_miss c _ 1 0 (by decide) rfl inb1 hs1 hq _ d1 _).trans (scratch_write_hit c _ 0 rfl inb0 hs0 hq fs d0 _)

theorem load_hi (c : Dev nD) (g : Bf (F := F) c (Memref.whole cc0_scratch0)) (d1 : S1024.Idx → Elt F .f32)
    (inb1 : ∀ a, (![1, 0] : Fin 2 → ℕ) a + S1x1024.size a ≤ S2x1024.size a) (hs1 : ∀ a, (Rect.unit (s := S2x1024) ![1, 0] S1x1024.size inb1).stride a = 1)
    (hq : S1x1024.Squeezes S1024) (inbL : ∀ a, (![1, 512] : Fin 2 → ℕ) a + S1x512.size a ≤ S2x1024.size a)
    (x : (Rect.unit (s := S2x1024) ![1, 512] S1x512.size inbL).toLoadRect.shape.Idx) :
    View.readAt (Elt F) (Memref.whole cc0_scratch0).view (Rect.unit (s := S2x1024) ![1, 512] S1x512.size inbL).toLoadRect
        (View.write (Elt F) (((Memref.whole cc0_scratch0).slice (Rect.unit (s := S2x1024) ![1, 0] S1x1024.size inb1) hs1).squeeze S1024 hq).view g d1 Finset.univ) x
      = d1 (ix1 ⟨512 + (x 1).val, by have h : (x 1).val < 512 := (x 1).isLt; omega⟩) := by
  have h0 : (x 0).val < 1 := (x 0).isLt
  have h1 : (x 1).val < 512 := (x 1).isLt
  have hidx : (Rect.unit (s := S2x1024) ![1, 512] S1x512.size inbL).toLoadRect.idx x
      = ix2 (1 : Fin 2) (⟨512 + (x 1).val, by omega⟩ : Fin 1024) :=
    funext fun a => Fin.ext (match a with
      | ⟨0, _⟩ => (show 1 + 1 * (x 0).val = 1 by omega)
      | ⟨1, _⟩ => (show 512 + 1 * (x 1).val = 512 + (x 1).val by omega))
  rw [View.readAt_apply, hidx]
  exact scratch_write_hit c _ 1 rfl inb1 hs1 hq g d1 _

def RowsDone (c : Dev nD) (M3 : Memref sig .tc .vmem S16x1024 .f32) (X : Bf (F := F) c (Memref.whole main_arg0))
    (lens : Bf (F := F) c (Memref.whole main_arg2)) (k : ℕ) (f : Bf (F := F) c M3) : Prop :=
  ∀ (b : Fin 16) (j : Fin 1024), b.val < k → M3.view.read (Elt F) f (ix2 b j) = topicBlk X lens (ix2 b j)

theorem rowsDone_zero (c : Dev nD) (M3 : Memref sig .tc .vmem S16x1024 .f32) (X : Bf (F := F) c (Memref.whole main_arg0))
    (lens : Bf (F := F) c (Memref.whole main_arg2)) (f : Bf (F := F) c M3) : RowsDone c M3 X lens 0 f :=
  fun _ _ h => absurd h (Nat.not_lt_zero _)

theorem rowsDone_all (c : Dev nD) (M3 : Memref sig .tc .vmem S16x1024 .f32) (X : Bf (F := F) c (Memref.whole main_arg0))
    (lens : Bf (F := F) c (Memref.whole main_arg2)) (f : Bf (F := F) c M3) (n : ℕ) (hn : n = 16) (h : RowsDone c M3 X lens n f) :
    M3.view.read (Elt F) f = topicBlk X lens := by
  subst hn
  funext y
  rw [eq_ix2 y]
  exact h (y 0) (y 1) (y 0).isLt

theorem rows_step (c : Dev nD) (M3 : Memref sig .tc .vmem S16x1024 .f32) (X : Bf (F := F) c (Memref.whole main_arg0))
    (lens : Bf (F := F) c (Memref.whole main_arg2)) (k : Fin k0_t1_loop.trips) (f : Bf (F := F) c M3)
    (hrows : RowsDone c M3 X lens k.val f)
    (h5 : ∀ a, k0_off5 k a + S1x512.size a ≤ S16x1024.size a) (h4 : ∀ a, k0_off4 k a + S1x512.size a ≤ S16x1024.size a)
    (p5 : (Rect.unit (s := S16x1024) (k0_off5 k) S1x512.size h5).shape.Idx → Elt F .f32)
    (p4 : (Rect.unit (s := S16x1024) (k0_off4 k) S1x512.size h4).shape.Idx → Elt F .f32)
    (hp5 : ∀ j : Fin 512, p5 (ix2 (0 : Fin 1) j) = X (tIdx k.val 0 (512 + j.val)))
    (hp4 : ∀ j : Fin 512, p4 (ix2 (0 : Fin 1) j)
      = X (tIdx k.val ((lens (ix1 (⟨k.val, lt_of_lt_of_eq k.isLt trips_eq⟩ : Fin 16))).toNat - 1) j.val)) :
    RowsDone c M3 X lens (k.val + 1)
      (M3.view.writes (Elt F) f [⟨Rect.unit (s := S16x1024) (k0_off5 k) S1x512.size h5, p5⟩, ⟨Rect.unit (s := S16x1024) (k0_off4 k) S1x512.size h4, p4⟩]) := by
  intro b j hb
  have hk : k.val < 16 := lt_of_lt_of_eq k.isLt trips_eq
  by_cases hlt : b.val < k.val
  · rw [View.read_writes_cons_unit_of_not_mem M3.view f h5 p5 _ (ix2 b j) (off5_eq k) 0 (Or.inl hlt),
      View.read_writes_cons_unit_of_not_mem M3.view f h4 p4 [] (ix2 b j) (off4_eq k) 0 (Or.inl hlt), View.writes_nil]
    exact hrows b j hlt
  · obtain rfl : b = ⟨k.val, hk⟩ := Fin.ext (by show b.val = k.val; omega)
    by_cases hj : j.val < 512
    · rw [View.read_writes_cons_unit_of_not_mem M3.view f h5 p5 _ (ix2 ⟨k.val, hk⟩ j) (off5_eq k) 1 (Or.inl hj),
        View.read_writes_cons_unit_of_mem M3.view f h4 p4 [] (ix2 ⟨k.val, hk⟩ j) (ix2 (0 : Fin 1) (⟨j.val, hj⟩ : Fin 512)) (off4_eq k)
          (fun a => match a with | ⟨0, _⟩ => (show k.val = k.val + 0 from rfl) | ⟨1, _⟩ => (show j.val = 0 + j.val by omega)),
        hp4]
      exact (if_pos hj).symm
    · have hj2 : j.val - 512 < 512 := by have := j.isLt; omega
      rw [View.read_writes_cons_unit_of_mem M3.view f h5 p5 _ (ix2 ⟨k.val, hk⟩ j) (ix2 (0 : Fin 1) (⟨j.val - 512, hj2⟩ : Fin 512)) (off5_eq k)
          (fun a => match a with | ⟨0, _⟩ => (show k.val = k.val + 0 from rfl) | ⟨1, _⟩ => (show j.val = 512 + (j.val - 512) by omega)),
        hp5]
      have e : 512 + (j.val - 512) = j.val := by omega
      show X (tIdx k.val 0 (512 + (j.val - 512))) = _
      rw [e]
      exact (if_neg hj).symm

theorem tIdx_of_lt {b r j : ℕ} (hb : b < 16) (hr : r < 128) (hj : j < 1024) : tIdx b r j = ix3 (⟨b, hb⟩ : Fin 16) (⟨r, hr⟩ : Fin 128) (⟨j, hj⟩ : Fin 1024) := by
  unfold tIdx
  congr 1 <;> exact Fin.ext (Nat.mod_eq_of_lt ‹_›)

theorem pay_hi (c : Dev nD) (X : Bf (F := F) c (Memref.whole main_arg0)) (k : Fin k0_t1_loop.trips) (g : Bf (F := F) c (Memref.whole cc0_scratch0))
    (inb3 : ∀ a, k0_off3 k a + S1x1x1024.size a ≤ S16x128x1024.size a) (hs3 : ∀ a, (Rect.unit (s := S16x128x1024) (k0_off3 k) S1x1x1024.size inb3).stride a = 1)
    (hq3 : S1x1x1024.Squeezes S1024)
    (inb1 : ∀ a, (![1, 0] : Fin 2 → ℕ) a + S1x1024.size a ≤ S2x1024.size a) (hs1 : ∀ a, (Rect.unit (s := S2x1024) ![1, 0] S1x1024.size inb1).stride a = 1)
    (hq : S1x1024.Squeezes S1024) (inbL : ∀ a, (![1, 512] : Fin 2 → ℕ) a + S1x512.size a ≤ S2x1024.size a) (j : Fin 512) :
    k0_pay2 (View.readAt (Elt F) (Memref.whole cc0_scratch0).view (Rect.unit (s := S2x1024) ![1, 512] S1x512.size inbL).toLoadRect
        (View.write (Elt F) (((Memref.whole cc0_scratch0).slice (Rect.unit (s := S2x1024) ![1, 0] S1x1024.size inb1) hs1).squeeze S1024 hq).view g
          (ReadAs.same.apply (View.read (Elt F) (((Memref.whole main_arg0).slice (Rect.unit (s := S16x128x1024) (k0_off3 k) S1x1x1024.size inb3) hs3).squeeze S1024 hq3).view X))
          Finset.univ)) (ix2 (0 : Fin 1) j)
      = X (tIdx k.val 0 (512 + j.val)) := by
  have hk : k.val < 16 := lt_of_lt_of_eq k.isLt trips_eq
  have hj : 512 + j.val < 1024 := by have := j.isLt; omega
  unfold k0_pay2
  rw [shapeCast_shapeCast, load_hi]
  exact (src_read c _ (⟨k.val, hk⟩ : Fin 16) (0 : Fin 128) (off3_eq k) inb3 hs3 hq3 X ⟨512 + j.val, hj⟩).trans (congrArg X (tIdx_of_lt hk (by decide) hj).symm)

theorem pay_lo (c : Dev nD) (X : Bf (F := F) c (Memref.whole main_arg0)) (k : Fin k0_t1_loop.trips) (w : BitVec 32) (h1 : 1 ≤ w.toNat) (h2 : w.toNat ≤ 128)
    (fs : Bf (F := F) c (Memref.whole cc0_scratch0)) (d1 : S1024.Idx → Elt F .f32)
    (inb2 : ∀ a, k0_off2 k w a + S1x1x1024.size a ≤ S16x128x1024.size a) (hs2 : ∀ a, (Rect.unit (s := S16x128x1024) (k0_off2 k w) S1x1x1024.size inb2).stride a = 1)
    (hq3 : S1x1x1024.Squeezes S1024)
    (inb0 : ∀ a, (![0, 0] : Fin 2 → ℕ) a + S1x1024.size a ≤ S2x1024.size a) (hs0 : ∀ a, (Rect.unit (s := S2x1024) ![0, 0] S1x1024.size inb0).stride a = 1)
    (inb1 : ∀ a, (![1, 0] : Fin 2 → ℕ) a + S1x1024.size a ≤ S2x1024.size a) (hs1 : ∀ a, (Rect.unit (s := S2x1024) ![1, 0] S1x1024.size inb1).stride a = 1)
    (hq : S1x1024.Squeezes S1024) (inbL : ∀ a, (![0, 0] : Fin 2 → ℕ) a + S1x512.size a ≤ S2x1024.size a) (j : Fin 512) :
    k0_pay1 (k0_pay3 (View.readAt (Elt F) (Memref.whole cc0_scratch0).view (Rect.unit (s := S2x1024) ![0, 0] S1x512.size inbL).toLoadRect
        (View.write (Elt F) (((Memref.whole cc0_scratch0).slice (Rect.unit (s := S2x1024) ![1, 0] S1x1024.size inb1) hs1).squeeze S1024 hq).view
          (View.write (Elt F) (((Memref.whole cc0_scratch0).slice (Rect.unit (s := S2x1024) ![0, 0] S1x1024.size inb0) hs0).squeeze S1024 hq).view fs
            (ReadAs.same.apply (View.read (Elt F) (((Memref.whole main_arg0).slice (Rect.unit (s := S16x128x1024) (k0_off2 k w) S1x1x1024.size inb2) hs2).squeeze S1024 hq3).view X))
            Finset.univ)
          d1 Finset.univ))) (ix2 (0 : Fin 1) j)
      = X (tIdx k.val (w.toNat - 1) j.val) := by
  have hk : k.val < 16 := lt_of_lt_of_eq k.isLt trips_eq
  have hj : j.val < 1024 := by have := j.isLt; omega
  have hw : (w - 1#32).toNat = w.toNat - 1 := by
    rw [BitVec.toNat_sub_of_le (by rw [BitVec.le_def]; simpa using h1)]
    rfl
  have hr : (w - 1#32).toNat < 128 := by omega
  unfold k0_pay1 k0_pay3
  rw [shapeCast_shapeCast, load_lo]
  have hr' : w.toNat - 1 < 128 := by omega
  refine (src_read c _ (⟨k.val, hk⟩ : Fin 16) (⟨(w - 1#32).toNat, hr⟩ : Fin 128) (off2_eq k w) inb2 hs2 hq3 X ⟨j.val, hj⟩).trans ?_
  rw [tIdx_of_lt hk hr' hj]
  congr 1
  funext a
  match a with
  | ⟨0, _⟩ => rfl
  | ⟨1, _⟩ => exact Fin.ext hw
  | ⟨2, _⟩ => rfl

abbrev inv0 (c : Dev nD) (M3 : Memref sig .tc .vmem S16x1024 .f32) (X : Bf (F := F) c (Memref.whole main_arg0))
    (lens : Bf (F := F) c (Memref.whole main_arg2)) (k : ℕ) (_u : Unit) : sProp (MM F) :=
  iprop(⌜LensOk lens⌝ ∗ (∃ f : Bf (F := F) c M3, pt c M3 f ∗ ⌜RowsDone c M3 X lens k f⌝)
    ∗ ptq c (Memref.whole main_arg0) (Transfers.shareDrop fullShare 3) X ∗ ptq c (Memref.whole main_arg0) (Transfers.shareTokN fullShare 2) X
    ∗ ptq c (Memref.whole main_arg0) (Transfers.shareTokN fullShare 1) X ∗ ptq c (Memref.whole main_arg0) (Transfers.shareTokN fullShare 0) X
    ∗ pt c (Memref.whole main_arg2) lens ∗ (∃ fs : Bf (F := F) c (Memref.whole cc0_scratch0), pt c (Memref.whole cc0_scratch0) fs)
    ∗ semVal ((c : Thread nD τ), osem0 0) 0 ∗ semVal ((c : Thread nD τ), osem0 1) 0 ∗ ∃ W, owes (c : Thread nD τ) 0 W)

macro_rules | `(tactic| sl_pure) => `(tactic| with_reducible exact rowsDone_zero _ _ _ _ _)

set_option warn.classDefReducibility false in
set_option sl_exec.dmaWindow true in
set_option maxHeartbeats 4000000 in

@[sl_loop] noncomputable def loopInv_k0_t1 (c : Dev nD) (i : grid0.Coords) (M3 : Memref sig .tc .vmem S16x1024 .f32) (h3 : M3.IsWhole)
    (X : Bf (F := F) c (Memref.whole main_arg0)) (lens : Bf (F := F) c (Memref.whole main_arg2)) :
    LoopInvTy_k0_t1 (F := F) Unit ℕ (UU nD τ) ℕ Variants.none c none Set.univ i
      (Memref.whole main_arg2) (Memref.isWhole_whole _) (Memref.whole main_arg0) (Memref.isWhole_whole _) M3 h3 (Memref.whole cc0_scratch0) (Memref.isWhole_whole _) cc0_scratch1 where
  inv := inv0 c M3 X lens
  step k acc := by
    iintro ⟨%hl, ⟨%f, H3, %hrows⟩, HXr, HX2, HX1, HX0, HL, ⟨%fs, Hs⟩, Hd0, Hd1, ⟨%W, HO⟩⟩
    unfold k0_t1_body
    sl_exec (disch := exact chk1_word c lens hl k _ _)
    sl_step
    isplitr
    · ipureintro; exact hl
    isplitl [H3]
    · iexists _
      isplitl [H3]; · iexact H3
      ipureintro
      refine rows_step c M3 X lens k f hrows _ _ _ _ (fun j => ?_) (fun j => ?_)
      · sl_unfold_run_names
        exact pay_hi c X k _ _ _ _ _ _ _ _ j
      · sl_unfold_run_names
        rw [← word_eq c lens k (k0_off1_inb k) (Shape.Idx.first (numel1_S1.symm ▸ Nat.one_pos))]
        exact pay_lo c X k _ (by rw [word_eq]; exact (hl _).1) (by rw [word_eq]; exact (hl _).2) fs _ _ _ _ _ _ _ _ _ _ j
    isplitl [HXr]; · iexact HXr
    isplitl [HX2]; · iexact HX2
    isplitl [HX1]; · iexact HX1
    isplitl [HX0]; · iexact HX0
    isplitl [HL]; · iexact HL
    isplitl [Hs]; · iexists _; iexact Hs
    isplitl [Hd0]; · iexact Hd0
    isplitl [Hd1]; · iexact Hd1
    iexists _; iexact HO

end B0

open B0

theorem kernelRun0 (c : Dev nD) (t : Fin grid0.N) (M3 : Memref sig .tc .vmem S16x1024 .f32) (h3 : M3.IsWhole)
    (X : Bf (F := F) c (Memref.whole main_arg0)) (lens : Bf (F := F) c (Memref.whole main_arg2)) (hl : LensOk lens)
    (f3 : Bf (F := F) c M3) (fs : Bf (F := F) c (Memref.whole cc0_scratch0))
    (W : Waits sig Unit) (Q : PUnit → sProp (MM F)) :
    iprop(pt c M3 f3 ∗ pt c (Memref.whole main_arg0) X ∗ pt c (Memref.whole main_arg2) lens ∗ pt c (Memref.whole cc0_scratch0) fs ∗ sems0_0 c ∗ owes (c : Thread nD τ) 0 W
      ∗ (iprop((∃ f' : Bf (F := F) c M3, pt c M3 f' ∗ ⌜M3.view.read (Elt F) f' = topicBlk X lens⌝) ∗ pt c (Memref.whole main_arg0) X ∗ pt c (Memref.whole main_arg2) lens
            ∗ (∃ f, pt c (Memref.whole cc0_scratch0) f) ∗ sems0_0 c ∗ ∃ W, owes (c : Thread nD τ) 0 W) -∗ Q ⟨⟩))
    ⊢ wp frame (wpE (defs₀ (F := F)) Variants.none c none) Set.univ
        (cc0__topic_extract_kernel (grid0.coords t) (Memref.whole main_arg2) (Memref.isWhole_whole _) (Memref.whole main_arg0) (Memref.isWhole_whole _) M3 h3 (Memref.whole cc0_scratch0) (Memref.isWhole_whole _) cc0_scratch1) Q := by
  iintro ⟨H3, HX, HL, Hs, ⟨Hd0, Hd1⟩, HO, Hk⟩

  ihave HX' := (heldX_split c X) $$ HX
  icases HX' with ⟨HXr, HX2, HX1, HX0⟩
  sl_exec
  sl_step
  iapply Hk
  isplitl [H3]
  · iexists _
    isplitl [H3]; · iexact H3
    ipureintro
    exact rowsDone_all c M3 X lens _ _ trips_eq (by assumption)
  isplitl [HXr HX2 HX1 HX0]
  · iapply (heldX_join c X)
    isplitl [HXr]; · iexact HXr
    isplitl [HX2]; · iexact HX2
    isplitl [HX1]; · iexact HX1
    iexact HX0
  isplitl [HL]; · iexact HL
  isplitl [Hs]; · iexists _; iexact Hs
  isplitl [Hd0 Hd1]
  · isplitl [Hd0]; · iexact Hd0
    iexact Hd1
  iexists _; iexact HO

end Cert.Proof.KI

end
-- ==== Proof.KI.Rows.lean ====
import proofs.«409333_j59115929862503_1_alg».proof.Proof.KI.Common
import Idealize.ShloMosaic.Lib.ValueLayout
import Idealize.ShloMosaic.Lib.WritesUnit

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace Rows

theorem toNat_sub_one (w : BitVec 32) (h : 1 ≤ w.toNat) : (Scalar.subi w 1#32).toNat = w.toNat - 1 := by
  show (w - 1#32).toNat = _
  rw [BitVec.toNat_sub]
  have := w.isLt
  simp only [BitVec.toNat_ofNat]
  omega

theorem toNat_add_one (w : BitVec 32) (h : w.toNat ≤ 2046) : (Scalar.addi w 1#32).toNat = w.toNat + 1 := by
  show (w + 1#32).toNat = _
  rw [BitVec.toNat_add]
  simp only [BitVec.toNat_ofNat]
  omega

theorem trips64 : k1_t1_loop.trips = 64 := by decide

theorem rowWord (k : Fin k1_t1_loop.trips) :
    (Scalar.indexCast (Scalar.addi 0#32 (Scalar.muli (Scf.iv 0#32 1#32 k) 1#32))).toNat = k.val := by
  have r_k : k.val < 64 := Nat.lt_of_lt_of_le k.isLt (le_of_eq trips64)
  have h0 : Affine.IsInt 0#32 0 := Affine.ofNat _ (by omega)
  have h1 : Affine.IsInt 1#32 1 := Affine.ofNat _ (by omega)
  have h_arg6 : Affine.IsInt (Scf.iv 0#32 1#32 k) (k.val : Int) := Affine.iv h0 h1 k.val (by omega)
  have h_v1 : Affine.IsInt _ (k.val : Int) := Affine.muli h_arg6 h1 (by omega)
  have h_v2 : Affine.IsInt _ (k.val : Int) := Affine.addi h0 h_v1 (by omega)
  have := Affine.toNat_of (Affine.indexCast h_v2) (by omega)
  omega

theorem off9_eq (k : Fin k1_t1_loop.trips) : k1_off9 k = ![0, k.val, 0] := by
  unfold k1_off9; dsimp only; rw [rowWord]
theorem off10_eq (k : Fin k1_t1_loop.trips) : k1_off10 k = ![0, k.val, 512] := by
  unfold k1_off10; dsimp only; rw [rowWord]
theorem off11_eq (k : Fin k1_t1_loop.trips) : k1_off11 k = ![0, k.val, 1024] := by
  unfold k1_off11; dsimp only; rw [rowWord]
theorem off12_eq (k : Fin k1_t1_loop.trips) : k1_off12 k = ![0, k.val, 1536] := by
  unfold k1_off12; dsimp only; rw [rowWord]

theorem gridWord (i : grid1.Coords) : (Scalar.indexCast (BitVec.ofNat 32 (i 0).val)).toNat = (i 0).val := by
  have : (i 0).val < 16 := (i 0).isLt
  show (BitVec.ofNat 32 (i 0).val).toNat = _
  rw [BitVec.toNat_ofNat]; omega

theorem off1_eq (i : grid1.Coords) (k : Fin k1_t1_loop.trips) : k1_off1 i k = ![(i 0).val, k.val, 0] := by
  unfold k1_off1; dsimp only; rw [rowWord, gridWord]
theorem off2_eq (i : grid1.Coords) (k : Fin k1_t1_loop.trips) : k1_off2 i k = ![(i 0).val, k.val, 1] := by
  unfold k1_off2; dsimp only; rw [rowWord, gridWord]
theorem off3_eq (i : grid1.Coords) (k : Fin k1_t1_loop.trips) : k1_off3 i k = ![(i 0).val, k.val, 2] := by
  unfold k1_off3; dsimp only; rw [rowWord, gridWord]

theorem chk1_of (e s : BitVec 32) (he : e.toNat < 16) (hs1 : 1 ≤ s.toNat) (hs2 : s.toNat ≤ 2047) : k1_chk1 e s := by
  have hm := toNat_sub_one s hs1
  refine ⟨?_, ?_, ?_⟩
  · unfold k1_off4; dsimp only; rw [hm]
    intro a; fin_cases a <;> simp <;> omega
  · unfold k1_off7; dsimp only
    intro a; fin_cases a <;> simp <;> omega
  · unfold k1_off8; dsimp only; rw [hm]
    intro a; fin_cases a <;> simp <;> omega

theorem chk2_of (e en : BitVec 32) (he : e.toNat < 16) (hen : en.toNat ≤ 2046) : k1_chk2 e en := by
  have hp := toNat_add_one en hen
  refine ⟨?_, ?_⟩
  · unfold k1_off5; dsimp only
    intro a; fin_cases a <;> simp <;> omega
  · unfold k1_off6; dsimp only; rw [hp]
    intro a; fin_cases a <;> simp <;> omega

theorem off4_at (e s : BitVec 32) (hs : 1 ≤ s.toNat) : k1_off4 e s = ![e.toNat, s.toNat - 1, 0] := by
  unfold k1_off4; dsimp only; rw [toNat_sub_one s hs]
theorem off5_at (e en : BitVec 32) : k1_off5 e en = ![e.toNat, en.toNat, 0] := by
  unfold k1_off5; rfl
theorem off6_at (e en : BitVec 32) (h : en.toNat ≤ 2046) : k1_off6 e en = ![e.toNat, en.toNat + 1, 0] := by
  unfold k1_off6; dsimp only; rw [toNat_add_one en h]
theorem off7_at (e s : BitVec 32) : k1_off7 e s = ![e.toNat, s.toNat, 0] := by
  unfold k1_off7; rfl

def row (k : Fin k1_t1_loop.trips) : Fin 64 := ⟨k.val, Nat.lt_of_lt_of_le k.isLt (le_of_eq trips64)⟩

section Tbl
variable {c : Dev nD} (Tb : Memref sig .tc .smem S16x64x3 .i32) (sp : Bf (F := F) c Tb) (tb : S16x64x3.Idx → BitVec 32)
  (htb : Tb.view.read (Elt F) sp = tb)

include htb in
/-- A window of one word at (b, n, w) has the single index (b, n, w). -/
theorem sp_word (off : Fin 3 → ℕ) (inb : ∀ a, off a + S1x1x1.size a ≤ S16x64x3.size a)
    (x : (Rect.unit (s := S16x64x3) off S1x1x1.size inb).toLoadRect.shape.Idx) (b : Fin 16) (n : Fin 64) (w : Fin 3)
    (hoff : off = ![b.val, n.val, w.val]) :
    View.readAt (Elt F) Tb.view (Rect.unit (s := S16x64x3) off S1x1x1.size inb).toLoadRect sp x = tb (sIdx b n w) := by
  subst hoff htb
  rw [View.readAt_apply]
  congr 1
  funext a
  apply Fin.ext
  have hx0 : (x 0).val = 0 := by have h : (x 0).val < 1 := (x 0).isLt; omega
  have hx1 : (x 1).val = 0 := by have h : (x 1).val < 1 := (x 1).isLt; omega
  have hx2 : (x 2).val = 0 := by have h : (x 2).val < 1 := (x 2).isLt; omega
  fin_cases a
  · show b.val + 1 * (x 0).val = b.val; omega
  · show n.val + 1 * (x 1).val = n.val; omega
  · show w.val + 1 * (x 2).val = w.val; omega

abbrev wd (off : Fin 3 → ℕ) (inb : ∀ a, off a + S1x1x1.size a ≤ S16x64x3.size a)
    (x : (Rect.unit (s := S16x64x3) off S1x1x1.size inb).toLoadRect.shape.Idx) : BitVec 32 :=
  View.readAt (Elt F) Tb.view (Rect.unit (s := S16x64x3) off S1x1x1.size inb).toLoadRect sp x

variable (hsp : SpansOk tb) (i : grid1.Coords) (k : Fin k1_t1_loop.trips)
  (h1 : ∀ a, k1_off1 i k a + S1x1x1.size a ≤ S16x64x3.size a) (h2 : ∀ a, k1_off2 i k a + S1x1x1.size a ≤ S16x64x3.size a)
  (h3 : ∀ a, k1_off3 i k a + S1x1x1.size a ≤ S16x64x3.size a) (x1) (x2) (x3)

include htb in
theorem w1_eq : wd Tb sp (k1_off1 i k) h1 x1 = tb (sIdx (i 0) (row k) 0) := sp_word Tb sp tb htb _ h1 x1 (i 0) (row k) 0 (off1_eq i k)
include htb in
theorem w2_eq : wd Tb sp (k1_off2 i k) h2 x2 = tb (sIdx (i 0) (row k) 1) := sp_word Tb sp tb htb _ h2 x2 (i 0) (row k) 1 (off2_eq i k)
include htb in
theorem w3_eq : wd Tb sp (k1_off3 i k) h3 x3 = tb (sIdx (i 0) (row k) 2) := sp_word Tb sp tb htb _ h3 x3 (i 0) (row k) 2 (off3_eq i k)

include htb hsp in
theorem chk1_at : k1_chk1 (wd Tb sp (k1_off1 i k) h1 x1) (wd Tb sp (k1_off2 i k) h2 x2) := by
  rw [w1_eq Tb sp tb htb, w2_eq Tb sp tb htb]
  obtain ⟨he, hs1, hs2, -⟩ := hsp (i 0) (row k)
  exact chk1_of _ _ he hs1 hs2

include htb hsp in
theorem chk2_at : k1_chk2 (wd Tb sp (k1_off1 i k) h1 x1) (wd Tb sp (k1_off3 i k) h3 x3) := by
  rw [w1_eq Tb sp tb htb, w3_eq Tb sp tb htb]
  obtain ⟨he, -, -, hen⟩ := hsp (i 0) (row k)
  exact chk2_of _ _ he hen

include htb hsp in
theorem off4_tbl : k1_off4 (wd Tb sp (k1_off1 i k) h1 x1) (wd Tb sp (k1_off2 i k) h2 x2) = ![spE tb (i 0) (row k), spS tb (i 0) (row k) - 1, 0] := by
  rw [w1_eq Tb sp tb htb, w2_eq Tb sp tb htb]
  exact off4_at _ _ (hsp (i 0) (row k)).2.1

include htb in
theorem off5_tbl : k1_off5 (wd Tb sp (k1_off1 i k) h1 x1) (wd Tb sp (k1_off3 i k) h3 x3) = ![spE tb (i 0) (row k), spEn tb (i 0) (row k), 0] := by
  rw [w1_eq Tb sp tb htb, w3_eq Tb sp tb htb]
  exact off5_at _ _

include htb hsp in
theorem off6_tbl : k1_off6 (wd Tb sp (k1_off1 i k) h1 x1) (wd Tb sp (k1_off3 i k) h3 x3) = ![spE tb (i 0) (row k), spEn tb (i 0) (row k) + 1, 0] := by
  rw [w1_eq Tb sp tb htb, w3_eq Tb sp tb htb]
  exact off6_at _ _ (hsp (i 0) (row k)).2.2.2

include htb in
theorem off7_tbl : k1_off7 (wd Tb sp (k1_off1 i k) h1 x1) (wd Tb sp (k1_off2 i k) h2 x2) = ![spE tb (i 0) (row k), spS tb (i 0) (row k), 0] := by
  rw [w1_eq Tb sp tb htb, w2_eq Tb sp tb htb]
  exact off7_at _ _

end Tbl

abbrev heldX (c : Dev nD) (q : PosShare TreeShare) (X : Bf (F := F) c (Memref.whole main_arg1)) : sProp (MM F) :=
  (Memref.whole main_arg1).view.loc (c : Thread nD τ) ↦{q} X

theorem range_peel (Φ : ℕ → sProp (MM F)) (k : ℕ) :
    BI.bigSep (Finset.range (k + 1)) Φ = iprop(Φ k ∗ BI.bigSep (Finset.range k) Φ) := by
  rw [Finset.range_add_one, BI.bigSep_insert Finset.notMem_range_self]
  first | rfl | skip

/-- Full ownership of the array splits into four read shares, the remainder, and five shares kept together. -/
theorem toksX_eqv (c : Dev nD) (X : Bf (F := F) c (Memref.whole main_arg1)) :
    pt c (Memref.whole main_arg1) X ⊣⊢
      iprop(heldX c (Transfers.shareDrop fullShare 9) X ∗ heldX c (Transfers.shareTokN fullShare 8) X
        ∗ heldX c (Transfers.shareTokN fullShare 7) X ∗ heldX c (Transfers.shareTokN fullShare 6) X
        ∗ heldX c (Transfers.shareTokN fullShare 5) X
        ∗ BI.bigSep (Finset.range 5) (fun i => heldX c (Transfers.shareTokN fullShare i) X)) := by
  have h : pt c (Memref.whole main_arg1) X ⊣⊢ iprop(heldX c (Transfers.shareDrop fullShare 9) X
      ∗ BI.bigSep (Finset.range 9) (fun i => heldX c (Transfers.shareTokN fullShare i) X)) :=
    Transfers.pointsTo_toks_range fullShare 9
  rw [range_peel, range_peel, range_peel, range_peel] at h
  exact h

theorem squeeze_symm_row (h : S1024.numel = S1x1024.numel) (x : S1x1024.Idx) :
    (Shape.reshapeEquiv h).symm x = ValueIdx.ix1 (⟨(x 1).val, (x 1).isLt⟩ : Fin 1024) := by
  rw [Equiv.symm_apply_eq]
  refine (Shape.reshapeEquiv_eq_of_rowMajor h ?_).symm
  rw [Shape.rowMajor_val_two, Shape.rowMajor_val_one]
  have h0 : (x 0).val = 0 := by have h : (x 0).val < 1 := (x 0).isLt; omega
  show (x 0).val * 1024 + (x 1).val = (x 1).val
  omega

def rowPay (d : S1024.Idx → Elt F .f32) : S1x1024.Idx → Elt F .f32 :=
  fun x => d (ValueIdx.ix1 (⟨(x 1).val, (x 1).isLt⟩ : Fin 1024))

section Scratch
variable {c : Dev nD} (Sc : Memref sig .tc .vmem S4x1024 .f32)

theorem row_write (g : Bf (F := F) c Sc) (r : ℕ)
    (hinb : ∀ a, (![r, 0] : Fin 2 → ℕ) a + S1x1024.size a ≤ S4x1024.size a) (u) (q) (d : S1024.Idx → Elt F .f32) :
    View.write (Elt F) ((Sc.slice (Rect.unit (s := S4x1024) ![r, 0] S1x1024.size hinb) u).squeeze S1024 q).view g d Finset.univ
      = Sc.view.writes (Elt F) g [⟨Rect.unit (s := S4x1024) ![r, 0] S1x1024.size hinb, rowPay d⟩] := by
  show View.write (Elt F) ((Sc.view.slice (Rect.unit (s := S4x1024) ![r, 0] S1x1024.size hinb)).reshape S1024 q.numel_eq) g d Finset.univ = _
  rw [View.write_reshape_univ]
  exact congrArg (fun w => View.write (Elt F) (Sc.view.slice (Rect.unit (s := S4x1024) ![r, 0] S1x1024.size hinb)) g w Finset.univ)
    (funext fun x => congrArg d (squeeze_symm_row _ x))

variable (fs : Bf (F := F) c Sc)
    (h0 : ∀ a, (![0, 0] : Fin 2 → ℕ) a + S1x1024.size a ≤ S4x1024.size a) (h1 : ∀ a, (![1, 0] : Fin 2 → ℕ) a + S1x1024.size a ≤ S4x1024.size a)
    (h2 : ∀ a, (![2, 0] : Fin 2 → ℕ) a + S1x1024.size a ≤ S4x1024.size a) (h3 : ∀ a, (![3, 0] : Fin 2 → ℕ) a + S1x1024.size a ≤ S4x1024.size a)
    (d0 d1 d2 d3 : S1024.Idx → Elt F .f32)

abbrev scratchAfter : Bf (F := F) c Sc :=
  Sc.view.writes (Elt F) fs
    [⟨Rect.unit (s := S4x1024) ![3, 0] S1x1024.size h3, rowPay d3⟩, ⟨Rect.unit (s := S4x1024) ![2, 0] S1x1024.size h2, rowPay d2⟩,
     ⟨Rect.unit (s := S4x1024) ![1, 0] S1x1024.size h1, rowPay d1⟩, ⟨Rect.unit (s := S4x1024) ![0, 0] S1x1024.size h0, rowPay d0⟩]

theorem scratch_nest (u0 u1 u2 u3) (q0 q1 q2 q3) :
    View.write (Elt F) ((Sc.slice (Rect.unit (s := S4x1024) ![3, 0] S1x1024.size h3) u3).squeeze S1024 q3).view
      (View.write (Elt F) ((Sc.slice (Rect.unit (s := S4x1024) ![2, 0] S1x1024.size h2) u2).squeeze S1024 q2).view
        (View.write (Elt F) ((Sc.slice (Rect.unit (s := S4x1024) ![1, 0] S1x1024.size h1) u1).squeeze S1024 q1).view
          (View.write (Elt F) ((Sc.slice (Rect.unit (s := S4x1024) ![0, 0] S1x1024.size h0) u0).squeeze S1024 q0).view
            fs d0 Finset.univ) d1 Finset.univ) d2 Finset.univ) d3 Finset.univ
      = scratchAfter Sc fs h0 h1 h2 h3 d0 d1 d2 d3 := by
  rw [row_write (c := c), row_write (c := c), row_write (c := c), row_write (c := c), ← View.writes_append, ← View.writes_append, ← View.writes_append]
  rfl

variable (y : Fin 1024)

theorem scratch_at3 :
    Sc.view.read (Elt F) (scratchAfter Sc fs h0 h1 h2 h3 d0 d1 d2 d3) (ValueIdx.ix2 (3 : Fin 4) y) = d3 (ValueIdx.ix1 y) := by
  rw [View.read_writes_cons_unit_of_mem Sc.view fs h3 (rowPay d3) _ (ValueIdx.ix2 (3 : Fin 4) y)
    (ValueIdx.ix2 (0 : Fin 1) y) rfl (fun a => by fin_cases a <;> simp)]
  rfl

theorem scratch_at2 :
    Sc.view.read (Elt F) (scratchAfter Sc fs h0 h1 h2 h3 d0 d1 d2 d3) (ValueIdx.ix2 (2 : Fin 4) y) = d2 (ValueIdx.ix1 y) := by
  rw [View.read_writes_cons_unit_of_not_mem Sc.view fs h3 (rowPay d3) _ (ValueIdx.ix2 (2 : Fin 4) y) rfl 0 (Or.inl (show (2 : ℕ) < _ by decide)),
    View.read_writes_cons_unit_of_mem Sc.view fs h2 (rowPay d2) _ (ValueIdx.ix2 (2 : Fin 4) y)
      (ValueIdx.ix2 (0 : Fin 1) y) rfl (fun a => by fin_cases a <;> simp)]
  rfl

theorem scratch_at1 :
    Sc.view.read (Elt F) (scratchAfter Sc fs h0 h1 h2 h3 d0 d1 d2 d3) (ValueIdx.ix2 (1 : Fin 4) y) = d1 (ValueIdx.ix1 y) := by
  rw [View.read_writes_cons_unit_of_not_mem Sc.view fs h3 (rowPay d3) _ (ValueIdx.ix2 (1 : Fin 4) y) rfl 0 (Or.inl (show (1 : ℕ) < _ by decide)),
    View.read_writes_cons_unit_of_not_mem Sc.view fs h2 (rowPay d2) _ (ValueIdx.ix2 (1 : Fin 4) y) rfl 0 (Or.inl (show (1 : ℕ) < _ by decide)),
    View.read_writes_cons_unit_of_mem Sc.view fs h1 (rowPay d1) _ (ValueIdx.ix2 (1 : Fin 4) y)
      (ValueIdx.ix2 (0 : Fin 1) y) rfl (fun a => by fin_cases a <;> simp)]
  rfl

theorem scratch_at0 :
    Sc.view.read (Elt F) (scratchAfter Sc fs h0 h1 h2 h3 d0 d1 d2 d3) (ValueIdx.ix2 (0 : Fin 4) y) = d0 (ValueIdx.ix1 y) := by
  rw [View.read_writes_cons_unit_of_not_mem Sc.view fs h3 (rowPay d3) _ (ValueIdx.ix2 (0 : Fin 4) y) rfl 0 (Or.inl (show (0 : ℕ) < _ by decide)),
    View.read_writes_cons_unit_of_not_mem Sc.view fs h2 (rowPay d2) _ (ValueIdx.ix2 (0 : Fin 4) y) rfl 0 (Or.inl (show (0 : ℕ) < _ by decide)),
    View.read_writes_cons_unit_of_not_mem Sc.view fs h1 (rowPay d1) _ (ValueIdx.ix2 (0 : Fin 4) y) rfl 0 (Or.inl (show (0 : ℕ) < _ by decide)),
    View.read_writes_cons_unit_of_mem Sc.view fs h0 (rowPay d0) _ (ValueIdx.ix2 (0 : Fin 4) y)
      (ValueIdx.ix2 (0 : Fin 1) y) rfl (fun a => by fin_cases a <;> simp)]
  rfl

theorem half_row (W : Bf (F := F) c Sc) (r off : ℕ)
    (inb : ∀ a, (![r, off] : Fin 2 → ℕ) a + S1x512.size a ≤ S4x1024.size a) (hc) (rr : Fin 4) (hr : rr.val = r) (ho : off + 512 ≤ 1024) (j : Fin 512) :
    shapeCast S512 (View.readAt (Elt F) Sc.view (Rect.unit (s := S4x1024) ![r, off] S1x512.size inb).toLoadRect W) hc (ValueIdx.ix1 j)
      = Sc.view.read (Elt F) W (ValueIdx.ix2 rr (⟨off + j.val, by omega⟩ : Fin 1024)) := by
  refine (ValueIdx.shapeCast_1a_a_apply (a := 512) _ hc j).trans ?_
  rw [View.readAt_apply]
  congr 1
  funext a
  apply Fin.ext
  fin_cases a
  · show r + 1 * 0 = rr.val; omega
  · show off + 1 * j.val = off + j.val; omega

end Scratch

theorem hbm_row {c : Dev nD} (X : Bf (F := F) c (Memref.whole main_arg1)) (a b : ℕ) (ha : a < 16) (hb : b < 2048)
    (off : Fin 3 → ℕ) (hoff : off = ![a, b, 0]) (inb : ∀ x, off x + S1x1x1024.size x ≤ S16x2048x1024.size x) (u) (q) (y : Fin 1024) :
    ReadAs.same.apply (View.read (Elt F) (((Memref.whole main_arg1).slice (Rect.unit (s := S16x2048x1024) off S1x1x1024.size inb) u).squeeze S1024 q).view X) (ValueIdx.ix1 y)
      = X (wIdx a b y.val) := by
  subst hoff
  show shapeCast S1024 ((Memref.whole main_arg1).view.readAt (Elt F) (Rect.unit (s := S16x2048x1024) ![a, b, 0] S1x1x1024.size inb).toLoadRect X) q.numel_eq (ValueIdx.ix1 y) = _
  refine (shapeCast_apply (s := ⟨3, ![1, 1, 1024]⟩) (t := ⟨1, ![1024]⟩) _ _ (ValueIdx.ix1 y) (ValueIdx.ix3 (0 : Fin 1) (0 : Fin 1) y) ?_).trans ?_
  · rw [Shape.rowMajor_val_three, Shape.rowMajor_val_one]
    show (0 * 1 + 0) * 1024 + y.val = y.val
    omega
  · show X _ = X _
    congr 1
    funext x
    apply Fin.ext
    fin_cases x
    · show a + 1 * 0 = a % 16
      rw [Nat.mod_eq_of_lt ha]; omega
    · show b + 1 * 0 = b % 2048
      rw [Nat.mod_eq_of_lt hb]; omega
    · show 0 + 1 * y.val = y.val % 1024
      rw [Nat.mod_eq_of_lt y.isLt]; omega

theorem cast3_at (v : FVec F S512 .f32) (hc : S512.ShapeCasts S1x1x512) (j : Fin 512) :
    shapeCast S1x1x512 v hc (ValueIdx.ix3 (0 : Fin 1) (0 : Fin 1) j) = v (ValueIdx.ix1 j) :=
  shapeCast_apply (s := ⟨1, ![512]⟩) (t := ⟨3, ![1, 1, 512]⟩) v hc _ _ (by
    rw [Shape.rowMajor_val_one, Shape.rowMajor_val_three]
    show j.val = (0 * 1 + 0) * 512 + j.val
    omega)

theorem vec_eq_of_forall (v w : FVec F S512 .f32) (h : ∀ j : Fin 512, v (ValueIdx.ix1 j) = w (ValueIdx.ix1 j)) : v = w :=
  funext fun y => (congrArg v (ValueIdx.eq_ix1 y)).trans ((h (y 0)).trans (congrArg w (ValueIdx.eq_ix1 y).symm))

theorem hit_hx (k : ℕ) (n : Fin 64) (hn : n.val = k) (j : Fin 2048) (o : ℕ) (x : Fin 512) (hx : j.val = o + x.val) :
    ∀ a, ((ValueIdx.ix3 (0 : Fin 1) n j) a).val = (![0, k, o] : Fin 3 → ℕ) a + ((ValueIdx.ix3 (0 : Fin 1) (0 : Fin 1) x) a).val := by
  intro a
  fin_cases a
  · show (0 : ℕ) = 0 + 0; omega
  · show n.val = k + 0; omega
  · show j.val = o + x.val; exact hx

/-- Writing the four quarters of row k keeps every row below k and makes row k the specification's. -/
theorem rows_step {c : Dev nD} (M3 : Memref sig .tc .vmem S1x64x2048 .f32) (f : Bf (F := F) c M3)
    (X : S16x2048x1024.Idx → Elt F .f32) (tb : S16x64x3.Idx → BitVec 32) (i : grid1.Coords)
    (k : Fin k1_t1_loop.trips) (v63 v65 : FVec F S512 .f32) (v66 v68 : Vec F S1x512 .f32)
    (i9 : ∀ a, k1_off9 k a + S1x1x512.size a ≤ S1x64x2048.size a) (i10 : ∀ a, k1_off10 k a + S1x1x512.size a ≤ S1x64x2048.size a)
    (i11 : ∀ a, k1_off11 k a + S1x1x512.size a ≤ S1x64x2048.size a) (i12 : ∀ a, k1_off12 k a + S1x1x512.size a ≤ S1x64x2048.size a)
    (hc : S1x512.ShapeCasts S512)
    (hf : ∀ n : Fin 64, n.val < k.val → ∀ j : Fin 2048, M3.view.read (Elt F) f (ValueIdx.ix3 0 n j) = diffAt X tb (i 0) n j.val)
    (H63 : ∀ j : Fin 512, v63 (ValueIdx.ix1 j) = wRow X (spE tb (i 0) (row k)) (spS tb (i 0) (row k) - 1) 0 (ValueIdx.ix1 j))
    (H65 : ∀ j : Fin 512, v65 (ValueIdx.ix1 j) = wRow X (spE tb (i 0) (row k)) (spEn tb (i 0) (row k)) 0 (ValueIdx.ix1 j))
    (H67 : ∀ j : Fin 512, shapeCast S512 v66 hc (ValueIdx.ix1 j) = wRow X (spE tb (i 0) (row k)) (spEn tb (i 0) (row k) + 1) 512 (ValueIdx.ix1 j))
    (H69 : ∀ j : Fin 512, shapeCast S512 v68 hc (ValueIdx.ix1 j) = wRow X (spE tb (i 0) (row k)) (spS tb (i 0) (row k)) 512 (ValueIdx.ix1 j)) :
    ∀ n : Fin 64, n.val < k.val + 1 → ∀ j : Fin 2048,
      M3.view.read (Elt F) (M3.view.writes (Elt F) f
        [⟨Rect.unit (s := S1x64x2048) (k1_off12 k) S1x1x512.size i12, k1_pay5 v66⟩,
         ⟨Rect.unit (s := S1x64x2048) (k1_off11 k) S1x1x512.size i11, k1_pay4 v63⟩,
         ⟨Rect.unit (s := S1x64x2048) (k1_off10 k) S1x1x512.size i10, k1_pay3 v66 v68⟩,
         ⟨Rect.unit (s := S1x64x2048) (k1_off9 k) S1x1x512.size i9, k1_pay2 v63 v65⟩]) (ValueIdx.ix3 0 n j)
        = diffAt X tb (i 0) n j.val := by
  intro n hn j
  have E63 := vec_eq_of_forall _ _ H63
  have E65 := vec_eq_of_forall _ _ H65
  have E67 : k1_pay1 v66 = _ := vec_eq_of_forall _ _ H67
  have E69 := vec_eq_of_forall _ _ H69
  by_cases hlt : n.val < k.val
  · rw [View.read_writes_cons_unit_of_not_mem M3.view f i12 _ _ _ (off12_eq k) 1 (Or.inl hlt),
      View.read_writes_cons_unit_of_not_mem M3.view f i11 _ _ _ (off11_eq k) 1 (Or.inl hlt),
      View.read_writes_cons_unit_of_not_mem M3.view f i10 _ _ _ (off10_eq k) 1 (Or.inl hlt),
      View.read_writes_cons_unit_of_not_mem M3.view f i9 _ _ _ (off9_eq k) 1 (Or.inl hlt)]
    exact hf n hlt j
  · have hnk : n.val = k.val := by omega
    have hn' : n = row k := Fin.ext hnk
    subst hn'
    have hj := j.isLt
    unfold diffAt
    dsimp only
    by_cases h1 : j.val < 512
    · rw [if_pos h1,
        View.read_writes_cons_unit_of_not_mem M3.view f i12 _ _ _ (off12_eq k) 2 (Or.inl (by show j.val < 1536; omega)),
        View.read_writes_cons_unit_of_not_mem M3.view f i11 _ _ _ (off11_eq k) 2 (Or.inl (by show j.val < 1024; omega)),
        View.read_writes_cons_unit_of_not_mem M3.view f i10 _ _ _ (off10_eq k) 2 (Or.inl (by show j.val < 512; omega)),
        View.read_writes_cons_unit_of_mem M3.view f i9 _ _ _ (ValueIdx.ix3 (0 : Fin 1) (0 : Fin 1) (⟨j.val, h1⟩ : Fin 512)) (off9_eq k)
          (hit_hx k.val (row k) rfl j 0 _ (by show j.val = 0 + j.val; omega))]
      show shapeCast S1x1x512 (subf v65 v63) _ (ValueIdx.ix3 (0 : Fin 1) (0 : Fin 1) (⟨j.val, h1⟩ : Fin 512)) = _
      rw [cast3_at, E63, E65]
      exact congrArg _ (congrArg ValueIdx.ix1 (Fin.ext (Nat.mod_eq_of_lt h1).symm))
    · rw [if_neg h1]
      by_cases h2 : j.val < 1024
      · rw [if_pos h2,
          View.read_writes_cons_unit_of_not_mem M3.view f i12 _ _ _ (off12_eq k) 2 (Or.inl (by show j.val < 1536; omega)),
          View.read_writes_cons_unit_of_not_mem M3.view f i11 _ _ _ (off11_eq k) 2 (Or.inl (by show j.val < 1024; omega)),
          View.read_writes_cons_unit_of_mem M3.view f i10 _ _ _ (ValueIdx.ix3 (0 : Fin 1) (0 : Fin 1) (⟨j.val - 512, by omega⟩ : Fin 512)) (off10_eq k)
            (hit_hx k.val (row k) rfl j 512 _ (by show j.val = 512 + (j.val - 512); omega))]
        show shapeCast S1x1x512 (subf (shapeCast S512 v68 _) (k1_pay1 v66)) _ (ValueIdx.ix3 (0 : Fin 1) (0 : Fin 1) (⟨j.val - 512, _⟩ : Fin 512)) = _
        rw [cast3_at, E67, E69]
        exact congrArg _ (congrArg ValueIdx.ix1 (Fin.ext (by show j.val - 512 = j.val % 512; omega)))
      · rw [if_neg h2]
        by_cases h3 : j.val < 1536
        · rw [if_pos h3,
            View.read_writes_cons_unit_of_not_mem M3.view f i12 _ _ _ (off12_eq k) 2 (Or.inl (by show j.val < 1536; omega)),
            View.read_writes_cons_unit_of_mem M3.view f i11 _ _ _ (ValueIdx.ix3 (0 : Fin 1) (0 : Fin 1) (⟨j.val - 1024, by omega⟩ : Fin 512)) (off11_eq k)
              (hit_hx k.val (row k) rfl j 1024 _ (by show j.val = 1024 + (j.val - 1024); omega))]
          show shapeCast S1x1x512 v63 _ (ValueIdx.ix3 (0 : Fin 1) (0 : Fin 1) (⟨j.val - 1024, _⟩ : Fin 512)) = _
          rw [cast3_at, E63]
          show X (wIdx _ _ (0 + (j.val - 1024))) = _
          rw [Nat.zero_add]
        · rw [if_neg h3,
            View.read_writes_cons_unit_of_mem M3.view f i12 _ _ _ (ValueIdx.ix3 (0 : Fin 1) (0 : Fin 1) (⟨j.val - 1536, by omega⟩ : Fin 512)) (off12_eq k)
              (hit_hx k.val (row k) rfl j 1536 _ (by show j.val = 1536 + (j.val - 1536); omega))]
          show shapeCast S1x1x512 (k1_pay1 v66) _ (ValueIdx.ix3 (0 : Fin 1) (0 : Fin 1) (⟨j.val - 1536, _⟩ : Fin 512)) = _
          rw [cast3_at, E67]
          show X (wIdx _ _ (512 + (j.val - 1536))) = _
          exact congrArg X (congrArg (wIdx _ _) (by omega))

/-- A [1, 64, 2048] block is determined by its 64 rows. -/
theorem blk_of_rows {c : Dev nD} (M3 : Memref sig .tc .vmem S1x64x2048 .f32) (f : Bf (F := F) c M3)
    (X : S16x2048x1024.Idx → Elt F .f32) (tb : S16x64x3.Idx → BitVec 32) (b : Fin 16) (T : ℕ) (hT : 64 ≤ T)
    (h : ∀ n : Fin 64, n.val < T → ∀ j : Fin 2048, M3.view.read (Elt F) f (ValueIdx.ix3 0 n j) = diffAt X tb b n j.val) :
    M3.view.read (Elt F) f = diffBlk X tb b := by
  funext y
  have h0 : (y 0).val = 0 := by have h' : (y 0).val < 1 := (y 0).isLt; omega
  have hy : y = ValueIdx.ix3 (0 : Fin 1) (y 1) (y 2) :=
    (ValueIdx.eq_ix3 y).trans (congrArg (fun a : Fin 1 => ValueIdx.ix3 a (y 1) (y 2)) (Fin.ext h0 : y 0 = (0 : Fin 1)))
  exact (congrArg (M3.view.read (Elt F) f) hy).trans (h (y 1) (Nat.lt_of_lt_of_le (y 1).isLt hT) (y 2))

/-- Loop invariant at trip k: rows below k of the block equal the specification's; everything else is held unchanged. -/
abbrev inv (c : Dev nD) (i : grid1.Coords) (M3 : Memref sig .tc .vmem S1x64x2048 .f32)
    (Tb : Memref sig .tc .smem S16x64x3 .i32) (Sc : Memref sig .tc .vmem S4x1024 .f32) (sems : sProp (MM F))
    (X : Bf (F := F) c (Memref.whole main_arg1)) (sp : Bf (F := F) c Tb) (tb : S16x64x3.Idx → BitVec 32) (k : ℕ) (_u : Unit) : sProp (MM F) :=
  iprop(⌜SpansOk tb⌝
    ∗ (∃ f : Bf (F := F) c M3, pt c M3 f
        ∗ ⌜∀ n : Fin 64, n.val < k → ∀ j : Fin 2048, M3.view.read (Elt F) f (ValueIdx.ix3 0 n j) = diffAt X tb (i 0) n j.val⌝)
    ∗ pt c (Memref.whole main_arg1) X ∗ pt c Tb sp
    ∗ (∃ fs : Bf (F := F) c Sc, pt c Sc fs)
    ∗ sems ∗ ∃ W, owes (c : Thread nD τ) 0 W)

end Rows

end Cert.Proof.KI

end
-- ==== Proof.KI.Body1.lean ====
import proofs.«409333_j59115929862503_1_alg».proof.Proof.KI.Rows

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Rows

/-- The four cells of a call's own semaphore array. -/
abbrev smAt (sm : DmaSems sig S4) : Fin 4 → SemLoc sig := fun
  | 0 => .dma ((sm.slice (Rect.unit (s := S4) ![0] S1.size inb_S4_S1_0)).squeeze S_ squeezes_S1_S_).sem
  | 1 => .dma ((sm.slice (Rect.unit (s := S4) ![1] S1.size inb_S4_S1_1)).squeeze S_ squeezes_S1_S_).sem
  | 2 => .dma ((sm.slice (Rect.unit (s := S4) ![2] S1.size inb_S4_S1_2)).squeeze S_ squeezes_S1_S_).sem
  | 3 => .dma ((sm.slice (Rect.unit (s := S4) ![3] S1.size inb_S4_S1_3)).squeeze S_ squeezes_S1_S_).sem

abbrev semsG (c : Dev nD) (sm : DmaSems sig S4) : sProp (MM F) :=
  iprop(semVal ((c : Thread nD τ), smAt sm 0) 0 ∗ semVal ((c : Thread nD τ), smAt sm 1) 0 ∗ semVal ((c : Thread nD τ), smAt sm 2) 0 ∗ semVal ((c : Thread nD τ), smAt sm 3) 0)

variable (Tb : Memref sig .tc .smem S16x64x3 .i32) (hTb : Tb.IsWhole) (Sc : Memref sig .tc .vmem S4x1024 .f32) (hSc : Sc.IsWhole) (sm : DmaSems sig S4)

set_option warn.classDefReducibility false in
set_option maxHeartbeats 4000000 in
set_option sl_exec.dmaWindow true in
/-- One trip extends the invariant from k to k + 1. -/
@[sl_loop] noncomputable def loopInv_k1_t1 (c : Dev nD) (i : grid1.Coords) (M3 : Memref sig .tc .vmem S1x64x2048 .f32) (h3 : M3.IsWhole)
    (X : Bf (F := F) c (Memref.whole main_arg1)) (sp : Bf (F := F) c Tb) :
    LoopInvTy_k1_t1 (F := F) Unit ℕ (UU nD τ) ℕ Variants.none c none Set.univ i
      Tb hTb (Memref.whole main_arg1) (Memref.isWhole_whole _) M3 h3
      Sc hSc sm (BitVec.ofNat 32 (i 0).val) where
  inv := inv (F := F) c i M3 Tb Sc (semsG c sm) X sp (Tb.view.read (Elt F) sp)
  step k acc := by
    iintro ⟨%hsp, ⟨%f, H3, %hf⟩, HX, Hsp, ⟨%fs, Hs⟩, ⟨Hd0, Hd1, Hd2, Hd3⟩, ⟨%W, HO⟩⟩
    ihave HX' := (toksX_eqv c X).1 $$ HX
    icases HX' with ⟨HXd, HX8, HX7, HX6, HX5, HXr⟩
    unfold k1_t1_body
    sl_exec (disch := first | sl_exact chk1_at Tb sp _ rfl hsp _ _ _ _ _ _ | sl_exact chk2_at Tb sp _ rfl hsp _ _ _ _ _ _)
    sl_step
    have he : spE (Tb.view.read (Elt F) sp) (i 0) (row k) < 16 := (hsp (i 0) (row k)).1
    have hs1 : 1 ≤ spS (Tb.view.read (Elt F) sp) (i 0) (row k) := (hsp (i 0) (row k)).2.1
    have hs2 : spS (Tb.view.read (Elt F) sp) (i 0) (row k) ≤ 2047 := (hsp (i 0) (row k)).2.2.1
    have hen : spEn (Tb.view.read (Elt F) sp) (i 0) (row k) ≤ 2046 := (hsp (i 0) (row k)).2.2.2
    isplitr; · ipureintro; exact hsp
    isplitl [H3]
    · iexists _
      isplitl [H3]; · iexact H3
      ipureintro
      refine rows_step M3 f X (Tb.view.read (Elt F) sp) i k _ _ _ _ _ _ _ _ (by decide) hf ?_ ?_ ?_ ?_
      · intro j
        refine (half_row (c := c) _ _ 0 0 _ _ 0 rfl (by omega) j).trans ?_
        rw [scratch_nest (c := c), scratch_at0 (c := c)]
        exact hbm_row (c := c) X (spE (Tb.view.read (Elt F) sp) (i 0) (row k)) (spS (Tb.view.read (Elt F) sp) (i 0) (row k) - 1) he (by omega) _ (off4_tbl Tb sp _ rfl hsp i k _ _ _ _) _ _ _ _
      · intro j
        refine (half_row (c := c) _ _ 1 0 _ _ 1 rfl (by omega) j).trans ?_
        rw [scratch_nest (c := c), scratch_at1 (c := c)]
        exact hbm_row (c := c) X (spE (Tb.view.read (Elt F) sp) (i 0) (row k)) (spEn (Tb.view.read (Elt F) sp) (i 0) (row k)) he (by omega) _ (off5_tbl Tb sp _ rfl i k _ _ _ _) _ _ _ _
      · intro j
        refine (half_row (c := c) _ _ 2 512 _ _ 2 rfl (by omega) j).trans ?_
        rw [scratch_nest (c := c), scratch_at2 (c := c)]
        exact hbm_row (c := c) X (spE (Tb.view.read (Elt F) sp) (i 0) (row k)) (spEn (Tb.view.read (Elt F) sp) (i 0) (row k) + 1) he (by omega) _ (off6_tbl Tb sp _ rfl hsp i k _ _ _ _) _ _ _ _
      · intro j
        refine (half_row (c := c) _ _ 3 512 _ _ 3 rfl (by omega) j).trans ?_
        rw [scratch_nest (c := c), scratch_at3 (c := c)]
        exact hbm_row (c := c) X (spE (Tb.view.read (Elt F) sp) (i 0) (row k)) (spS (Tb.view.read (Elt F) sp) (i 0) (row k)) he (by omega) _ (off7_tbl Tb sp _ rfl i k _ _ _ _) _ _ _ _
    isplitl [HXd HX8 HX7 HX6 HX5 HXr]
    · iapply (toksX_eqv c X).2
      isplitl [HXd]; · iexact HXd
      isplitl [HX8]; · iexact HX8
      isplitl [HX7]; · iexact HX7
      isplitl [HX6]; · iexact HX6
      isplitl [HX5]; · iexact HX5
      iexact HXr
    isplitl [Hsp]; · iexact Hsp
    isplitl [Hs]; · iexists _; iexact Hs
    isplitl [Hd0 Hd1 Hd2 Hd3]
    · isplitl [Hd0]; · iexact Hd0
      isplitl [Hd1]; · iexact Hd1
      isplitl [Hd2]; · iexact Hd2
      iexact Hd3
    iexists _; iexact HO

set_option maxHeartbeats 4000000 in
set_option sl_exec.dmaWindow true in
/-- One grid point of a span-difference call, at any table, scratch and semaphore array: the output block ends as the specification's. -/
theorem diffRun (c : Dev nD) (t : Fin grid1.N) (M3 : Memref sig .tc .vmem S1x64x2048 .f32) (h3 : M3.IsWhole)
    (X : Bf (F := F) c (Memref.whole main_arg1)) (sp : Bf (F := F) c Tb) (hsp : SpansOk (Tb.view.read (Elt F) sp))
    (f3 : Bf (F := F) c M3) (fs : Bf (F := F) c Sc)
    (W : Waits sig Unit) (Q : PUnit → sProp (MM F)) :
    iprop(pt c M3 f3 ∗ pt c (Memref.whole main_arg1) X ∗ pt c Tb sp ∗ pt c Sc fs ∗ semsG c sm ∗ owes (c : Thread nD τ) 0 W
      ∗ (iprop((∃ f' : Bf (F := F) c M3, pt c M3 f' ∗ ⌜M3.view.read (Elt F) f' = diffBlk X (Tb.view.read (Elt F) sp) (grid1.coords t 0)⌝) ∗ pt c (Memref.whole main_arg1) X ∗ pt c Tb sp
            ∗ (∃ f, pt c Sc f) ∗ semsG c sm ∗ ∃ W, owes (c : Thread nD τ) 0 W) -∗ Q ⟨⟩))
    ⊢ wp frame (wpE (defs₀ (F := F)) Variants.none c none) Set.univ
        (cc1__diff_extract_kernel (grid1.coords t) Tb hTb (Memref.whole main_arg1) (Memref.isWhole_whole _) M3 h3 Sc hSc sm) Q := by
  iintro ⟨H3, HX, Hsp, Hs, ⟨Hd0, Hd1, Hd2, Hd3⟩, HO, Hk⟩
  sl_exec!
  sl_step
  iapply Hk
  isplitl [H3]
  · iexists _
    isplitl [H3]; · iexact H3
    ipureintro
    exact blk_of_rows (c := c) M3 _ X (Tb.view.read (Elt F) sp) _ _ (le_of_eq trips64.symm) (by assumption)
  isplitl [HX]; · iexact HX
  isplitl [Hsp]; · iexact Hsp
  isplitl [Hs]; · iexists _; iexact Hs
  isplitl [Hd0 Hd1 Hd2 Hd3]
  · isplitl [Hd0]; · iexact Hd0
    isplitl [Hd1]; · iexact Hd1
    isplitl [Hd2]; · iexact Hd2
    iexact Hd3
  iexists _; iexact HO

end Cert.Proof.KI

end
-- ==== Proof.KI.Oblig.lean ====
import proofs.«409333_j59115929862503_1_alg».proof.Proof.KI.Common
import proofs.«409333_j59115929862503_1_alg».proof.Proof.KI.Dats
import proofs.«409333_j59115929862503_1_alg».proof.Proof.KI.Body0
import proofs.«409333_j59115929862503_1_alg».proof.Proof.KI.Body1
import Idealize.ShloMosaic.Lib.Pipeline.Regions

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

theorem body_obligation0 (c : Dev nD) (hl : LensOk (W0 m c main_arg2)) :
    Pipeline.BodyObligation (dat0 m c) (defs₀ (F := F)) Variants.none () Set.univ := fun t => by
  rw [bigSep_W0, bigSep_W0]
  simp only []
  rw [show (dat0 m c).Φ t.castSucc = Φ0 m c from rfl, show (dat0 m c).Φ t.succ = Φ0 m c from rfl,
    show (dat0 m c).after 0 t = topicBlk (W0 m c main_arg0) (W0 m c main_arg2) from rfl]
  unfold Φ0 Pipeline.Dat.owesAt Pipeline.owesWithin
  rw [scopedRest0_eq]
  rw [show (dat0 m c).owed t.castSucc = 0 from rfl, show (dat0 m c).owed t.succ = 0 from rfl]

  have h3 : (stage0_0 ((cfg0 (adm m 0)).slots t 0)).IsWhole := hstage0_0 _
  unfold owns
  rw [h3.set_eq_univ]
  iintro ⟨⟨HX, HT, Hsems, ⟨%fs, Hs⟩, Hr1, Hr2, Hr3, Hr4, Hr5, Hr6, Hr7, Hr8, Hr9⟩, ⟨%W, -, HO⟩, ⟨%d, %f3, -, H3⟩⟩
  iapply (kernelRun0 c t _ h3 (W0 m c main_arg0) (W0 m c main_arg2) hl f3 fs W)
  iframe H3 HX HT Hs Hsems HO
  iintro ⟨⟨%f', H3, %hf'⟩, HX, HT, Hs, Hsems, ⟨%W', HO⟩⟩

  isplitr [HO H3]
  · iframe

  isplitl [HO]
  · iexists W'; isplitr; · ipureintro; exact fun _ _ => Or.inl trivial
    iexact HO

  iexists f'; isplitr; · ipureintro; exact hf'
  iexact H3

theorem body_obligation1 (c : Dev nD) (hs : SpansOk (W0 m c main_arg3)) :
    Pipeline.BodyObligation (dat1 m c) (defs₀ (F := F)) Variants.none () Set.univ := fun t => by
  rw [bigSep_W1, bigSep_W1]
  simp only []
  rw [show (dat1 m c).Φ t.castSucc = Φ1 m c from rfl, show (dat1 m c).Φ t.succ = Φ1 m c from rfl,
    show (dat1 m c).after 0 t = diffBlk (W0 m c main_arg1) (W0 m c main_arg3) (grid1.coords t 0) from rfl]
  unfold Φ1 Pipeline.Dat.owesAt Pipeline.owesWithin
  rw [scopedRest1_eq]
  rw [show (dat1 m c).owed t.castSucc = 0 from rfl, show (dat1 m c).owed t.succ = 0 from rfl]

  have h3 : (stage1_0 ((cfg1 (adm m 1)).slots t 0)).IsWhole := hstage1_0 _
  unfold owns
  rw [h3.set_eq_univ]
  iintro ⟨⟨HX, HT, Hsems, Hr0, Hr1, ⟨%fs, Hs⟩, Hr3, Hr4, Hr5, Hr6, Hr7, Hr8⟩, ⟨%W, -, HO⟩, ⟨%d, %f3, -, H3⟩⟩
  iapply (diffRun (Memref.whole main_arg3) (Memref.isWhole_whole _) (Memref.whole cc1_scratch0) (Memref.isWhole_whole _) cc1_scratch1 c t _ h3 (W0 m c main_arg1) (W0 m c main_arg3) hs f3 fs W)
  iframe H3 HX HT Hs
  isplitl [Hsems]; · iexact Hsems
  iframe HO
  iintro ⟨⟨%f', H3, %hf'⟩, HX, HT, Hs, Hsems, ⟨%W', HO⟩⟩

  isplitr [HO H3]
  · iframe; iexact Hsems

  isplitl [HO]
  · iexists W'; isplitr; · ipureintro; exact fun _ _ => Or.inl trivial
    iexact HO

  iexists f'; isplitr; · ipureintro; exact hf'
  iexact H3

theorem body_obligation2 (c : Dev nD) (hs : SpansOk (W0 m c main_arg4)) :
    Pipeline.BodyObligation (dat2 m c) (defs₀ (F := F)) Variants.none () Set.univ := fun t => by
  rw [bigSep_W2, bigSep_W2]
  simp only []
  rw [show (dat2 m c).Φ t.castSucc = Φ2 m c from rfl, show (dat2 m c).Φ t.succ = Φ2 m c from rfl,
    show (dat2 m c).after 0 t = diffBlk (W0 m c main_arg1) (W0 m c main_arg4) (grid2.coords t 0) from rfl]
  unfold Φ2 Pipeline.Dat.owesAt Pipeline.owesWithin
  rw [scopedRest2_eq]
  rw [show (dat2 m c).owed t.castSucc = 0 from rfl, show (dat2 m c).owed t.succ = 0 from rfl]

  have h3 : (stage2_0 ((cfg2 (adm m 2)).slots t 0)).IsWhole := hstage2_0 _
  unfold owns
  rw [h3.set_eq_univ]
  iintro ⟨⟨HX, HT, Hsems, Hr0, Hr1, Hr2, Hr3, Hr4, ⟨%fs, Hs⟩, Hr6, Hr7, Hr8⟩, ⟨%W, -, HO⟩, ⟨%d, %f3, -, H3⟩⟩
  iapply (diffRun (Memref.whole main_arg4) (Memref.isWhole_whole _) (Memref.whole cc2_scratch0) (Memref.isWhole_whole _) cc2_scratch1 c t _ h3 (W0 m c main_arg1) (W0 m c main_arg4) hs f3 fs W)
  iframe H3 HX HT Hs
  isplitl [Hsems]; · iexact Hsems
  iframe HO
  iintro ⟨⟨%f', H3, %hf'⟩, HX, HT, Hs, Hsems, ⟨%W', HO⟩⟩

  isplitr [HO H3]
  · iframe; iexact Hsems

  isplitl [HO]
  · iexists W'; isplitr; · ipureintro; exact fun _ _ => Or.inl trivial
    iexact HO

  iexists f'; isplitr; · ipureintro; exact hf'
  iexact H3

theorem body_obligation3 (c : Dev nD) (hs : SpansOk (W0 m c main_arg5)) :
    Pipeline.BodyObligation (dat3 m c) (defs₀ (F := F)) Variants.none () Set.univ := fun t => by
  rw [bigSep_W3, bigSep_W3]
  simp only []
  rw [show (dat3 m c).Φ t.castSucc = Φ3 m c from rfl, show (dat3 m c).Φ t.succ = Φ3 m c from rfl,
    show (dat3 m c).after 0 t = diffBlk (W0 m c main_arg1) (W0 m c main_arg5) (grid3.coords t 0) from rfl]
  unfold Φ3 Pipeline.Dat.owesAt Pipeline.owesWithin
  rw [scopedRest3_eq]
  rw [show (dat3 m c).owed t.castSucc = 0 from rfl, show (dat3 m c).owed t.succ = 0 from rfl]

  have h3 : (stage3_0 ((cfg3 (adm m 3)).slots t 0)).IsWhole := hstage3_0 _
  unfold owns
  rw [h3.set_eq_univ]
  iintro ⟨⟨HX, HT, Hsems, Hr0, Hr1, Hr2, Hr3, Hr4, Hr5, Hr6, Hr7, ⟨%fs, Hs⟩⟩, ⟨%W, -, HO⟩, ⟨%d, %f3, -, H3⟩⟩
  iapply (diffRun (Memref.whole main_arg5) (Memref.isWhole_whole _) (Memref.whole cc3_scratch0) (Memref.isWhole_whole _) cc3_scratch1 c t _ h3 (W0 m c main_arg1) (W0 m c main_arg5) hs f3 fs W)
  iframe H3 HX HT Hs
  isplitl [Hsems]; · iexact Hsems
  iframe HO
  iintro ⟨⟨%f', H3, %hf'⟩, HX, HT, Hs, Hsems, ⟨%W', HO⟩⟩

  isplitr [HO H3]
  · iframe; iexact Hsems

  isplitl [HO]
  · iexists W'; isplitr; · ipureintro; exact fun _ _ => Or.inl trivial
    iexact HO

  iexists f'; isplitr; · ipureintro; exact hf'
  iexact H3

end Cert.Proof.KI

end
-- ==== Proof.KI.Run.lean ====
import proofs.«409333_j59115929862503_1_alg».proof.Proof.KI.Common
import proofs.«409333_j59115929862503_1_alg».proof.Proof.KI.Oblig
import Idealize.ShloMosaic.Lib.Pipeline.Regions
import Idealize.ShloMosaic.Lib.Pipeline.RegionsLoop

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

abbrev EP : Emb (UR sig nD τ) (MM F) := embL
abbrev 𝒱₀ : Variants := Variants.none

abbrev L : GSem nD τ sig → Finset Unit := fun _ => ∅
abbrev lv : GSem nD τ sig → Unit → ℕ := fun _ _ => 0

abbrev R (c : Dev nD) : sProp (MM F) := iprop(∃ W, owes (c : Thread nD τ) (0 : CellTallies nD τ sig Unit) W)

def outs : Gen.Outs (F := F) := fun _ r c =>
  if h0 : r = main_v0 then h0 ▸ final0 m c
  else if h1 : r = main_v1 then h1 ▸ final1 m c
  else if h2 : r = main_v2 then h2 ▸ final2 m c
  else if h3 : r = main_v3 then h3 ▸ final3 m c
  else m ((c : Thread nD τ).loc r)

theorem outs_v0 (J : ℕ) (c : Dev nD) : outs m J main_v0 c = final0 m c := by unfold outs; rw [dif_pos rfl]
theorem outs_v1 (J : ℕ) (c : Dev nD) : outs m J main_v1 c = final1 m c := by
  unfold outs; rw [dif_neg (by decide), dif_pos rfl]
theorem outs_v2 (J : ℕ) (c : Dev nD) : outs m J main_v2 c = final2 m c := by
  unfold outs; rw [dif_neg (by decide), dif_neg (by decide), dif_pos rfl]
theorem outs_v3 (J : ℕ) (c : Dev nD) : outs m J main_v3 c = final3 m c := by
  unfold outs; rw [dif_neg (by decide), dif_neg (by decide), dif_neg (by decide), dif_pos rfl]

theorem V1_at (c : Dev nD) (r : Ref sig .tc) (h0 : r ∉ ([main_v0] : List (Ref sig .tc))) :
    V1 m (outs m) c r = m ((c : Thread nD τ).loc r) := V1_of m (outs m) c r h0
theorem V2_at (c : Dev nD) (r : Ref sig .tc) (h0 : r ∉ ([main_v0] : List (Ref sig .tc))) (h1 : r ∉ ([main_v1] : List (Ref sig .tc))) :
    V2 m (outs m) c r = m ((c : Thread nD τ).loc r) := (V2_of m (outs m) c r h1).trans (V1_at m c r h0)
theorem V3_at (c : Dev nD) (r : Ref sig .tc) (h0 : r ∉ ([main_v0] : List (Ref sig .tc))) (h1 : r ∉ ([main_v1] : List (Ref sig .tc)))
    (h2 : r ∉ ([main_v2] : List (Ref sig .tc))) :
    V3 m (outs m) c r = m ((c : Thread nD τ).loc r) := (V3_of m (outs m) c r h2).trans (V2_at m c r h0 h1)

theorem ownSems0_eq0 (c : Dev nD) :
    (Pipeline.ownSems0 (Ix := Unit) (Name := ℕ) (U := UU nD τ) (Lvl := ℕ) (Val := Elt F) (τ := τ) osem0 c : sProp (MM F)) = sems0_0 c :=
  Pipeline.ownSems0_eq_of_list c osem0 [0, 1] (by decide) (by decide)

theorem ownSemFacts0 : Pipeline.OwnSemFacts spec0 osem0 := by decide

theorem prefHeld0_eq (c : Dev nD) (T : (pcfgs (F := F) 0).pre.Contents (Elt F)) :
    (Pipeline.prefHeld (Ix := Unit) (Name := ℕ) (U := UU nD τ) (Lvl := ℕ) (pcfgs (F := F) 0).pre c (fun _ => fullShare) T : sProp (MM F))
      = iprop(((c : Thread nD τ).loc main_arg2) ↦{fullShare} T 0) := by
  unfold Pipeline.prefHeld
  exact bigSep_W0 _
theorem prefHeld0_V (c : Dev nD) (V : (b : Ref sig .tc) → Buf (Elt F) ((c : Thread nD τ).loc b)) :
    (Pipeline.prefHeld (Ix := Unit) (Name := ℕ) (U := UU nD τ) (Lvl := ℕ) (pcfgs (F := F) 0).pre c (fun _ => fullShare)
        (fun k => V ((pcfgs (F := F) 0).pre.ref k)) : sProp (MM F))
      = iprop(((c : Thread nD τ).loc main_arg2) ↦{fullShare} V main_arg2) := prefHeld0_eq c _

theorem hF0 (c : Dev nD) (w : Fin (Pipeline.pin (pcfgs (F := F)) (adm m) 0).W) :
    (pdats m 0 c).arrAt w (Pipeline.pin (pcfgs (F := F)) (adm m) 0).N
      = V1 m (outs m) c (Pipeline.arrRef (Pipeline.pin (pcfgs (F := F)) (adm m) 0).spec w) :=
  match w with
  | ⟨0, _⟩ => ((Function.update_self (Proc.devRef .tc main_v0 : DevRef τ sig) (outs m 1 main_v0 c) (V0 m c)).trans (outs_v0 m 1 c)).symm
  | ⟨_ + 1, h⟩ => absurd h (Nat.not_lt.2 (Nat.le_add_left _ _))
theorem hrest0 (c : Dev nD) : ∀ b, b ∉ Finset.univ.image (Pipeline.arrRef (Pipeline.pin (pcfgs (F := F)) (adm m) 0).spec)
    → V1 m (outs m) c b = V0 m c b :=
  fun b hb => V1_of m (outs m) c b fun h => hb (Finset.mem_image.mpr ⟨0, Finset.mem_univ _, (List.mem_singleton.mp h).symm⟩)

theorem hA0 (c : Dev nD) (w : Fin (Pipeline.pin (pcfgs (F := F)) (adm m) 0).W) :
    (pdats m 0 c).A w = V0 m c (Pipeline.arrRef (Pipeline.pin (pcfgs (F := F)) (adm m) 0).spec w) :=
  match w with
  | ⟨0, _⟩ => rfl
  | ⟨_ + 1, h⟩ => absurd h (Nat.not_lt.2 (Nat.le_add_left _ _))

theorem ownSems0_eq1 (c : Dev nD) :
    (Pipeline.ownSems0 (Ix := Unit) (Name := ℕ) (U := UU nD τ) (Lvl := ℕ) (Val := Elt F) (τ := τ) osem1 c : sProp (MM F)) = sems0_1 c :=
  Pipeline.ownSems0_eq_of_list c osem1 [0, 1, 2, 3] (by decide) (by decide)

theorem ownSemFacts1 : Pipeline.OwnSemFacts spec1 osem1 := by decide

theorem prefHeld1_eq (c : Dev nD) (T : (pcfgs (F := F) 1).pre.Contents (Elt F)) :
    (Pipeline.prefHeld (Ix := Unit) (Name := ℕ) (U := UU nD τ) (Lvl := ℕ) (pcfgs (F := F) 1).pre c (fun _ => fullShare) T : sProp (MM F))
      = iprop(((c : Thread nD τ).loc main_arg3) ↦{fullShare} T 0) := by
  unfold Pipeline.prefHeld
  exact bigSep_W1 _
theorem prefHeld1_V (c : Dev nD) (V : (b : Ref sig .tc) → Buf (Elt F) ((c : Thread nD τ).loc b)) :
    (Pipeline.prefHeld (Ix := Unit) (Name := ℕ) (U := UU nD τ) (Lvl := ℕ) (pcfgs (F := F) 1).pre c (fun _ => fullShare)
        (fun k => V ((pcfgs (F := F) 1).pre.ref k)) : sProp (MM F))
      = iprop(((c : Thread nD τ).loc main_arg3) ↦{fullShare} V main_arg3) := prefHeld1_eq c _

theorem hF1 (c : Dev nD) (w : Fin (Pipeline.pin (pcfgs (F := F)) (adm m) 1).W) :
    (pdats m 1 c).arrAt w (Pipeline.pin (pcfgs (F := F)) (adm m) 1).N
      = V2 m (outs m) c (Pipeline.arrRef (Pipeline.pin (pcfgs (F := F)) (adm m) 1).spec w) :=
  match w with
  | ⟨0, _⟩ => ((Function.update_self (Proc.devRef .tc main_v1 : DevRef τ sig) (outs m 2 main_v1 c) (V1 m (outs m) c)).trans (outs_v1 m 2 c)).symm
  | ⟨_ + 1, h⟩ => absurd h (Nat.not_lt.2 (Nat.le_add_left _ _))
theorem hrest1 (c : Dev nD) : ∀ b, b ∉ Finset.univ.image (Pipeline.arrRef (Pipeline.pin (pcfgs (F := F)) (adm m) 1).spec)
    → V2 m (outs m) c b = V1 m (outs m) c b :=
  fun b hb => V2_of m (outs m) c b fun h => hb (Finset.mem_image.mpr ⟨0, Finset.mem_univ _, (List.mem_singleton.mp h).symm⟩)

theorem hA1 (c : Dev nD) (w : Fin (Pipeline.pin (pcfgs (F := F)) (adm m) 1).W) :
    (pdats m 1 c).A w = V1 m (outs m) c (Pipeline.arrRef (Pipeline.pin (pcfgs (F := F)) (adm m) 1).spec w) :=
  match w with
  | ⟨0, _⟩ => (V1_at m c main_v1 (by decide)).symm
  | ⟨_ + 1, h⟩ => absurd h (Nat.not_lt.2 (Nat.le_add_left _ _))

theorem ownSems0_eq2 (c : Dev nD) :
    (Pipeline.ownSems0 (Ix := Unit) (Name := ℕ) (U := UU nD τ) (Lvl := ℕ) (Val := Elt F) (τ := τ) osem2 c : sProp (MM F)) = sems0_2 c :=
  Pipeline.ownSems0_eq_of_list c osem2 [0, 1, 2, 3] (by decide) (by decide)

theorem ownSemFacts2 : Pipeline.OwnSemFacts spec2 osem2 := by decide

theorem prefHeld2_eq (c : Dev nD) (T : (pcfgs (F := F) 2).pre.Contents (Elt F)) :
    (Pipeline.prefHeld (Ix := Unit) (Name := ℕ) (U := UU nD τ) (Lvl := ℕ) (pcfgs (F := F) 2).pre c (fun _ => fullShare) T : sProp (MM F))
      = iprop(((c : Thread nD τ).loc main_arg4) ↦{fullShare} T 0) := by
  unfold Pipeline.prefHeld
  exact bigSep_W2 _
theorem prefHeld2_V (c : Dev nD) (V : (b : Ref sig .tc) → Buf (Elt F) ((c : Thread nD τ).loc b)) :
    (Pipeline.prefHeld (Ix := Unit) (Name := ℕ) (U := UU nD τ) (Lvl := ℕ) (pcfgs (F := F) 2).pre c (fun _ => fullShare)
        (fun k => V ((pcfgs (F := F) 2).pre.ref k)) : sProp (MM F))
      = iprop(((c : Thread nD τ).loc main_arg4) ↦{fullShare} V main_arg4) := prefHeld2_eq c _

theorem hF2 (c : Dev nD) (w : Fin (Pipeline.pin (pcfgs (F := F)) (adm m) 2).W) :
    (pdats m 2 c).arrAt w (Pipeline.pin (pcfgs (F := F)) (adm m) 2).N
      = V3 m (outs m) c (Pipeline.arrRef (Pipeline.pin (pcfgs (F := F)) (adm m) 2).spec w) :=
  match w with
  | ⟨0, _⟩ => ((Function.update_self (Proc.devRef .tc main_v2 : DevRef τ sig) (outs m 3 main_v2 c) (V2 m (outs m) c)).trans (outs_v2 m 3 c)).symm
  | ⟨_ + 1, h⟩ => absurd h (Nat.not_lt.2 (Nat.le_add_left _ _))
theorem hrest2 (c : Dev nD) : ∀ b, b ∉ Finset.univ.image (Pipeline.arrRef (Pipeline.pin (pcfgs (F := F)) (adm m) 2).spec)
    → V3 m (outs m) c b = V2 m (outs m) c b :=
  fun b hb => V3_of m (outs m) c b fun h => hb (Finset.mem_image.mpr ⟨0, Finset.mem_univ _, (List.mem_singleton.mp h).symm⟩)

theorem hA2 (c : Dev nD) (w : Fin (Pipeline.pin (pcfgs (F := F)) (adm m) 2).W) :
    (pdats m 2 c).A w = V2 m (outs m) c (Pipeline.arrRef (Pipeline.pin (pcfgs (F := F)) (adm m) 2).spec w) :=
  match w with
  | ⟨0, _⟩ => (V2_at m c main_v2 (by decide) (by decide)).symm
  | ⟨_ + 1, h⟩ => absurd h (Nat.not_lt.2 (Nat.le_add_left _ _))

theorem ownSems0_eq3 (c : Dev nD) :
    (Pipeline.ownSems0 (Ix := Unit) (Name := ℕ) (U := UU nD τ) (Lvl := ℕ) (Val := Elt F) (τ := τ) osem3 c : sProp (MM F)) = sems0_3 c :=
  Pipeline.ownSems0_eq_of_list c osem3 [0, 1, 2, 3] (by decide) (by decide)

theorem ownSemFacts3 : Pipeline.OwnSemFacts spec3 osem3 := by decide

theorem prefHeld3_eq (c : Dev nD) (T : (pcfgs (F := F) 3).pre.Contents (Elt F)) :
    (Pipeline.prefHeld (Ix := Unit) (Name := ℕ) (U := UU nD τ) (Lvl := ℕ) (pcfgs (F := F) 3).pre c (fun _ => fullShare) T : sProp (MM F))
      = iprop(((c : Thread nD τ).loc main_arg5) ↦{fullShare} T 0) := by
  unfold Pipeline.prefHeld
  exact bigSep_W3 _
theorem prefHeld3_V (c : Dev nD) (V : (b : Ref sig .tc) → Buf (Elt F) ((c : Thread nD τ).loc b)) :
    (Pipeline.prefHeld (Ix := Unit) (Name := ℕ) (U := UU nD τ) (Lvl := ℕ) (pcfgs (F := F) 3).pre c (fun _ => fullShare)
        (fun k => V ((pcfgs (F := F) 3).pre.ref k)) : sProp (MM F))
      = iprop(((c : Thread nD τ).loc main_arg5) ↦{fullShare} V main_arg5) := prefHeld3_eq c _

theorem hF3 (c : Dev nD) (w : Fin (Pipeline.pin (pcfgs (F := F)) (adm m) 3).W) :
    (pdats m 3 c).arrAt w (Pipeline.pin (pcfgs (F := F)) (adm m) 3).N
      = V4 m (outs m) c (Pipeline.arrRef (Pipeline.pin (pcfgs (F := F)) (adm m) 3).spec w) :=
  match w with
  | ⟨0, _⟩ => ((Function.update_self (Proc.devRef .tc main_v3 : DevRef τ sig) (outs m 4 main_v3 c) (V3 m (outs m) c)).trans (outs_v3 m 4 c)).symm
  | ⟨_ + 1, h⟩ => absurd h (Nat.not_lt.2 (Nat.le_add_left _ _))
theorem hrest3 (c : Dev nD) : ∀ b, b ∉ Finset.univ.image (Pipeline.arrRef (Pipeline.pin (pcfgs (F := F)) (adm m) 3).spec)
    → V4 m (outs m) c b = V3 m (outs m) c b :=
  fun b hb => V4_of m (outs m) c b fun h => hb (Finset.mem_image.mpr ⟨0, Finset.mem_univ _, (List.mem_singleton.mp h).symm⟩)

theorem hA3 (c : Dev nD) (w : Fin (Pipeline.pin (pcfgs (F := F)) (adm m) 3).W) :
    (pdats m 3 c).A w = V3 m (outs m) c (Pipeline.arrRef (Pipeline.pin (pcfgs (F := F)) (adm m) 3).spec w) :=
  match w with
  | ⟨0, _⟩ => (V3_at m c main_v3 (by decide) (by decide) (by decide)).symm
  | ⟨_ + 1, h⟩ => absurd h (Nat.not_lt.2 (Nat.le_add_left _ _))

set_option backward.isDefEq.respectTransparency.types false in

def reg0 (hl : ∀ c : Dev nD, LensOk (W0 m c main_arg2)) :
    Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := Fin 2
  osem := osem0
  ho := ownSemFacts0
  hbody c := (body_obligation0 m c (hl c)).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop((((c : Thread nD τ).loc main_arg0) ↦{fullShare} V0 m c main_arg0) ∗ sems0_0 c)
  Y c := iprop((((c : Thread nD τ).loc main_arg0) ↦{fullShare} V0 m c main_arg0) ∗ (((c : Thread nD τ).loc main_arg2) ↦{fullShare} V0 m c main_arg2))
  Z c := iprop((((c : Thread nD τ).loc main_arg1) ↦{fullShare} V0 m c main_arg1)
    ∗ (((c : Thread nD τ).loc main_v1) ↦{fullShare} V0 m c main_v1)
    ∗ (((c : Thread nD τ).loc main_v2) ↦{fullShare} V0 m c main_v2)
    ∗ (((c : Thread nD τ).loc main_v3) ↦{fullShare} V0 m c main_v3)
    ∗ (((c : Thread nD τ).loc main_arg3) ↦{fullShare} V0 m c main_arg3)
    ∗ (((c : Thread nD τ).loc main_arg4) ↦{fullShare} V0 m c main_arg4)
    ∗ (((c : Thread nD τ).loc main_arg5) ↦{fullShare} V0 m c main_arg5))
  hentry c := by
    obtain rfl : c = 0 := Subsingleton.elim c 0
    rw [ownSems0_eq0, prefHeld0_eq]
    have hsplit := ((Entails.of_eq (Pipeline.unscopedBufs_held (Ix := Unit) (Name := ℕ) (U := UU nD τ) (Lvl := ℕ) 0 (V0 m 0)).symm).trans
      (Pipeline.arrays_of_unscopedBufs (p := 0) (pcfgs (F := F)) (adm m) (pdats m) (launch0 (F := F)).win (launch0 (F := F)).arr_whole 0
        ((pdats m 0 0).share_full fun _ => rfl) (fun b => V0 m 0 b) (hA0 m 0))).trans
      (sep_mono_right ((Entails.of_eq (Pipeline.unscopedRest_split (launch0 (F := F)).pre 0 (fun b => V0 m 0 b))).trans
        (BIClass.sep_mono (Entails.of_eq (prefHeld0_V 0 (fun b => V0 m 0 b))) (Entails.of_eq (unscopedRestP0_eq 0 (fun b => V0 m 0 b))))))
    have ht : (((((0 : Dev nD) : Thread nD τ).loc main_arg2) ↦{fullShare} V0 m 0 main_arg2) : sProp (MM F)) ⊢ iprop((((0 : Dev nD) : Thread nD τ).loc main_arg2) ↦{fullShare} (adm m 0).1 0) :=
      BIBase.Entails.rfl
    iintro ⟨⟨Hub, HO⟩, Hos, -⟩
    ihave H := hsplit $$ Hub
    icases H with ⟨Ha, Ht, H_arg0, H_arg1, H_v1, H_v2, H_v3, H_arg3, H_arg4, H_arg5⟩
    ihave Ht' := ht $$ Ht
    imodintro
    iframe Ha Ht'
    isplitl [HO]
    · unfold Pipeline.Dat.owesAt Pipeline.owesWithin
      icases HO with ⟨%W, HO⟩; iexists W; isplitr; · ipureintro; exact fun _ _ => Or.inl trivial
      iexact HO
    iframe
  hin c := by
    obtain rfl : c = 0 := Subsingleton.elim c 0
    rw [show (pdats m 0 0).Φ 0 = Φ0 m 0 from rfl, prefHeld0_eq]; unfold Φ0
    iintro ⟨⟨HA, Hos⟩, Ht, Hr⟩
    iframe
    iexact Ht
  hout c := by
    rw [ownSems0_eq0, show (pdats m 0 c).Φ (Fin.last _) = Φ0 m c from rfl]; unfold Φ0
    iintro ⟨HA, Ht, Hos, Hr⟩
    iframe
  hexit c := by
    have hjoin := ((sep_mono_right ((BIClass.sep_mono (Entails.of_eq (prefHeld0_V c (fun b => V0 m c b)).symm) (Entails.of_eq (unscopedRestP0_eq c (fun b => V0 m c b)).symm)).trans
        (Entails.of_eq (Pipeline.unscopedRest_split (Ix := Unit) (Name := ℕ) (U := UU nD τ) (Lvl := ℕ) (launch0 (F := F)).pre c (fun b => V0 m c b)).symm))).trans
      (Pipeline.unscopedBufs_of_arrays (p := 0) (pcfgs (F := F)) (adm m) (Ix := Unit) (Name := ℕ) (U := UU nD τ) (Lvl := ℕ)
        (launch0 (F := F)).win (launch0 (F := F)).arr_whole c (pdats m) ((pdats m 0 c).share_full fun _ => rfl)
        (fun b => V0 m c b) (fun b => V1 m (outs m) c b) ((pdats m 0 c).arrAt · (Pipeline.pin (pcfgs (F := F)) (adm m) 0).N) (hF0 m c) (hrest0 m c))).trans
      (Entails.of_eq (Pipeline.unscopedBufs_held (Ix := Unit) (Name := ℕ) (U := UU nD τ) (Lvl := ℕ) c (V1 m (outs m) c)))
    iintro ⟨Ha, HO, ⟨H_arg0, Ht⟩, H_arg1, H_v1, H_v2, H_v3, H_arg3, H_arg4, H_arg5⟩
    imodintro
    isplitr [HO]
    · iapply hjoin; iframe
    · unfold Pipeline.Dat.owesAt Pipeline.owesWithin
      icases HO with ⟨%W, -, HO⟩; iexists W; iexact HO

set_option backward.isDefEq.respectTransparency.types false in

def reg1 (hs : ∀ c : Dev nD, SpansOk (W0 m c main_arg3)) :
    Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 4
  osem := osem1
  ho := ownSemFacts1
  hbody c := (body_obligation1 m c (hs c)).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop((((c : Thread nD τ).loc main_arg1) ↦{fullShare} V1 m (outs m) c main_arg1) ∗ sems0_1 c)
  Y c := iprop((((c : Thread nD τ).loc main_arg1) ↦{fullShare} V1 m (outs m) c main_arg1) ∗ (((c : Thread nD τ).loc main_arg3) ↦{fullShare} V1 m (outs m) c main_arg3))
  Z c := iprop((((c : Thread nD τ).loc main_arg0) ↦{fullShare} V1 m (outs m) c main_arg0)
    ∗ (((c : Thread nD τ).loc main_v0) ↦{fullShare} V1 m (outs m) c main_v0)
    ∗ (((c : Thread nD τ).loc main_v2) ↦{fullShare} V1 m (outs m) c main_v2)
    ∗ (((c : Thread nD τ).loc main_v3) ↦{fullShare} V1 m (outs m) c main_v3)
    ∗ (((c : Thread nD τ).loc main_arg2) ↦{fullShare} V1 m (outs m) c main_arg2)
    ∗ (((c : Thread nD τ).loc main_arg4) ↦{fullShare} V1 m (outs m) c main_arg4)
    ∗ (((c : Thread nD τ).loc main_arg5) ↦{fullShare} V1 m (outs m) c main_arg5))
  hentry c := by
    obtain rfl : c = 0 := Subsingleton.elim c 0
    rw [ownSems0_eq1, prefHeld1_eq]
    have hsplit := ((Entails.of_eq (Pipeline.unscopedBufs_held (Ix := Unit) (Name := ℕ) (U := UU nD τ) (Lvl := ℕ) 0 (V1 m (outs m) 0)).symm).trans
      (Pipeline.arrays_of_unscopedBufs (p := 1) (pcfgs (F := F)) (adm m) (pdats m) (launch1 (F := F)).win (launch1 (F := F)).arr_whole 0
        ((pdats m 1 0).share_full fun _ => rfl) (fun b => V1 m (outs m) 0 b) (hA1 m 0))).trans
      (sep_mono_right ((Entails.of_eq (Pipeline.unscopedRest_split (launch1 (F := F)).pre 0 (fun b => V1 m (outs m) 0 b))).trans
        (BIClass.sep_mono (Entails.of_eq (prefHeld1_V 0 (fun b => V1 m (outs m) 0 b))) (Entails.of_eq (unscopedRestP1_eq 0 (fun b => V1 m (outs m) 0 b))))))
    have ht : (((((0 : Dev nD) : Thread nD τ).loc main_arg3) ↦{fullShare} V1 m (outs m) 0 main_arg3) : sProp (MM F)) ⊢ iprop((((0 : Dev nD) : Thread nD τ).loc main_arg3) ↦{fullShare} (adm m 1).1 0) :=
      Entails.of_eq (by rw [V1_at m 0 main_arg3 (by decide)]; rfl)
    iintro ⟨⟨Hub, HO⟩, Hos, -⟩
    ihave H := hsplit $$ Hub
    icases H with ⟨Ha, Ht, H_arg0, H_arg1, H_v0, H_v2, H_v3, H_arg2, H_arg4, H_arg5⟩
    ihave Ht' := ht $$ Ht
    imodintro
    iframe Ha Ht'
    isplitl [HO]
    · unfold Pipeline.Dat.owesAt Pipeline.owesWithin
      icases HO with ⟨%W, HO⟩; iexists W; isplitr; · ipureintro; exact fun _ _ => Or.inl trivial
      iexact HO
    iframe
  hin c := by
    obtain rfl : c = 0 := Subsingleton.elim c 0
    rw [show (pdats m 1 0).Φ 0 = Φ1 m 0 from rfl, prefHeld1_eq]; unfold Φ1
    rw [V1_at m 0 main_arg1 (by decide)]
    iintro ⟨⟨HA, Hos⟩, Ht, Hr⟩
    iframe
    iexact Ht
  hout c := by
    rw [ownSems0_eq1, show (pdats m 1 c).Φ (Fin.last _) = Φ1 m c from rfl]; unfold Φ1
    rw [V1_at m c main_arg1 (by decide), V1_at m c main_arg3 (by decide)]
    iintro ⟨HA, Ht, Hos, Hr⟩
    iframe
  hexit c := by
    have hjoin := ((sep_mono_right ((BIClass.sep_mono (Entails.of_eq (prefHeld1_V c (fun b => V1 m (outs m) c b)).symm) (Entails.of_eq (unscopedRestP1_eq c (fun b => V1 m (outs m) c b)).symm)).trans
        (Entails.of_eq (Pipeline.unscopedRest_split (Ix := Unit) (Name := ℕ) (U := UU nD τ) (Lvl := ℕ) (launch1 (F := F)).pre c (fun b => V1 m (outs m) c b)).symm))).trans
      (Pipeline.unscopedBufs_of_arrays (p := 1) (pcfgs (F := F)) (adm m) (Ix := Unit) (Name := ℕ) (U := UU nD τ) (Lvl := ℕ)
        (launch1 (F := F)).win (launch1 (F := F)).arr_whole c (pdats m) ((pdats m 1 c).share_full fun _ => rfl)
        (fun b => V1 m (outs m) c b) (fun b => V2 m (outs m) c b) ((pdats m 1 c).arrAt · (Pipeline.pin (pcfgs (F := F)) (adm m) 1).N) (hF1 m c) (hrest1 m c))).trans
      (Entails.of_eq (Pipeline.unscopedBufs_held (Ix := Unit) (Name := ℕ) (U := UU nD τ) (Lvl := ℕ) c (V2 m (outs m) c)))
    iintro ⟨Ha, HO, ⟨H_arg1, Ht⟩, H_arg0, H_v0, H_v2, H_v3, H_arg2, H_arg4, H_arg5⟩
    imodintro
    isplitr [HO]
    · iapply hjoin; iframe
    · unfold Pipeline.Dat.owesAt Pipeline.owesWithin
      icases HO with ⟨%W, -, HO⟩; iexists W; iexact HO

set_option backward.isDefEq.respectTransparency.types false in

def reg2 (hs : ∀ c : Dev nD, SpansOk (W0 m c main_arg4)) :
    Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := Fin 4
  osem := osem2
  ho := ownSemFacts2
  hbody c := (body_obligation2 m c (hs c)).loose
  hwaits := Pipeline.hwaits_of_owed_zero _ _ _ _ L lv 2 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop((((c : Thread nD τ).loc main_arg1) ↦{fullShare} V2 m (outs m) c main_arg1) ∗ sems0_2 c)
  Y c := iprop((((c : Thread nD τ).loc main_arg1) ↦{fullShare} V2 m (outs m) c main_arg1) ∗ (((c : Thread nD τ).loc main_arg4) ↦{fullShare} V2 m (outs m) c main_arg4))
  Z c := iprop((((c : Thread nD τ).loc main_arg0) ↦{fullShare} V2 m (outs m) c main_arg0)
    ∗ (((c : Thread nD τ).loc main_v0) ↦{fullShare} V2 m (outs m) c main_v0)
    ∗ (((c : Thread nD τ).loc main_v1) ↦{fullShare} V2 m (outs m) c main_v1)
    ∗ (((c : Thread nD τ).loc main_v3) ↦{fullShare} V2 m (outs m) c main_v3)
    ∗ (((c : Thread nD τ).loc main_arg2) ↦{fullShare} V2 m (outs m) c main_arg2)
    ∗ (((c : Thread nD τ).loc main_arg3) ↦{fullShare} V2 m (outs m) c main_arg3)
    ∗ (((c : Thread nD τ).loc main_arg5) ↦{fullShare} V2 m (outs m) c main_arg5))
  hentry c := by
    obtain rfl : c = 0 := Subsingleton.elim c 0
    rw [ownSems0_eq2, prefHeld2_eq]
    have hsplit := ((Entails.of_eq (Pipeline.unscopedBufs_held (Ix := Unit) (Name := ℕ) (U := UU nD τ) (Lvl := ℕ) 0 (V2 m (outs m) 0)).symm).trans
      (Pipeline.arrays_of_unscopedBufs (p := 2) (pcfgs (F := F)) (adm m) (pdats m) (launch2 (F := F)).win (launch2 (F := F)).arr_whole 0
        ((pdats m 2 0).share_full fun _ => rfl) (fun b => V2 m (outs m) 0 b) (hA2 m 0))).trans
      (sep_mono_right ((Entails.of_eq (Pipeline.unscopedRest_split (launch2 (F := F)).pre 0 (fun b => V2 m (outs m) 0 b))).trans
        (BIClass.sep_mono (Entails.of_eq (prefHeld2_V 0 (fun b => V2 m (outs m) 0 b))) (Entails.of_eq (unscopedRestP2_eq 0 (fun b => V2 m (outs m) 0 b))))))
    have ht : (((((0 : Dev nD) : Thread nD τ).loc main_arg4) ↦{fullShare} V2 m (outs m) 0 main_arg4) : sProp (MM F)) ⊢ iprop((((0 : Dev nD) : Thread nD τ).loc main_arg4) ↦{fullShare} (adm m 2).1 0) :=
      Entails.of_eq (by rw [V2_at m 0 main_arg4 (by decide) (by decide)]; rfl)
    iintro ⟨⟨Hub, HO⟩, Hos, -⟩
    ihave H := hsplit $$ Hub
    icases H with ⟨Ha, Ht, H_arg0, H_arg1, H_v0, H_v1, H_v3, H_arg2, H_arg3, H_arg5⟩
    ihave Ht' := ht $$ Ht
    imodintro
    iframe Ha Ht'
    isplitl [HO]
    · unfold Pipeline.Dat.owesAt Pipeline.owesWithin
      icases HO with ⟨%W, HO⟩; iexists W; isplitr; · ipureintro; exact fun _ _ => Or.inl trivial
      iexact HO
    iframe
  hin c := by
    obtain rfl : c = 0 := Subsingleton.elim c 0
    rw [show (pdats m 2 0).Φ 0 = Φ2 m 0 from rfl, prefHeld2_eq]; unfold Φ2
    rw [V2_at m 0 main_arg1 (by decide) (by decide)]
    iintro ⟨⟨HA, Hos⟩, Ht, Hr⟩
    iframe
    iexact Ht
  hout c := by
    rw [ownSems0_eq2, show (pdats m 2 c).Φ (Fin.last _) = Φ2 m c from rfl]; unfold Φ2
    rw [V2_at m c main_arg1 (by decide) (by decide), V2_at m c main_arg4 (by decide) (by decide)]
    iintro ⟨HA, Ht, Hos, Hr⟩
    iframe
  hexit c := by
    have hjoin := ((sep_mono_right ((BIClass.sep_mono (Entails.of_eq (prefHeld2_V c (fun b => V2 m (outs m) c b)).symm) (Entails.of_eq (unscopedRestP2_eq c (fun b => V2 m (outs m) c b)).symm)).trans
        (Entails.of_eq (Pipeline.unscopedRest_split (Ix := Unit) (Name := ℕ) (U := UU nD τ) (Lvl := ℕ) (launch2 (F := F)).pre c (fun b => V2 m (outs m) c b)).symm))).trans
      (Pipeline.unscopedBufs_of_arrays (p := 2) (pcfgs (F := F)) (adm m) (Ix := Unit) (Name := ℕ) (U := UU nD τ) (Lvl := ℕ)
        (launch2 (F := F)).win (launch2 (F := F)).arr_whole c (pdats m) ((pdats m 2 c).share_full fun _ => rfl)
        (fun b => V2 m (outs m) c b) (fun b => V3 m (outs m) c b) ((pdats m 2 c).arrAt · (Pipeline.pin (pcfgs (F := F)) (adm m) 2).N) (hF2 m c) (hrest2 m c))).trans
      (Entails.of_eq (Pipeline.unscopedBufs_held (Ix := Unit) (Name := ℕ) (U := UU nD τ) (Lvl := ℕ) c (V3 m (outs m) c)))
    iintro ⟨Ha, HO, ⟨H_arg1, Ht⟩, H_arg0, H_v0, H_v1, H_v3, H_arg2, H_arg3, H_arg5⟩
    imodintro
    isplitr [HO]
    · iapply hjoin; iframe
    · unfold Pipeline.Dat.owesAt Pipeline.owesWithin
      icases HO with ⟨%W, -, HO⟩; iexists W; iexact HO

set_option backward.isDefEq.respectTransparency.types false in

def reg3 (hs : ∀ c : Dev nD, SpansOk (W0 m c main_arg5)) :
    Pipeline.RegionSeg (pcfgs (F := F)) (adm m) (pdats m) () defs₀ 𝒱₀ L lv 3 where
  win := (launch3 (F := F)).win.to₀
  block_pos := (launch3 (F := F)).block_pos
  stage_whole := (launch3 (F := F)).stage_whole
  K := Fin 4
  osem := osem3
  ho := ownSemFacts3
  hbody c := (body_obligation3 m c (hs c)).loose
  hwaits := Pipeline.hwaits_of_owed_zero _ _ _ _ L lv 3 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop((((c : Thread nD τ).loc main_arg1) ↦{fullShare} V3 m (outs m) c main_arg1) ∗ sems0_3 c)
  Y c := iprop((((c : Thread nD τ).loc main_arg1) ↦{fullShare} V3 m (outs m) c main_arg1) ∗ (((c : Thread nD τ).loc main_arg5) ↦{fullShare} V3 m (outs m) c main_arg5))
  Z c := iprop((((c : Thread nD τ).loc main_arg0) ↦{fullShare} V3 m (outs m) c main_arg0)
    ∗ (((c : Thread nD τ).loc main_v0) ↦{fullShare} V3 m (outs m) c main_v0)
    ∗ (((c : Thread nD τ).loc main_v1) ↦{fullShare} V3 m (outs m) c main_v1)
    ∗ (((c : Thread nD τ).loc main_v2) ↦{fullShare} V3 m (outs m) c main_v2)
    ∗ (((c : Thread nD τ).loc main_arg2) ↦{fullShare} V3 m (outs m) c main_arg2)
    ∗ (((c : Thread nD τ).loc main_arg3) ↦{fullShare} V3 m (outs m) c main_arg3)
    ∗ (((c : Thread nD τ).loc main_arg4) ↦{fullShare} V3 m (outs m) c main_arg4))
  hentry c := by
    obtain rfl : c = 0 := Subsingleton.elim c 0
    rw [ownSems0_eq3, prefHeld3_eq]
    have hsplit := ((Entails.of_eq (Pipeline.unscopedBufs_held (Ix := Unit) (Name := ℕ) (U := UU nD τ) (Lvl := ℕ) 0 (V3 m (outs m) 0)).symm).trans
      (Pipeline.arrays_of_unscopedBufs (p := 3) (pcfgs (F := F)) (adm m) (pdats m) (launch3 (F := F)).win (launch3 (F := F)).arr_whole 0
        ((pdats m 3 0).share_full fun _ => rfl) (fun b => V3 m (outs m) 0 b) (hA3 m 0))).trans
      (sep_mono_right ((Entails.of_eq (Pipeline.unscopedRest_split (launch3 (F := F)).pre 0 (fun b => V3 m (outs m) 0 b))).trans
        (BIClass.sep_mono (Entails.of_eq (prefHeld3_V 0 (fun b => V3 m (outs m) 0 b))) (Entails.of_eq (unscopedRestP3_eq 0 (fun b => V3 m (outs m) 0 b))))))
    have ht : (((((0 : Dev nD) : Thread nD τ).loc main_arg5) ↦{fullShare} V3 m (outs m) 0 main_arg5) : sProp (MM F)) ⊢ iprop((((0 : Dev nD) : Thread nD τ).loc main_arg5) ↦{fullShare} (adm m 3).1 0) :=
      Entails.of_eq (by rw [V3_at m 0 main_arg5 (by decide) (by decide) (by decide)]; rfl)
    iintro ⟨⟨Hub, HO⟩, Hos, -⟩
    ihave H := hsplit $$ Hub
    icases H with ⟨Ha, Ht, H_arg0, H_arg1, H_v0, H_v1, H_v2, H_arg2, H_arg3, H_arg4⟩
    ihave Ht' := ht $$ Ht
    imodintro
    iframe Ha Ht'
    isplitl [HO]
    · unfold Pipeline.Dat.owesAt Pipeline.owesWithin
      icases HO with ⟨%W, HO⟩; iexists W; isplitr; · ipureintro; exact fun _ _ => Or.inl trivial
      iexact HO
    iframe
  hin c := by
    obtain rfl : c = 0 := Subsingleton.elim c 0
    rw [show (pdats m 3 0).Φ 0 = Φ3 m 0 from rfl, prefHeld3_eq]; unfold Φ3
    rw [V3_at m 0 main_arg1 (by decide) (by decide) (by decide)]
    iintro ⟨⟨HA, Hos⟩, Ht, Hr⟩
    iframe
    iexact Ht
  hout c := by
    rw [ownSems0_eq3, show (pdats m 3 c).Φ (Fin.last _) = Φ3 m c from rfl]; unfold Φ3
    rw [V3_at m c main_arg1 (by decide) (by decide) (by decide), V3_at m c main_arg5 (by decide) (by decide) (by decide)]
    iintro ⟨HA, Ht, Hos, Hr⟩
    iframe
  hexit c := by
    have hjoin := ((sep_mono_right ((BIClass.sep_mono (Entails.of_eq (prefHeld3_V c (fun b => V3 m (outs m) c b)).symm) (Entails.of_eq (unscopedRestP3_eq c (fun b => V3 m (outs m) c b)).symm)).trans
        (Entails.of_eq (Pipeline.unscopedRest_split (Ix := Unit) (Name := ℕ) (U := UU nD τ) (Lvl := ℕ) (launch3 (F := F)).pre c (fun b => V3 m (outs m) c b)).symm))).trans
      (Pipeline.unscopedBufs_of_arrays (p := 3) (pcfgs (F := F)) (adm m) (Ix := Unit) (Name := ℕ) (U := UU nD τ) (Lvl := ℕ)
        (launch3 (F := F)).win (launch3 (F := F)).arr_whole c (pdats m) ((pdats m 3 c).share_full fun _ => rfl)
        (fun b => V3 m (outs m) c b) (fun b => V4 m (outs m) c b) ((pdats m 3 c).arrAt · (Pipeline.pin (pcfgs (F := F)) (adm m) 3).N) (hF3 m c) (hrest3 m c))).trans
      (Entails.of_eq (Pipeline.unscopedBufs_held (Ix := Unit) (Name := ℕ) (U := UU nD τ) (Lvl := ℕ) c (V4 m (outs m) c)))
    iintro ⟨Ha, HO, ⟨H_arg1, Ht⟩, H_arg0, H_v0, H_v1, H_v2, H_arg2, H_arg3, H_arg4⟩
    imodintro
    isplitr [HO]
    · iapply hjoin; iframe
    · unfold Pipeline.Dat.owesAt Pipeline.owesWithin
      icases HO with ⟨%W, -, HO⟩; iexists W; iexact HO

theorem V4_main_v3 (c : Dev nD) : V4 m (outs m) c main_v3 = final3 m c :=
  (Function.update_self (Proc.devRef .tc main_v3 : DevRef τ sig) (outs m 4 main_v3 c) (V3 m (outs m) c)).trans (outs_v3 m 4 c)
theorem V4_main_v2 (c : Dev nD) : V4 m (outs m) c main_v2 = final2 m c :=
  (V4_of m (outs m) c main_v2 (by decide)).trans <|
    (Function.update_self (Proc.devRef .tc main_v2 : DevRef τ sig) (outs m 3 main_v2 c) (V2 m (outs m) c)).trans (outs_v2 m 3 c)
theorem V4_main_v1 (c : Dev nD) : V4 m (outs m) c main_v1 = final1 m c :=
  (V4_of m (outs m) c main_v1 (by decide)).trans <| (V3_of m (outs m) c main_v1 (by decide)).trans <|
    (Function.update_self (Proc.devRef .tc main_v1 : DevRef τ sig) (outs m 2 main_v1 c) (V1 m (outs m) c)).trans (outs_v1 m 2 c)
theorem V4_main_v0 (c : Dev nD) : V4 m (outs m) c main_v0 = final0 m c :=
  (V4_of m (outs m) c main_v0 (by decide)).trans <| (V3_of m (outs m) c main_v0 (by decide)).trans <| (V2_of m (outs m) c main_v0 (by decide)).trans <|
    (Function.update_self (Proc.devRef .tc main_v0 : DevRef τ sig) (outs m 1 main_v0 c) (V0 m c)).trans (outs_v0 m 1 c)

def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

set_option backward.isDefEq.respectTransparency.types false in

theorem run_main (hl : ∀ c : Dev nD, LensOk (W0 m c main_arg2)) (h3 : ∀ c : Dev nD, SpansOk (W0 m c main_arg3))
    (h4 : ∀ c : Dev nD, SpansOk (W0 m c main_arg4)) (h5 : ∀ c : Dev nD, SpansOk (W0 m c main_arg5)) :
    θ_run (defs (F := F)) (onTc (τ := τ) (main (F := F))) ⟨m, fun _ => 0, ρ⟩ (fun r => ∀ c : Dev nD,
      r.2.mem ((c.tc : Thread nD τ).loc main_v0) = final0 m c
      ∧ r.2.mem ((c.tc : Thread nD τ).loc main_v1) = final1 m c
      ∧ r.2.mem ((c.tc : Thread nD τ).loc main_v2) = final2 m c
      ∧ r.2.mem ((c.tc : Thread nD τ).loc main_v3) = final3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) (adm m) (pdats m) () (cellOf_inj (adm m)) EP defs₀ 𝒱₀ L lv m ρ main
    [.region (reg0 m hl), .region (reg1 m h3), .region (reg2 m h4), .region (reg3 m h5)]
    (fun c Q => by rw [main_segs (adm m) (pdats m) () 𝒱₀ L lv (reg0 m hl) (reg1 m h3) (reg2 m h4) (reg3 m h5) c])
    (by simp only [Pipeline.Seg.pipes_host, Pipeline.Seg.pipes_region, Pipeline.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V4 m (outs m) c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s =>
      s.mem ((c.tc : Thread nD τ).loc main_v0) = final0 m c
      ∧ s.mem ((c.tc : Thread nD τ).loc main_v1) = final1 m c
      ∧ s.mem ((c.tc : Thread nD τ).loc main_v2) = final2 m c
      ∧ s.mem ((c.tc : Thread nD τ).loc main_v3) = final3 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => by
      unfold StableHlo.held
      iintro ⟨Hh, HSI⟩
      ihave Hr := (pointsTo_read_all (Pipeline.ucRefs τ sig) (fun b => ((c : Thread nD τ).1, b)) (V4 m (outs m) c) s') $$ [Hh HSI]
      · isplitl [Hh] <;> iassumption
      icases Hr with ⟨%h, HSI⟩
      imodintro
      isplitr
      · ipureintro
        exact ⟨(h (Proc.devRef .tc main_v0) (Finset.mem_filter.mpr ⟨StableHlo.devRef_mem_tcRefs main_v0, by decide⟩)).trans (V4_main_v0 m c),
          (h (Proc.devRef .tc main_v1) (Finset.mem_filter.mpr ⟨StableHlo.devRef_mem_tcRefs main_v1, by decide⟩)).trans (V4_main_v1 m c),
          (h (Proc.devRef .tc main_v2) (Finset.mem_filter.mpr ⟨StableHlo.devRef_mem_tcRefs main_v2, by decide⟩)).trans (V4_main_v2 m c),
          (h (Proc.devRef .tc main_v3) (Finset.mem_filter.mpr ⟨StableHlo.devRef_mem_tcRefs main_v3, by decide⟩)).trans (V4_main_v3 m c),
          (h (Proc.devRef .tc main_arg0) (Finset.mem_filter.mpr ⟨StableHlo.devRef_mem_tcRefs main_arg0, by decide⟩)).trans (V4_main_arg0 m (outs m) c),
          (h (Proc.devRef .tc main_arg1) (Finset.mem_filter.mpr ⟨StableHlo.devRef_mem_tcRefs main_arg1, by decide⟩)).trans (V4_main_arg1 m (outs m) c),
          (h (Proc.devRef .tc main_arg2) (Finset.mem_filter.mpr ⟨StableHlo.devRef_mem_tcRefs main_arg2, by decide⟩)).trans (V4_main_arg2 m (outs m) c),
          (h (Proc.devRef .tc main_arg3) (Finset.mem_filter.mpr ⟨StableHlo.devRef_mem_tcRefs main_arg3, by decide⟩)).trans (V4_main_arg3 m (outs m) c),
          (h (Proc.devRef .tc main_arg4) (Finset.mem_filter.mpr ⟨StableHlo.devRef_mem_tcRefs main_arg4, by decide⟩)).trans (V4_main_arg4 m (outs m) c),
          (h (Proc.devRef .tc main_arg5) (Finset.mem_filter.mpr ⟨StableHlo.devRef_mem_tcRefs main_arg5, by decide⟩)).trans (V4_main_arg5 m (outs m) c)⟩
      · iexact HSI)
    (hQ := fun _ h => h)

end Cert.Proof.KI

end
-- ==== Proof.KI.Bridge.lean ====
import proofs.«409333_j59115929862503_1_alg».proof.Proof.KI.Common
import proofs.«409333_j59115929862503_1_alg».proof.Proof.KI.Dats
import Idealize.ShloMosaic.Lib.Pipeline.Value

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

theorem diffAt_congr (X : S16x2048x1024.Idx → Elt F .f32) (sp : S16x64x3.Idx → BitVec 32) {b b' : Fin 16} {n n' : Fin 64} {j j' : Nat}
    (hb : b.val = b'.val) (hn : n.val = n'.val) (hj : j = j') : diffAt X sp b n j = diffAt X sp b' n' j' := by
  cases Fin.ext hb; cases Fin.ext hn; cases hj; rfl

theorem idx0 (a : (pcfg0 (F := F)).Adm) (t : Fin (cfg0 a).N) : ((cfg0 a).win 0).index t = ![0, 0] := rfl

theorem flush0 (a : (pcfg0 (F := F)).Adm) (t : Fin (cfg0 a).N) : ((cfg0 a).win 0).flush t = true := by
  have hout : ((cfg0 a).win 0).isOut = true := rfl
  have ht : t.val < 1 := lt_of_lt_of_eq t.isLt N_0
  unfold Pipeline.Window.flush
  rw [hout, Bool.true_and, Bool.or_eq_true, decide_eq_true_eq, decide_eq_true_eq]
  exact Or.inl ((show t.val + 1 = 1 by omega).trans N_0.symm)

theorem flushed0_eq (c : Dev nD) (t : Fin (cfg0 (adm m 0)).N) :
    (dat0 m c).flushed 0 t = (((cfg0 (adm m 0)).win 0).blk t).view.read (Elt F) (topicBlk (W0 m c main_arg0) (W0 m c main_arg2)) := by
  show ((cfg0 (adm m 0)).win 0).cut (grid0.coords t) ((dat0 m c).after 0 t) = _
  funext j
  let y : S16x1024.Idx := j
  let z : S16x1024.Idx := (((cfg0 (adm m 0)).win 0).blk t).view.emb j
  show topicBlk (W0 m c main_arg0) (W0 m c main_arg2) y = topicBlk (W0 m c main_arg0) (W0 m c main_arg2) z
  have e : z = y := by
    funext x
    apply Fin.ext
    match x with
    | ⟨0, _⟩ =>
      show ((cfg0 (adm m 0)).win 0).index t (0 : Fin 2) * 16 + 1 * (y 0).val = (y 0).val
      rw [idx0]; show 0 * 16 + 1 * (y 0).val = _; omega
    | ⟨1, _⟩ =>
      show ((cfg0 (adm m 0)).win 0).index t (1 : Fin 2) * 1024 + 1 * (y 1).val = (y 1).val
      rw [idx0]; show 0 * 1024 + 1 * (y 1).val = _; omega
  rw [e]

theorem mem_blk0 (a : (pcfg0 (F := F)).Adm) (t : Fin (cfg0 a).N) (i : S16x1024.Idx) :
    i ∈ (((cfg0 a).win 0).blk t).view.set ↔ ∀ x : Fin 2, ((cfg0 a).win 0).index t x * S16x1024.size x ≤ (i x).val ∧ (i x).val < ((cfg0 a).win 0).index t x * S16x1024.size x + S16x1024.size x := by
  have h1 : (((cfg0 a).win 0).blk t).view.set = (((cfg0 a).win 0).rect t).set :=
    View.set_slice_whole main_v0 (((cfg0 a).win 0).rect t)
  refine (Eq.to_iff (congrArg (fun s => i ∈ s) h1)).trans ?_
  exact Rect.mem_set_unit

theorem cover0 (a : (pcfg0 (F := F)).Adm) (i : S16x1024.Idx) :
    ∃ t : Fin (cfg0 a).N, ((cfg0 a).win 0).flush t = true ∧ i ∈ (((cfg0 a).win 0).blk t).view.set := by
  have hi0 : (i 0).val < 16 := (i 0).isLt
  have hi1 : (i 1).val < 1024 := (i 1).isLt
  refine ⟨t0_0, flush0 a t0_0, ?_⟩
  rw [mem_blk0]
  intro x
  match x with
  | ⟨0, _⟩ => rw [idx0]; show 0 * 16 ≤ (i 0).val ∧ (i 0).val < 0 * 16 + 16; omega
  | ⟨1, _⟩ => rw [idx0]; show 0 * 1024 ≤ (i 1).val ∧ (i 1).val < 0 * 1024 + 1024; omega

theorem final0_eq (c : Dev nD) : final0 m c = topicBlk (W0 m c main_arg0) (W0 m c main_arg2) :=
  (dat0 m c).arrAt_eq_of_cover 0 _ (fun t _ => flushed0_eq m c t) (cover0 (adm m 0))

theorem idx1 (a : (pcfg1 (F := F)).Adm) (t : Fin (cfg1 a).N) :
    ((cfg1 a).win 0).index t = ![(grid1.coords t 0).val % 2 ^ 32, 0, 0] := rfl

theorem coords1 : ∀ t : Fin grid1.N, (grid1.coords t 0).val = t.val := by decide +kernel

theorem flush1 (a : (pcfg1 (F := F)).Adm) (t : Fin (cfg1 a).N) : ((cfg1 a).win 0).flush t = true := by
  have hout : ((cfg1 a).win 0).isOut = true := rfl
  have ht : t.val < 16 := lt_of_lt_of_eq t.isLt N_1
  unfold Pipeline.Window.flush
  rw [hout, Bool.true_and, Bool.or_eq_true, decide_eq_true_eq, decide_eq_true_eq]
  by_cases h : t.val + 1 = 16
  · exact Or.inl (h.trans N_1.symm)
  · have h1 : t.val + 1 < 16 := by omega
    refine Or.inr ⟨lt_of_lt_of_eq h1 N_1.symm, fun e => ?_⟩
    have e0 := congrFun e (0 : Fin 3)
    rw [idx1, idx1] at e0
    have c1 := coords1 t
    have c2 : (grid1.coords ⟨t.val + 1, lt_of_lt_of_eq h1 N_1.symm⟩ 0).val = t.val + 1 := coords1 ⟨t.val + 1, lt_of_lt_of_eq h1 N_1.symm⟩
    simp only [Matrix.cons_val_zero] at e0
    omega

theorem flushed1_eq (c : Dev nD) (t : Fin (cfg1 (adm m 1)).N) :
    (dat1 m c).flushed 0 t = (((cfg1 (adm m 1)).win 0).blk t).view.read (Elt F) (diffArr (W0 m c main_arg1) (W0 m c main_arg3)) := by
  show ((cfg1 (adm m 1)).win 0).cut (grid1.coords t) ((dat1 m c).after 0 t) = _
  funext j
  let y : S1x64x2048.Idx := j
  let z : S16x64x2048.Idx := (((cfg1 (adm m 1)).win 0).blk t).view.emb j
  show diffAt (W0 m c main_arg1) (W0 m c main_arg3) (grid1.coords t 0) (y 1) (y 2).val
    = diffAt (W0 m c main_arg1) (W0 m c main_arg3) (z 0) (z 1) (z 2).val
  have hj0 : (y 0).val < 1 := (y 0).isLt
  have hc : (grid1.coords t 0).val < 16 := (grid1.coords t 0).isLt
  have e0 : (z 0).val = (grid1.coords t 0).val := by
    show ((cfg1 (adm m 1)).win 0).index t (0 : Fin 3) * 1 + 1 * (y 0).val = _
    rw [idx1]
    show (grid1.coords t 0).val % 2 ^ 32 * 1 + 1 * (y 0).val = _
    omega
  have e1 : (z 1).val = (y 1).val := by
    show ((cfg1 (adm m 1)).win 0).index t (1 : Fin 3) * 64 + 1 * (y 1).val = _
    rw [idx1]
    show 0 * 64 + 1 * (y 1).val = _
    omega
  have e2 : (z 2).val = (y 2).val := by
    show ((cfg1 (adm m 1)).win 0).index t (2 : Fin 3) * 2048 + 1 * (y 2).val = _
    rw [idx1]
    show 0 * 2048 + 1 * (y 2).val = _
    omega
  exact diffAt_congr _ _ e0.symm e1.symm e2.symm

theorem mem_blk1 (a : (pcfg1 (F := F)).Adm) (t : Fin (cfg1 a).N) (i : S16x64x2048.Idx) :
    i ∈ (((cfg1 a).win 0).blk t).view.set ↔ ∀ x : Fin 3, ((cfg1 a).win 0).index t x * S1x64x2048.size x ≤ (i x).val ∧ (i x).val < ((cfg1 a).win 0).index t x * S1x64x2048.size x + S1x64x2048.size x := by
  have h1 : (((cfg1 a).win 0).blk t).view.set = (((cfg1 a).win 0).rect t).set :=
    View.set_slice_whole main_v1 (((cfg1 a).win 0).rect t)
  refine (Eq.to_iff (congrArg (fun s => i ∈ s) h1)).trans ?_
  exact Rect.mem_set_unit

theorem cover1 (a : (pcfg1 (F := F)).Adm) (i : S16x64x2048.Idx) :
    ∃ t : Fin (cfg1 a).N, ((cfg1 a).win 0).flush t = true ∧ i ∈ (((cfg1 a).win 0).blk t).view.set := by
  have hi0 : (i 0).val < 16 := (i 0).isLt
  have hi1 : (i 1).val < 64 := (i 1).isLt
  have hi2 : (i 2).val < 2048 := (i 2).isLt
  let t : Fin grid1.N := ⟨(i 0).val, by rw [N_1]; exact hi0⟩
  refine ⟨t, flush1 a t, ?_⟩
  rw [mem_blk1]
  have hct : (grid1.coords t 0).val = (i 0).val := coords1 t
  intro x
  match x with
  | ⟨0, _⟩ => rw [idx1]; show (grid1.coords t 0).val % 2 ^ 32 * 1 ≤ (i 0).val ∧ (i 0).val < (grid1.coords t 0).val % 2 ^ 32 * 1 + 1; omega
  | ⟨1, _⟩ => rw [idx1]; show 0 * 64 ≤ (i 1).val ∧ (i 1).val < 0 * 64 + 64; omega
  | ⟨2, _⟩ => rw [idx1]; show 0 * 2048 ≤ (i 2).val ∧ (i 2).val < 0 * 2048 + 2048; omega

theorem final1_eq (c : Dev nD) : final1 m c = diffArr (W0 m c main_arg1) (W0 m c main_arg3) :=
  (dat1 m c).arrAt_eq_of_cover 0 _ (fun t _ => flushed1_eq m c t) (cover1 (adm m 1))

theorem idx2 (a : (pcfg2 (F := F)).Adm) (t : Fin (cfg2 a).N) :
    ((cfg2 a).win 0).index t = ![(grid2.coords t 0).val % 2 ^ 32, 0, 0] := rfl

theorem coords2 : ∀ t : Fin grid2.N, (grid2.coords t 0).val = t.val := by decide +kernel

theorem flush2 (a : (pcfg2 (F := F)).Adm) (t : Fin (cfg2 a).N) : ((cfg2 a).win 0).flush t = true := by
  have hout : ((cfg2 a).win 0).isOut = true := rfl
  have ht : t.val < 16 := lt_of_lt_of_eq t.isLt N_2
  unfold Pipeline.Window.flush
  rw [hout, Bool.true_and, Bool.or_eq_true, decide_eq_true_eq, decide_eq_true_eq]
  by_cases h : t.val + 1 = 16
  · exact Or.inl (h.trans N_2.symm)
  · have h1 : t.val + 1 < 16 := by omega
    refine Or.inr ⟨lt_of_lt_of_eq h1 N_2.symm, fun e => ?_⟩
    have e0 := congrFun e (0 : Fin 3)
    rw [idx2, idx2] at e0
    have c1 := coords2 t
    have c2 : (grid2.coords ⟨t.val + 1, lt_of_lt_of_eq h1 N_2.symm⟩ 0).val = t.val + 1 := coords2 ⟨t.val + 1, lt_of_lt_of_eq h1 N_2.symm⟩
    simp only [Matrix.cons_val_zero] at e0
    omega

theorem flushed2_eq (c : Dev nD) (t : Fin (cfg2 (adm m 2)).N) :
    (dat2 m c).flushed 0 t = (((cfg2 (adm m 2)).win 0).blk t).view.read (Elt F) (diffArr (W0 m c main_arg1) (W0 m c main_arg4)) := by
  show ((cfg2 (adm m 2)).win 0).cut (grid2.coords t) ((dat2 m c).after 0 t) = _
  funext j
  let y : S1x64x2048.Idx := j
  let z : S16x64x2048.Idx := (((cfg2 (adm m 2)).win 0).blk t).view.emb j
  show diffAt (W0 m c main_arg1) (W0 m c main_arg4) (grid2.coords t 0) (y 1) (y 2).val
    = diffAt (W0 m c main_arg1) (W0 m c main_arg4) (z 0) (z 1) (z 2).val
  have hj0 : (y 0).val < 1 := (y 0).isLt
  have hc : (grid2.coords t 0).val < 16 := (grid2.coords t 0).isLt
  have e0 : (z 0).val = (grid2.coords t 0).val := by
    show ((cfg2 (adm m 2)).win 0).index t (0 : Fin 3) * 1 + 1 * (y 0).val = _
    rw [idx2]
    show (grid2.coords t 0).val % 2 ^ 32 * 1 + 1 * (y 0).val = _
    omega
  have e1 : (z 1).val = (y 1).val := by
    show ((cfg2 (adm m 2)).win 0).index t (1 : Fin 3) * 64 + 1 * (y 1).val = _
    rw [idx2]
    show 0 * 64 + 1 * (y 1).val = _
    omega
  have e2 : (z 2).val = (y 2).val := by
    show ((cfg2 (adm m 2)).win 0).index t (2 : Fin 3) * 2048 + 1 * (y 2).val = _
    rw [idx2]
    show 0 * 2048 + 1 * (y 2).val = _
    omega
  exact diffAt_congr _ _ e0.symm e1.symm e2.symm

theorem mem_blk2 (a : (pcfg2 (F := F)).Adm) (t : Fin (cfg2 a).N) (i : S16x64x2048.Idx) :
    i ∈ (((cfg2 a).win 0).blk t).view.set ↔ ∀ x : Fin 3, ((cfg2 a).win 0).index t x * S1x64x2048.size x ≤ (i x).val ∧ (i x).val < ((cfg2 a).win 0).index t x * S1x64x2048.size x + S1x64x2048.size x := by
  have h1 : (((cfg2 a).win 0).blk t).view.set = (((cfg2 a).win 0).rect t).set :=
    View.set_slice_whole main_v2 (((cfg2 a).win 0).rect t)
  refine (Eq.to_iff (congrArg (fun s => i ∈ s) h1)).trans ?_
  exact Rect.mem_set_unit

theorem cover2 (a : (pcfg2 (F := F)).Adm) (i : S16x64x2048.Idx) :
    ∃ t : Fin (cfg2 a).N, ((cfg2 a).win 0).flush t = true ∧ i ∈ (((cfg2 a).win 0).blk t).view.set := by
  have hi0 : (i 0).val < 16 := (i 0).isLt
  have hi1 : (i 1).val < 64 := (i 1).isLt
  have hi2 : (i 2).val < 2048 := (i 2).isLt
  let t : Fin grid2.N := ⟨(i 0).val, by rw [N_2]; exact hi0⟩
  refine ⟨t, flush2 a t, ?_⟩
  rw [mem_blk2]
  have hct : (grid2.coords t 0).val = (i 0).val := coords2 t
  intro x
  match x with
  | ⟨0, _⟩ => rw [idx2]; show (grid2.coords t 0).val % 2 ^ 32 * 1 ≤ (i 0).val ∧ (i 0).val < (grid2.coords t 0).val % 2 ^ 32 * 1 + 1; omega
  | ⟨1, _⟩ => rw [idx2]; show 0 * 64 ≤ (i 1).val ∧ (i 1).val < 0 * 64 + 64; omega
  | ⟨2, _⟩ => rw [idx2]; show 0 * 2048 ≤ (i 2).val ∧ (i 2).val < 0 * 2048 + 2048; omega

theorem final2_eq (c : Dev nD) : final2 m c = diffArr (W0 m c main_arg1) (W0 m c main_arg4) :=
  (dat2 m c).arrAt_eq_of_cover 0 _ (fun t _ => flushed2_eq m c t) (cover2 (adm m 2))

theorem idx3 (a : (pcfg3 (F := F)).Adm) (t : Fin (cfg3 a).N) :
    ((cfg3 a).win 0).index t = ![(grid3.coords t 0).val % 2 ^ 32, 0, 0] := rfl

theorem coords3 : ∀ t : Fin grid3.N, (grid3.coords t 0).val = t.val := by decide +kernel

theorem flush3 (a : (pcfg3 (F := F)).Adm) (t : Fin (cfg3 a).N) : ((cfg3 a).win 0).flush t = true := by
  have hout : ((cfg3 a).win 0).isOut = true := rfl
  have ht : t.val < 16 := lt_of_lt_of_eq t.isLt N_3
  unfold Pipeline.Window.flush
  rw [hout, Bool.true_and, Bool.or_eq_true, decide_eq_true_eq, decide_eq_true_eq]
  by_cases h : t.val + 1 = 16
  · exact Or.inl (h.trans N_3.symm)
  · have h1 : t.val + 1 < 16 := by omega
    refine Or.inr ⟨lt_of_lt_of_eq h1 N_3.symm, fun e => ?_⟩
    have e0 := congrFun e (0 : Fin 3)
    rw [idx3, idx3] at e0
    have c1 := coords3 t
    have c2 : (grid3.coords ⟨t.val + 1, lt_of_lt_of_eq h1 N_3.symm⟩ 0).val = t.val + 1 := coords3 ⟨t.val + 1, lt_of_lt_of_eq h1 N_3.symm⟩
    simp only [Matrix.cons_val_zero] at e0
    omega

theorem flushed3_eq (c : Dev nD) (t : Fin (cfg3 (adm m 3)).N) :
    (dat3 m c).flushed 0 t = (((cfg3 (adm m 3)).win 0).blk t).view.read (Elt F) (diffArr (W0 m c main_arg1) (W0 m c main_arg5)) := by
  show ((cfg3 (adm m 3)).win 0).cut (grid3.coords t) ((dat3 m c).after 0 t) = _
  funext j
  let y : S1x64x2048.Idx := j
  let z : S16x64x2048.Idx := (((cfg3 (adm m 3)).win 0).blk t).view.emb j
  show diffAt (W0 m c main_arg1) (W0 m c main_arg5) (grid3.coords t 0) (y 1) (y 2).val
    = diffAt (W0 m c main_arg1) (W0 m c main_arg5) (z 0) (z 1) (z 2).val
  have hj0 : (y 0).val < 1 := (y 0).isLt
  have hc : (grid3.coords t 0).val < 16 := (grid3.coords t 0).isLt
  have e0 : (z 0).val = (grid3.coords t 0).val := by
    show ((cfg3 (adm m 3)).win 0).index t (0 : Fin 3) * 1 + 1 * (y 0).val = _
    rw [idx3]
    show (grid3.coords t 0).val % 2 ^ 32 * 1 + 1 * (y 0).val = _
    omega
  have e1 : (z 1).val = (y 1).val := by
    show ((cfg3 (adm m 3)).win 0).index t (1 : Fin 3) * 64 + 1 * (y 1).val = _
    rw [idx3]
    show 0 * 64 + 1 * (y 1).val = _
    omega
  have e2 : (z 2).val = (y 2).val := by
    show ((cfg3 (adm m 3)).win 0).index t (2 : Fin 3) * 2048 + 1 * (y 2).val = _
    rw [idx3]
    show 0 * 2048 + 1 * (y 2).val = _
    omega
  exact diffAt_congr _ _ e0.symm e1.symm e2.symm

theorem mem_blk3 (a : (pcfg3 (F := F)).Adm) (t : Fin (cfg3 a).N) (i : S16x64x2048.Idx) :
    i ∈ (((cfg3 a).win 0).blk t).view.set ↔ ∀ x : Fin 3, ((cfg3 a).win 0).index t x * S1x64x2048.size x ≤ (i x).val ∧ (i x).val < ((cfg3 a).win 0).index t x * S1x64x2048.size x + S1x64x2048.size x := by
  have h1 : (((cfg3 a).win 0).blk t).view.set = (((cfg3 a).win 0).rect t).set :=
    View.set_slice_whole main_v3 (((cfg3 a).win 0).rect t)
  refine (Eq.to_iff (congrArg (fun s => i ∈ s) h1)).trans ?_
  exact Rect.mem_set_unit

theorem cover3 (a : (pcfg3 (F := F)).Adm) (i : S16x64x2048.Idx) :
    ∃ t : Fin (cfg3 a).N, ((cfg3 a).win 0).flush t = true ∧ i ∈ (((cfg3 a).win 0).blk t).view.set := by
  have hi0 : (i 0).val < 16 := (i 0).isLt
  have hi1 : (i 1).val < 64 := (i 1).isLt
  have hi2 : (i 2).val < 2048 := (i 2).isLt
  let t : Fin grid3.N := ⟨(i 0).val, by rw [N_3]; exact hi0⟩
  refine ⟨t, flush3 a t, ?_⟩
  rw [mem_blk3]
  have hct : (grid3.coords t 0).val = (i 0).val := coords3 t
  intro x
  match x with
  | ⟨0, _⟩ => rw [idx3]; show (grid3.coords t 0).val % 2 ^ 32 * 1 ≤ (i 0).val ∧ (i 0).val < (grid3.coords t 0).val % 2 ^ 32 * 1 + 1; omega
  | ⟨1, _⟩ => rw [idx3]; show 0 * 64 ≤ (i 1).val ∧ (i 1).val < 0 * 64 + 64; omega
  | ⟨2, _⟩ => rw [idx3]; show 0 * 2048 ≤ (i 2).val ∧ (i 2).val < 0 * 2048 + 2048; omega

theorem final3_eq (c : Dev nD) : final3 m c = diffArr (W0 m c main_arg1) (W0 m c main_arg5) :=
  (dat3 m c).arrAt_eq_of_cover 0 _ (fun t _ => flushed3_eq m c t) (cover3 (adm m 3))

end Cert.Proof.KI

end
-- ==== Proof.KB.Common.lean ====
import proofs.«409333_j59115929862503_1_alg».proof.Proof.Gen.Kernel.Launch
import proofs.«409333_j59115929862503_1_alg».proof.Proof.Gen.Kernel.Loops
import Idealize.ShloMosaic.Lib.Tactic
import Idealize.ShloMosaic.Lib.Pipeline.Kit
import Idealize.ShloMosaic.Lib.ValueIdx

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

abbrev MM (F : FTy → Type) [FloatOps F] : Type := MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (MM F) :=
  M.view.loc (c : Thread nD τ) ↦{fullShare} f

abbrev osem0 : Fin 2 → SemLoc sig := fun | 0 => .dma 1 | 1 => .dma 2
abbrev osem1 : Fin 4 → SemLoc sig := fun | 0 => .dma 5 | 1 => .dma 6 | 2 => .dma 7 | 3 => .dma 8
abbrev osem2 : Fin 4 → SemLoc sig := fun | 0 => .dma 11 | 1 => .dma 12 | 2 => .dma 13 | 3 => .dma 14
abbrev osem3 : Fin 4 → SemLoc sig := fun | 0 => .dma 17 | 1 => .dma 18 | 2 => .dma 19 | 3 => .dma 20

abbrev sems0_0 (c : Dev nD) : sProp (MM F) :=
  iprop(semVal ((c : Thread nD τ), osem0 0) 0 ∗ semVal ((c : Thread nD τ), osem0 1) 0)
abbrev sems0_1 (c : Dev nD) : sProp (MM F) :=
  iprop(semVal ((c : Thread nD τ), osem1 0) 0 ∗ semVal ((c : Thread nD τ), osem1 1) 0 ∗ semVal ((c : Thread nD τ), osem1 2) 0 ∗ semVal ((c : Thread nD τ), osem1 3) 0)
abbrev sems0_2 (c : Dev nD) : sProp (MM F) :=
  iprop(semVal ((c : Thread nD τ), osem2 0) 0 ∗ semVal ((c : Thread nD τ), osem2 1) 0 ∗ semVal ((c : Thread nD τ), osem2 2) 0 ∗ semVal ((c : Thread nD τ), osem2 3) 0)
abbrev sems0_3 (c : Dev nD) : sProp (MM F) :=
  iprop(semVal ((c : Thread nD τ), osem3 0) 0 ∗ semVal ((c : Thread nD τ), osem3 1) 0 ∗ semVal ((c : Thread nD τ), osem3 2) 0 ∗ semVal ((c : Thread nD τ), osem3 3) 0)

def tIdx (b r j : Nat) : S16x128x1024.Idx :=
  ValueIdx.ix3 ⟨b % 16, Nat.mod_lt _ (by decide)⟩ ⟨r % 128, Nat.mod_lt _ (by decide)⟩ ⟨j % 1024, Nat.mod_lt _ (by decide)⟩

def wIdx (e r j : Nat) : S16x2048x1024.Idx :=
  ValueIdx.ix3 ⟨e % 16, Nat.mod_lt _ (by decide)⟩ ⟨r % 2048, Nat.mod_lt _ (by decide)⟩ ⟨j % 1024, Nat.mod_lt _ (by decide)⟩

def sIdx (b : Fin 16) (n : Fin 64) (k : Fin 3) : S16x64x3.Idx := ValueIdx.ix3 b n k

def LensOk (lens : S16.Idx → BitVec 32) : Prop :=
  ∀ b : Fin 16, 1 ≤ (lens (ValueIdx.ix1 b)).toNat ∧ (lens (ValueIdx.ix1 b)).toNat ≤ 128

def SpansOk (sp : S16x64x3.Idx → BitVec 32) : Prop :=
  ∀ (b : Fin 16) (n : Fin 64), (sp (sIdx b n 0)).toNat < 16 ∧ 1 ≤ (sp (sIdx b n 1)).toNat ∧ (sp (sIdx b n 1)).toNat ≤ 2047
    ∧ (sp (sIdx b n 2)).toNat ≤ 2046

def tRow (X : S16x128x1024.Idx → Elt F .f32) (b r off : Nat) : FVec F S512 .f32 := fun j => X (tIdx b r (off + (j 0).val))

def wRow (X : S16x2048x1024.Idx → Elt F .f32) (e r off : Nat) : FVec F S512 .f32 := fun j => X (wIdx e r (off + (j 0).val))

def topicBlk (X : S16x128x1024.Idx → Elt F .f32) (lens : S16.Idx → BitVec 32) : S16x1024.Idx → Elt F .f32 := fun y =>
  let b := (y 0).val
  let j := (y 1).val
  if j < 512 then X (tIdx b ((lens (ValueIdx.ix1 (y 0))).toNat - 1) j) else X (tIdx b 0 j)

def spE (sp : S16x64x3.Idx → BitVec 32) (b : Fin 16) (n : Fin 64) : Nat := (sp (sIdx b n 0)).toNat
def spS (sp : S16x64x3.Idx → BitVec 32) (b : Fin 16) (n : Fin 64) : Nat := (sp (sIdx b n 1)).toNat
def spEn (sp : S16x64x3.Idx → BitVec 32) (b : Fin 16) (n : Fin 64) : Nat := (sp (sIdx b n 2)).toNat

def diffAt (X : S16x2048x1024.Idx → Elt F .f32) (sp : S16x64x3.Idx → BitVec 32) (b : Fin 16) (n : Fin 64) (j : Nat) : Elt F .f32 :=
  let e := spE sp b n
  let s := spS sp b n
  let en := spEn sp b n
  if j < 512 then subf (wRow X e en 0) (wRow X e (s - 1) 0) (ValueIdx.ix1 ⟨j % 512, Nat.mod_lt _ (by decide)⟩)
  else if j < 1024 then subf (wRow X e s 512) (wRow X e (en + 1) 512) (ValueIdx.ix1 ⟨j % 512, Nat.mod_lt _ (by decide)⟩)
  else if j < 1536 then X (wIdx e (s - 1) (j - 1024))
  else X (wIdx e (en + 1) (j - 1024))

def diffBlk (X : S16x2048x1024.Idx → Elt F .f32) (sp : S16x64x3.Idx → BitVec 32) (b : Fin 16) : S1x64x2048.Idx → Elt F .f32 :=
  fun y => diffAt X sp b (y 1) (y 2).val

def diffArr (X : S16x2048x1024.Idx → Elt F .f32) (sp : S16x64x3.Idx → BitVec 32) : S16x64x2048.Idx → Elt F .f32 :=
  fun y => diffAt X sp (y 0) (y 1) (y 2).val

end Cert.Proof.KB

end
-- ==== Proof.KB.Dats.lean ====
import proofs.«409333_j59115929862503_1_alg».proof.Proof.KB.Common
import proofs.«409333_j59115929862503_1_alg».proof.Proof.Gen.Kernel.Regions

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

abbrev W0 (c : Dev nD) (b : Ref sig .tc) : Buf (Elt F) ((c : Thread nD τ).loc b) := m ((c : Thread nD τ).loc b)

def adm : (p : Fin 4) → (pcfgs (F := F) p).Adm
  | ⟨0, _⟩ => ⟨fun | 0 => W0 m 0 main_arg2 | ⟨_ + 1, h⟩ => absurd h (Nat.not_lt.2 (Nat.le_add_left _ _)), trivial⟩
  | ⟨1, _⟩ => ⟨fun | 0 => W0 m 0 main_arg3 | ⟨_ + 1, h⟩ => absurd h (Nat.not_lt.2 (Nat.le_add_left _ _)), trivial⟩
  | ⟨2, _⟩ => ⟨fun | 0 => W0 m 0 main_arg4 | ⟨_ + 1, h⟩ => absurd h (Nat.not_lt.2 (Nat.le_add_left _ _)), trivial⟩
  | ⟨3, _⟩ => ⟨fun | 0 => W0 m 0 main_arg5 | ⟨_ + 1, h⟩ => absurd h (Nat.not_lt.2 (Nat.le_add_left _ _)), trivial⟩
  | ⟨_ + 4, h⟩ => absurd h (Nat.not_lt.2 (Nat.le_add_left _ _))

def Φ0 (c : Dev nD) : sProp (MM F) :=
  iprop(pt c (Memref.whole main_arg0) (W0 m c main_arg0) ∗ pt c (Memref.whole main_arg2) (W0 m c main_arg2) ∗ sems0_0 c
    ∗ Pipeline.scopedRest (Ix := Unit) (Name := ℕ) (U := UU nD τ) (Lvl := ℕ) (Val := Elt F) spec0 c)
def Φ1 (c : Dev nD) : sProp (MM F) :=
  iprop(pt c (Memref.whole main_arg1) (W0 m c main_arg1) ∗ pt c (Memref.whole main_arg3) (W0 m c main_arg3) ∗ sems0_1 c
    ∗ Pipeline.scopedRest (Ix := Unit) (Name := ℕ) (U := UU nD τ) (Lvl := ℕ) (Val := Elt F) spec1 c)
def Φ2 (c : Dev nD) : sProp (MM F) :=
  iprop(pt c (Memref.whole main_arg1) (W0 m c main_arg1) ∗ pt c (Memref.whole main_arg4) (W0 m c main_arg4) ∗ sems0_2 c
    ∗ Pipeline.scopedRest (Ix := Unit) (Name := ℕ) (U := UU nD τ) (Lvl := ℕ) (Val := Elt F) spec2 c)
def Φ3 (c : Dev nD) : sProp (MM F) :=
  iprop(pt c (Memref.whole main_arg1) (W0 m c main_arg1) ∗ pt c (Memref.whole main_arg5) (W0 m c main_arg5) ∗ sems0_3 c
    ∗ Pipeline.scopedRest (Ix := Unit) (Name := ℕ) (U := UU nD τ) (Lvl := ℕ) (Val := Elt F) spec3 c)

def dat0 (c : Dev nD) : Pipeline.Dat τ (Elt F) Unit ℕ (UU nD τ) ℕ (cfg0 (adm m 0)) c where
  A w := W0 m c (Pipeline.arrRef spec0 w)
  after w _ := match w with | ⟨0, _⟩ => topicBlk (W0 m c main_arg0) (W0 m c main_arg2)
  Φ _ := Φ0 m c
  q _ := fullShare
  owed _ := 0
def dat1 (c : Dev nD) : Pipeline.Dat τ (Elt F) Unit ℕ (UU nD τ) ℕ (cfg1 (adm m 1)) c where
  A w := W0 m c (Pipeline.arrRef spec1 w)
  after w t := match w with | ⟨0, _⟩ => diffBlk (W0 m c main_arg1) (W0 m c main_arg3) (grid1.coords t 0)
  Φ _ := Φ1 m c
  q _ := fullShare
  owed _ := 0
def dat2 (c : Dev nD) : Pipeline.Dat τ (Elt F) Unit ℕ (UU nD τ) ℕ (cfg2 (adm m 2)) c where
  A w := W0 m c (Pipeline.arrRef spec2 w)
  after w t := match w with | ⟨0, _⟩ => diffBlk (W0 m c main_arg1) (W0 m c main_arg4) (grid2.coords t 0)
  Φ _ := Φ2 m c
  q _ := fullShare
  owed _ := 0
def dat3 (c : Dev nD) : Pipeline.Dat τ (Elt F) Unit ℕ (UU nD τ) ℕ (cfg3 (adm m 3)) c where
  A w := W0 m c (Pipeline.arrRef spec3 w)
  after w t := match w with | ⟨0, _⟩ => diffBlk (W0 m c main_arg1) (W0 m c main_arg5) (grid3.coords t 0)
  Φ _ := Φ3 m c
  q _ := fullShare
  owed _ := 0

def pdats : (p : Fin 4) → (c : Dev nD) → Pipeline.Dat τ (Elt F) Unit ℕ (UU nD τ) ℕ (Pipeline.pin (pcfgs (F := F)) (adm m) p) c
  | ⟨0, _⟩ => fun c => dat0 m c
  | ⟨1, _⟩ => fun c => dat1 m c
  | ⟨2, _⟩ => fun c => dat2 m c
  | ⟨3, _⟩ => fun c => dat3 m c
  | ⟨_ + 4, h⟩ => absurd h (Nat.not_lt.2 (Nat.le_add_left _ _))

def final0 (c : Dev nD) : Buf (Elt F) ((c : Thread nD τ).loc main_v0) := (dat0 m c).arrAt 0 (cfg0 (adm m 0)).N
def final1 (c : Dev nD) : Buf (Elt F) ((c : Thread nD τ).loc main_v1) := (dat1 m c).arrAt 0 (cfg1 (adm m 1)).N
def final2 (c : Dev nD) : Buf (Elt F) ((c : Thread nD τ).loc main_v2) := (dat2 m c).arrAt 0 (cfg2 (adm m 2)).N
def final3 (c : Dev nD) : Buf (Elt F) ((c : Thread nD τ).loc main_v3) := (dat3 m c).arrAt 0 (cfg3 (adm m 3)).N

end Cert.Proof.KB

end
-- ==== Proof.KB.Body0.lean ====
import proofs.«409333_j59115929862503_1_alg».proof.Proof.KB.Common
import Idealize.ShloMosaic.Lib.QrPanel.StackBlock
import Idealize.ShloMosaic.Lib.WritesUnit

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace B0

open Idealize.ShloMosaic.ValueIdx

theorem trips_eq : k0_t1_loop.trips = 16 := by decide

theorem off1_eq : ∀ k : Fin k0_t1_loop.trips, k0_off1 k = ![k.val] := by decide
theorem off3_eq : ∀ k : Fin k0_t1_loop.trips, k0_off3 k = ![k.val, 0, 0] := by decide
theorem off4_eq : ∀ k : Fin k0_t1_loop.trips, k0_off4 k = ![k.val, 0] := by decide
theorem off5_eq : ∀ k : Fin k0_t1_loop.trips, k0_off5 k = ![k.val, 512] := by decide

theorem off2_eq (k : Fin k0_t1_loop.trips) (w : BitVec 32) : k0_off2 k w = ![k.val, (w - 1#32).toNat, 0] := by
  have h := congrFun (off3_eq k) 0
  unfold k0_off3 at h
  unfold k0_off2
  funext a
  fin_cases a
  · exact h
  · rfl
  · rfl

theorem chk1_of_le (k : Fin k0_t1_loop.trips) (w : BitVec 32) (h1 : 1 ≤ w.toNat) (h2 : w.toNat ≤ 128) : k0_chk1 k w := by
  have hk : k.val < 16 := lt_of_lt_of_eq k.isLt trips_eq
  have hw : (w - 1#32).toNat = w.toNat - 1 := by
    rw [BitVec.toNat_sub_of_le (by rw [BitVec.le_def]; simpa using h1)]
    rfl
  intro a
  rw [off2_eq]
  fin_cases a
  · show k.val + 1 ≤ 16; omega
  · show (w - 1#32).toNat + 1 ≤ 128; omega
  · show 0 + 1024 ≤ 1024; omega

theorem word_eq (c : Dev nD) (lens : Bf (F := F) c (Memref.whole main_arg2)) (k : Fin k0_t1_loop.trips)
    (h : ∀ a, (k0_off1 k) a + S1.size a ≤ S16.size a) (x : (Rect.unit (s := S16) (k0_off1 k) S1.size h).toLoadRect.shape.Idx) :
    View.readAt (Elt F) (Memref.whole main_arg2).view (Rect.unit (s := S16) (k0_off1 k) S1.size h).toLoadRect lens x
      = lens (ix1 ⟨k.val, lt_of_lt_of_eq k.isLt trips_eq⟩) := by
  rw [View.readAt_apply]
  show lens _ = lens _
  congr 1
  funext a
  fin_cases a
  apply Fin.ext
  show k0_off1 k 0 + 1 * (x 0).val = k.val
  have hx : (x 0).val < 1 := (x 0).isLt
  have h1 : k0_off1 k 0 = k.val := congrFun (off1_eq k) 0
  omega

theorem chk1_word (c : Dev nD) (lens : Bf (F := F) c (Memref.whole main_arg2)) (hl : LensOk lens) (k : Fin k0_t1_loop.trips)
    (h : ∀ a, (k0_off1 k) a + S1.size a ≤ S16.size a) (x : (Rect.unit (s := S16) (k0_off1 k) S1.size h).toLoadRect.shape.Idx) :
    k0_chk1 k (View.readAt (Elt F) (Memref.whole main_arg2).view (Rect.unit (s := S16) (k0_off1 k) S1.size h).toLoadRect lens x) := by
  rw [word_eq]
  exact chk1_of_le k _ (hl _).1 (hl _).2

abbrev ptq (c : Dev nD) {sp : Space} {S : Shape} {e : EltTy} (M : Memref sig .tc sp S e) (q : PosShare TreeShare) (f : Bf (F := F) c M) : sProp (MM F) :=
  M.view.loc (c : Thread nD τ) ↦{q} f

abbrev heldX (c : Dev nD) (X : Bf (F := F) c (Memref.whole main_arg0)) : sProp (MM F) :=
  iprop(ptq c (Memref.whole main_arg0) (Transfers.shareDrop fullShare 3) X ∗ ptq c (Memref.whole main_arg0) (Transfers.shareTokN fullShare 2) X
    ∗ ptq c (Memref.whole main_arg0) (Transfers.shareTokN fullShare 1) X ∗ ptq c (Memref.whole main_arg0) (Transfers.shareTokN fullShare 0) X)

theorem heldX_split (c : Dev nD) (X : Bf (F := F) c (Memref.whole main_arg0)) : pt c (Memref.whole main_arg0) X ⊢ heldX c X := by
  iintro H
  ihave Ha := (pointsTo_share (PosShare.mem_left_op_right fullShare)).1 $$ H
  icases Ha with ⟨H1, T0⟩
  ihave Hb := (pointsTo_share (PosShare.mem_left_op_right fullShare.left)).1 $$ H1
  icases Hb with ⟨H2, T1⟩
  ihave Hc := (pointsTo_share (PosShare.mem_left_op_right fullShare.left.left)).1 $$ H2
  icases Hc with ⟨H3, T2⟩
  isplitl [H3]; · iexact H3
  isplitl [T2]; · iexact T2
  isplitl [T1]; · iexact T1
  iexact T0

theorem heldX_join (c : Dev nD) (X : Bf (F := F) c (Memref.whole main_arg0)) : heldX c X ⊢ pt c (Memref.whole main_arg0) X := by
  iintro ⟨H3, T2, T1, T0⟩
  ihave H2 := (pointsTo_share (PosShare.mem_left_op_right fullShare.left.left)).2 $$ [H3 T2]
  · isplitl [H3]; · iexact H3
    iexact T2
  ihave H1 := (pointsTo_share (PosShare.mem_left_op_right fullShare.left)).2 $$ [H2 T1]
  · isplitl [H2]; · iexact H2
    iexact T1
  ihave H0 := (pointsTo_share (PosShare.mem_left_op_right fullShare)).2 $$ [H1 T0]
  · isplitl [H1]; · iexact H1
    iexact T0
  iexact H0

theorem scratch_row_emb (off : Fin 2 → ℕ) (r : Fin 2) (hoff : off = ![r.val, 0])
    (inb : ∀ a, off a + S1x1024.size a ≤ S2x1024.size a) (hs : ∀ a, (Rect.unit (s := S2x1024) off S1x1024.size inb).stride a = 1)
    (hq : S1x1024.Squeezes S1024) (j : Fin 1024) :
    (((Memref.whole cc0_scratch0).slice (Rect.unit (s := S2x1024) off S1x1024.size inb) hs).squeeze S1024 hq).view.emb (ix1 j) = ix2 r j := by
  subst hoff
  show (Rect.unit (s := S2x1024) ![r.val, 0] S1x1024.size inb).emb (Shape.reshapeEquiv hq.numel_eq (ix1 j)) = ix2 r j
  rw [Shape.reshapeEquiv_cons_one]
  funext a
  apply Fin.ext
  rw [Rect.emb_apply]
  match a with
  | ⟨0, _⟩ => show r.val + 1 * 0 = r.val; omega
  | ⟨1, _⟩ => show 0 + 1 * j.val = j.val; omega

theorem scratch_write_hit (c : Dev nD) (off : Fin 2 → ℕ) (r : Fin 2) (hoff : off = ![r.val, 0])
    (inb : ∀ a, off a + S1x1024.size a ≤ S2x1024.size a) (hs : ∀ a, (Rect.unit (s := S2x1024) off S1x1024.size inb).stride a = 1)
    (hq : S1x1024.Squeezes S1024) (f : Bf (F := F) c (Memref.whole cc0_scratch0)) (w : S1024.Idx → Elt F .f32) (j : Fin 1024) :
    View.write (Elt F) (((Memref.whole cc0_scratch0).slice (Rect.unit (s := S2x1024) off S1x1024.size inb) hs).squeeze S1024 hq).view f w Finset.univ (ix2 r j)
      = w (ix1 j) := by
  rw [← scratch_row_emb off r hoff inb hs hq j, View.write_emb_of_mem _ _ (Finset.mem_univ _)]
  rfl

theorem scratch_write_miss (c : Dev nD) (off : Fin 2 → ℕ) (r r' : Fin 2) (hne : r' ≠ r) (hoff : off = ![r.val, 0])
    (inb : ∀ a, off a + S1x1024.size a ≤ S2x1024.size a) (hs : ∀ a, (Rect.unit (s := S2x1024) off S1x1024.size inb).stride a = 1)
    (hq : S1x1024.Squeezes S1024) (f : Bf (F := F) c (Memref.whole cc0_scratch0)) (w : S1024.Idx → Elt F .f32) (j : Fin 1024) :
    View.write (Elt F) (((Memref.whole cc0_scratch0).slice (Rect.unit (s := S2x1024) off S1x1024.size inb) hs).squeeze S1024 hq).view f w Finset.univ (ix2 r' j)
      = f (ix2 r' j) := by
  apply View.write_of_not_mem
  rw [View.setOn_univ]
  intro hm
  obtain ⟨z, -, hz⟩ := Finset.mem_map.mp hm
  obtain ⟨j', rfl⟩ : ∃ j' : Fin 1024, z = ix1 j' := ⟨z 0, eq_ix1 z⟩
  rw [scratch_row_emb off r hoff inb hs hq j'] at hz
  exact hne (congrFun hz 0).symm

theorem src_read (c : Dev nD) (off : Fin 3 → ℕ) (b : Fin 16) (ρ : Fin 128) (hoff : off = ![b.val, ρ.val, 0])
    (inb : ∀ a, off a + S1x1x1024.size a ≤ S16x128x1024.size a) (hs : ∀ a, (Rect.unit (s := S16x128x1024) off S1x1x1024.size inb).stride a = 1)
    (hq : S1x1x1024.Squeezes S1024) (X : Bf (F := F) c (Memref.whole main_arg0)) (j : Fin 1024) :
    View.read (Elt F) (((Memref.whole main_arg0).slice (Rect.unit (s := S16x128x1024) off S1x1x1024.size inb) hs).squeeze S1024 hq).view X (ix1 j)
      = X (ix3 b ρ j) := by
  subst hoff
  show X ((Rect.unit (s := S16x128x1024) ![b.val, ρ.val, 0] S1x1x1024.size inb).emb (Shape.reshapeEquiv hq.numel_eq (ix1 j))) = X (ix3 b ρ j)
  rw [QrPanel.StackBlock.reshapeEquiv_cons_one_one]
  congr 1
  funext a
  apply Fin.ext
  rw [Rect.emb_apply]
  match a with
  | ⟨0, _⟩ => show b.val + 1 * 0 = b.val; omega
  | ⟨1, _⟩ => show ρ.val + 1 * 0 = ρ.val; omega
  | ⟨2, _⟩ => show 0 + 1 * j.val = j.val; omega

theorem load_lo (c : Dev nD) (fs : Bf (F := F) c (Memref.whole cc0_scratch0)) (d0 d1 : S1024.Idx → Elt F .f32)
    (inb0 : ∀ a, (![0, 0] : Fin 2 → ℕ) a + S1x1024.size a ≤ S2x1024.size a) (hs0 : ∀ a, (Rect.unit (s := S2x1024) ![0, 0] S1x1024.size inb0).stride a = 1)
    (inb1 : ∀ a, (![1, 0] : Fin 2 → ℕ) a + S1x1024.size a ≤ S2x1024.size a) (hs1 : ∀ a, (Rect.unit (s := S2x1024) ![1, 0] S1x1024.size inb1).stride a = 1)
    (hq : S1x1024.Squeezes S1024) (inbL : ∀ a, (![0, 0] : Fin 2 → ℕ) a + S1x512.size a ≤ S2x1024.size a)
    (x : (Rect.unit (s := S2x1024) ![0, 0] S1x512.size inbL).toLoadRect.shape.Idx) :
    View.readAt (Elt F) (Memref.whole cc0_scratch0).view (Rect.unit (s := S2x1024) ![0, 0] S1x512.size inbL).toLoadRect
        (View.write (Elt F) (((Memref.whole cc0_scratch0).slice (Rect.unit (s := S2x1024) ![1, 0] S1x1024.size inb1) hs1).squeeze S1024 hq).view
          (View.write (Elt F) (((Memref.whole cc0_scratch0).slice (Rect.unit (s := S2x1024) ![0, 0] S1x1024.size inb0) hs0).squeeze S1024 hq).view fs d0 Finset.univ)
          d1 Finset.univ) x
      = d0 (ix1 ⟨(x 1).val, lt_of_lt_of_le (show (x 1).val < 512 from (x 1).isLt) (by decide)⟩) := by
  have h0 : (x 0).val < 1 := (x 0).isLt
  have hidx : (Rect.unit (s := S2x1024) ![0, 0] S1x512.size inbL).toLoadRect.idx x
      = ix2 (0 : Fin 2) (⟨(x 1).val, lt_of_lt_of_le (show (x 1).val < 512 from (x 1).isLt) (by decide)⟩ : Fin 1024) :=
    funext fun a => Fin.ext (match a with
      | ⟨0, _⟩ => (show 0 + 1 * (x 0).val = 0 by omega)
      | ⟨1, _⟩ => (show 0 + 1 * (x 1).val = (x 1).val by omega))
  rw [View.readAt_apply, hidx]
  exact (scratch_write_miss c _ 1 0 (by decide) rfl inb1 hs1 hq _ d1 _).trans (scratch_write_hit c _ 0 rfl inb0 hs0 hq fs d0 _)

theorem load_hi (c : Dev nD) (g : Bf (F := F) c (Memref.whole cc0_scratch0)) (d1 : S1024.Idx → Elt F .f32)
    (inb1 : ∀ a, (![1, 0] : Fin 2 → ℕ) a + S1x1024.size a ≤ S2x1024.size a) (hs1 : ∀ a, (Rect.unit (s := S2x1024) ![1, 0] S1x1024.size inb1).stride a = 1)
    (hq : S1x1024.Squeezes S1024) (inbL : ∀ a, (![1, 512] : Fin 2 → ℕ) a + S1x512.size a ≤ S2x1024.size a)
    (x : (Rect.unit (s := S2x1024) ![1, 512] S1x512.size inbL).toLoadRect.shape.Idx) :
    View.readAt (Elt F) (Memref.whole cc0_scratch0).view (Rect.unit (s := S2x1024) ![1, 512] S1x512.size inbL).toLoadRect
        (View.write (Elt F) (((Memref.whole cc0_scratch0).slice (Rect.unit (s := S2x1024) ![1, 0] S1x1024.size inb1) hs1).squeeze S1024 hq).view g d1 Finset.univ) x
      = d1 (ix1 ⟨512 + (x 1).val, by have h : (x 1).val < 512 := (x 1).isLt; omega⟩) := by
  have h0 : (x 0).val < 1 := (x 0).isLt
  have h1 : (x 1).val < 512 := (x 1).isLt
  have hidx : (Rect.unit (s := S2x1024) ![1, 512] S1x512.size inbL).toLoadRect.idx x
      = ix2 (1 : Fin 2) (⟨512 + (x 1).val, by omega⟩ : Fin 1024) :=
    funext fun a => Fin.ext (match a with
      | ⟨0, _⟩ => (show 1 + 1 * (x 0).val = 1 by omega)
      | ⟨1, _⟩ => (show 512 + 1 * (x 1).val = 512 + (x 1).val by omega))
  rw [View.readAt_apply, hidx]
  exact scratch_write_hit c _ 1 rfl inb1 hs1 hq g d1 _

def RowsDone (c : Dev nD) (M3 : Memref sig .tc .vmem S16x1024 .f32) (X : Bf (F := F) c (Memref.whole main_arg0))
    (lens : Bf (F := F) c (Memref.whole main_arg2)) (k : ℕ) (f : Bf (F := F) c M3) : Prop :=
  ∀ (b : Fin 16) (j : Fin 1024), b.val < k → M3.view.read (Elt F) f (ix2 b j) = topicBlk X lens (ix2 b j)

theorem rowsDone_zero (c : Dev nD) (M3 : Memref sig .tc .vmem S16x1024 .f32) (X : Bf (F := F) c (Memref.whole main_arg0))
    (lens : Bf (F := F) c (Memref.whole main_arg2)) (f : Bf (F := F) c M3) : RowsDone c M3 X lens 0 f :=
  fun _ _ h => absurd h (Nat.not_lt_zero _)

theorem rowsDone_all (c : Dev nD) (M3 : Memref sig .tc .vmem S16x1024 .f32) (X : Bf (F := F) c (Memref.whole main_arg0))
    (lens : Bf (F := F) c (Memref.whole main_arg2)) (f : Bf (F := F) c M3) (n : ℕ) (hn : n = 16) (h : RowsDone c M3 X lens n f) :
    M3.view.read (Elt F) f = topicBlk X lens := by
  subst hn
  funext y
  rw [eq_ix2 y]
  exact h (y 0) (y 1) (y 0).isLt

theorem rows_step (c : Dev nD) (M3 : Memref sig .tc .vmem S16x1024 .f32) (X : Bf (F := F) c (Memref.whole main_arg0))
    (lens : Bf (F := F) c (Memref.whole main_arg2)) (k : Fin k0_t1_loop.trips) (f : Bf (F := F) c M3)
    (hrows : RowsDone c M3 X lens k.val f)
    (h5 : ∀ a, k0_off5 k a + S1x512.size a ≤ S16x1024.size a) (h4 : ∀ a, k0_off4 k a + S1x512.size a ≤ S16x1024.size a)
    (p5 : (Rect.unit (s := S16x1024) (k0_off5 k) S1x512.size h5).shape.Idx → Elt F .f32)
    (p4 : (Rect.unit (s := S16x1024) (k0_off4 k) S1x512.size h4).shape.Idx → Elt F .f32)
    (hp5 : ∀ j : Fin 512, p5 (ix2 (0 : Fin 1) j) = X (tIdx k.val 0 (512 + j.val)))
    (hp4 : ∀ j : Fin 512, p4 (ix2 (0 : Fin 1) j)
      = X (tIdx k.val ((lens (ix1 (⟨k.val, lt_of_lt_of_eq k.isLt trips_eq⟩ : Fin 16))).toNat - 1) j.val)) :
    RowsDone c M3 X lens (k.val + 1)
      (M3.view.writes (Elt F) f [⟨Rect.unit (s := S16x1024) (k0_off5 k) S1x512.size h5, p5⟩, ⟨Rect.unit (s := S16x1024) (k0_off4 k) S1x512.size h4, p4⟩]) := by
  intro b j hb
  have hk : k.val < 16 := lt_of_lt_of_eq k.isLt trips_eq
  by_cases hlt : b.val < k.val
  · rw [View.read_writes_cons_unit_of_not_mem M3.view f h5 p5 _ (ix2 b j) (off5_eq k) 0 (Or.inl hlt),
      View.read_writes_cons_unit_of_not_mem M3.view f h4 p4 [] (ix2 b j) (off4_eq k) 0 (Or.inl hlt), View.writes_nil]
    exact hrows b j hlt
  · obtain rfl : b = ⟨k.val, hk⟩ := Fin.ext (by show b.val = k.val; omega)
    by_cases hj : j.val < 512
    · rw [View.read_writes_cons_unit_of_not_mem M3.view f h5 p5 _ (ix2 ⟨k.val, hk⟩ j) (off5_eq k) 1 (Or.inl hj),
        View.read_writes_cons_unit_of_mem M3.view f h4 p4 [] (ix2 ⟨k.val, hk⟩ j) (ix2 (0 : Fin 1) (⟨j.val, hj⟩ : Fin 512)) (off4_eq k)
          (fun a => match a with | ⟨0, _⟩ => (show k.val = k.val + 0 from rfl) | ⟨1, _⟩ => (show j.val = 0 + j.val by omega)),
        hp4]
      exact (if_pos hj).symm
    · have hj2 : j.val - 512 < 512 := by have := j.isLt; omega
      rw [View.read_writes_cons_unit_of_mem M3.view f h5 p5 _ (ix2 ⟨k.val, hk⟩ j) (ix2 (0 : Fin 1) (⟨j.val - 512, hj2⟩ : Fin 512)) (off5_eq k)
          (fun a => match a with | ⟨0, _⟩ => (show k.val = k.val + 0 from rfl) | ⟨1, _⟩ => (show j.val = 512 + (j.val - 512) by omega)),
        hp5]
      have e : 512 + (j.val - 512) = j.val := by omega
      show X (tIdx k.val 0 (512 + (j.val - 512))) = _
      rw [e]
      exact (if_neg hj).symm

theorem tIdx_of_lt {b r j : ℕ} (hb : b < 16) (hr : r < 128) (hj : j < 1024) : tIdx b r j = ix3 (⟨b, hb⟩ : Fin 16) (⟨r, hr⟩ : Fin 128) (⟨j, hj⟩ : Fin 1024) := by
  unfold tIdx
  congr 1 <;> exact Fin.ext (Nat.mod_eq_of_lt ‹_›)

theorem pay_hi (c : Dev nD) (X : Bf (F := F) c (Memref.whole main_arg0)) (k : Fin k0_t1_loop.trips) (g : Bf (F := F) c (Memref.whole cc0_scratch0))
    (inb3 : ∀ a, k0_off3 k a + S1x1x1024.size a ≤ S16x128x1024.size a) (hs3 : ∀ a, (Rect.unit (s := S16x128x1024) (k0_off3 k) S1x1x1024.size inb3).stride a = 1)
    (hq3 : S1x1x1024.Squeezes S1024)
    (inb1 : ∀ a, (![1, 0] : Fin 2 → ℕ) a + S1x1024.size a ≤ S2x1024.size a) (hs1 : ∀ a, (Rect.unit (s := S2x1024) ![1, 0] S1x1024.size inb1).stride a = 1)
    (hq : S1x1024.Squeezes S1024) (inbL : ∀ a, (![1, 512] : Fin 2 → ℕ) a + S1x512.size a ≤ S2x1024.size a) (j : Fin 512) :
    k0_pay2 (View.readAt (Elt F) (Memref.whole cc0_scratch0).view (Rect.unit (s := S2x1024) ![1, 512] S1x512.size inbL).toLoadRect
        (View.write (Elt F) (((Memref.whole cc0_scratch0).slice (Rect.unit (s := S2x1024) ![1, 0] S1x1024.size inb1) hs1).squeeze S1024 hq).view g
          (ReadAs.same.apply (View.read (Elt F) (((Memref.whole main_arg0).slice (Rect.unit (s := S16x128x1024) (k0_off3 k) S1x1x1024.size inb3) hs3).squeeze S1024 hq3).view X))
          Finset.univ)) (ix2 (0 : Fin 1) j)
      = X (tIdx k.val 0 (512 + j.val)) := by
  have hk : k.val < 16 := lt_of_lt_of_eq k.isLt trips_eq
  have hj : 512 + j.val < 1024 := by have := j.isLt; omega
  unfold k0_pay2
  rw [shapeCast_shapeCast, load_hi]
  exact (src_read c _ (⟨k.val, hk⟩ : Fin 16) (0 : Fin 128) (off3_eq k) inb3 hs3 hq3 X ⟨512 + j.val, hj⟩).trans (congrArg X (tIdx_of_lt hk (by decide) hj).symm)

theorem pay_lo (c : Dev nD) (X : Bf (F := F) c (Memref.whole main_arg0)) (k : Fin k0_t1_loop.trips) (w : BitVec 32) (h1 : 1 ≤ w.toNat) (h2 : w.toNat ≤ 128)
    (fs : Bf (F := F) c (Memref.whole cc0_scratch0)) (d1 : S1024.Idx → Elt F .f32)
    (inb2 : ∀ a, k0_off2 k w a + S1x1x1024.size a ≤ S16x128x1024.size a) (hs2 : ∀ a, (Rect.unit (s := S16x128x1024) (k0_off2 k w) S1x1x1024.size inb2).stride a = 1)
    (hq3 : S1x1x1024.Squeezes S1024)
    (inb0 : ∀ a, (![0, 0] : Fin 2 → ℕ) a + S1x1024.size a ≤ S2x1024.size a) (hs0 : ∀ a, (Rect.unit (s := S2x1024) ![0, 0] S1x1024.size inb0).stride a = 1)
    (inb1 : ∀ a, (![1, 0] : Fin 2 → ℕ) a + S1x1024.size a ≤ S2x1024.size a) (hs1 : ∀ a, (Rect.unit (s := S2x1024) ![1, 0] S1x1024.size inb1).stride a = 1)
    (hq : S1x1024.Squeezes S1024) (inbL : ∀ a, (![0, 0] : Fin 2 → ℕ) a + S1x512.size a ≤ S2x1024.size a) (j : Fin 512) :
    k0_pay1 (k0_pay3 (View.readAt (Elt F) (Memref.whole cc0_scratch0).view (Rect.unit (s := S2x1024) ![0, 0] S1x512.size inbL).toLoadRect
        (View.write (Elt F) (((Memref.whole cc0_scratch0).slice (Rect.unit (s := S2x1024) ![1, 0] S1x1024.size inb1) hs1).squeeze S1024 hq).view
          (View.write (Elt F) (((Memref.whole cc0_scratch0).slice (Rect.unit (s := S2x1024) ![0, 0] S1x1024.size inb0) hs0).squeeze S1024 hq).view fs
            (ReadAs.same.apply (View.read (Elt F) (((Memref.whole main_arg0).slice (Rect.unit (s := S16x128x1024) (k0_off2 k w) S1x1x1024.size inb2) hs2).squeeze S1024 hq3).view X))
            Finset.univ)
          d1 Finset.univ))) (ix2 (0 : Fin 1) j)
      = X (tIdx k.val (w.toNat - 1) j.val) := by
  have hk : k.val < 16 := lt_of_lt_of_eq k.isLt trips_eq
  have hj : j.val < 1024 := by have := j.isLt; omega
  have hw : (w - 1#32).toNat = w.toNat - 1 := by
    rw [BitVec.toNat_sub_of_le (by rw [BitVec.le_def]; simpa using h1)]
    rfl
  have hr : (w - 1#32).toNat < 128 := by omega
  unfold k0_pay1 k0_pay3
  rw [shapeCast_shapeCast, load_lo]
  have hr' : w.toNat - 1 < 128 := by omega
  refine (src_read c _ (⟨k.val, hk⟩ : Fin 16) (⟨(w - 1#32).toNat, hr⟩ : Fin 128) (off2_eq k w) inb2 hs2 hq3 X ⟨j.val, hj⟩).trans ?_
  rw [tIdx_of_lt hk hr' hj]
  congr 1
  funext a
  match a with
  | ⟨0, _⟩ => rfl
  | ⟨1, _⟩ => exact Fin.ext hw
  | ⟨2, _⟩ => rfl

abbrev inv0 (c : Dev nD) (M3 : Memref sig .tc .vmem S16x1024 .f32) (X : Bf (F := F) c (Memref.whole main_arg0))
    (lens : Bf (F := F) c (Memref.whole main_arg2)) (k : ℕ) (_u : Unit) : sProp (MM F) :=
  iprop(⌜LensOk lens⌝ ∗ (∃ f : Bf (F := F) c M3, pt c M3 f ∗ ⌜RowsDone c M3 X lens k f⌝)
    ∗ ptq c (Memref.whole main_arg0) (Transfers.shareDrop fullShare 3) X ∗ ptq c (Memref.whole main_arg0) (Transfers.shareTokN fullShare 2) X
    ∗ ptq c (Memref.whole main_arg0) (Transfers.shareTokN fullShare 1) X ∗ ptq c (Memref.whole main_arg0) (Transfers.shareTokN fullShare 0) X
    ∗ pt c (Memref.whole main_arg2) lens ∗ (∃ fs : Bf (F := F) c (Memref.whole cc0_scratch0), pt c (Memref.whole cc0_scratch0) fs)
    ∗ semVal ((c : Thread nD τ), osem0 0) 0 ∗ semVal ((c : Thread nD τ), osem0 1) 0 ∗ ∃ W, owes (c : Thread nD τ) 0 W)

macro_rules | `(tactic| sl_pure) => `(tactic| with_reducible exact rowsDone_zero _ _ _ _ _)

set_option warn.classDefReducibility false in
set_option sl_exec.dmaWindow true in
set_option maxHeartbeats 4000000 in

@[sl_loop] noncomputable def loopInv_k0_t1 (c : Dev nD) (i : grid0.Coords) (M3 : Memref sig .tc .vmem S16x1024 .f32) (h3 : M3.IsWhole)
    (X : Bf (F := F) c (Memref.whole main_arg0)) (lens : Bf (F := F) c (Memref.whole main_arg2)) :
    LoopInvTy_k0_t1 (F := F) Unit ℕ (UU nD τ) ℕ Variants.none c none Set.univ i
      (Memref.whole main_arg2) (Memref.isWhole_whole _) (Memref.whole main_arg0) (Memref.isWhole_whole _) M3 h3 (Memref.whole cc0_scratch0) (Memref.isWhole_whole _) cc0_scratch1 where
  inv := inv0 c M3 X lens
  step k acc := by
    iintro ⟨%hl, ⟨%f, H3, %hrows⟩, HXr, HX2, HX1, HX0, HL, ⟨%fs, Hs⟩, Hd0, Hd1, ⟨%W, HO⟩⟩
    unfold k0_t1_body
    sl_exec (disch := exact chk1_word c lens hl k _ _)
    sl_step
    isplitr
    · ipureintro; exact hl
    isplitl [H3]
    · iexists _
      isplitl [H3]; · iexact H3
      ipureintro
      refine rows_step c M3 X lens k f hrows _ _ _ _ (fun j => ?_) (fun j => ?_)
      · sl_unfold_run_names
        exact pay_hi c X k _ _ _ _ _ _ _ _ j
      · sl_unfold_run_names
        rw [← word_eq c lens k (k0_off1_inb k) (Shape.Idx.first (numel1_S1.symm ▸ Nat.one_pos))]
        exact pay_lo c X k _ (by rw [word_eq]; exact (hl _).1) (by rw [word_eq]; exact (hl _).2) fs _ _ _ _ _ _ _ _ _ _ j
    isplitl [HXr]; · iexact HXr
    isplitl [HX2]; · iexact HX2
    isplitl [HX1]; · iexact HX1
    isplitl [HX0]; · iexact HX0
    isplitl [HL]; · iexact HL
    isplitl [Hs]; · iexists _; iexact Hs
    isplitl [Hd0]; · iexact Hd0
    isplitl [Hd1]; · iexact Hd1
    iexists _; iexact HO

end B0

open B0

theorem kernelRun0 (c : Dev nD) (t : Fin grid0.N) (M3 : Memref sig .tc .vmem S16x1024 .f32) (h3 : M3.IsWhole)
    (X : Bf (F := F) c (Memref.whole main_arg0)) (lens : Bf (F := F) c (Memref.whole main_arg2)) (hl : LensOk lens)
    (f3 : Bf (F := F) c M3) (fs : Bf (F := F) c (Memref.whole cc0_scratch0))
    (W : Waits sig Unit) (Q : PUnit → sProp (MM F)) :
    iprop(pt c M3 f3 ∗ pt c (Memref.whole main_arg0) X ∗ pt c (Memref.whole main_arg2) lens ∗ pt c (Memref.whole cc0_scratch0) fs ∗ sems0_0 c ∗ owes (c : Thread nD τ) 0 W
      ∗ (iprop((∃ f' : Bf (F := F) c M3, pt c M3 f' ∗ ⌜M3.view.read (Elt F) f' = topicBlk X lens⌝) ∗ pt c (Memref.whole main_arg0) X ∗ pt c (Memref.whole main_arg2) lens
            ∗ (∃ f, pt c (Memref.whole cc0_scratch0) f) ∗ sems0_0 c ∗ ∃ W, owes (c : Thread nD τ) 0 W) -∗ Q ⟨⟩))
    ⊢ wp frame (wpE (defs₀ (F := F)) Variants.none c none) Set.univ
        (cc0__topic_extract_kernel (grid0.coords t) (Memref.whole main_arg2) (Memref.isWhole_whole _) (Memref.whole main_arg0) (Memref.isWhole_whole _) M3 h3 (Memref.whole cc0_scratch0) (Memref.isWhole_whole _) cc0_scratch1) Q := by
  iintro ⟨H3, HX, HL, Hs, ⟨Hd0, Hd1⟩, HO, Hk⟩

  ihave HX' := (heldX_split c X) $$ HX
  icases HX' with ⟨HXr, HX2, HX1, HX0⟩
  sl_exec
  sl_step
  iapply Hk
  isplitl [H3]
  · iexists _
    isplitl [H3]; · iexact H3
    ipureintro
    exact rowsDone_all c M3 X lens _ _ trips_eq (by assumption)
  isplitl [HXr HX2 HX1 HX0]
  · iapply (heldX_join c X)
    isplitl [HXr]; · iexact HXr
    isplitl [HX2]; · iexact HX2
    isplitl [HX1]; · iexact HX1
    iexact HX0
  isplitl [HL]; · iexact HL
  isplitl [Hs]; · iexists _; iexact Hs
  isplitl [Hd0 Hd1]
  · isplitl [Hd0]; · iexact Hd0
    iexact Hd1
  iexists _; iexact HO

end Cert.Proof.KB

end
-- ==== Proof.KB.Rows.lean ====
import proofs.«409333_j59115929862503_1_alg».proof.Proof.KB.Common
import Idealize.ShloMosaic.Lib.ValueLayout
import Idealize.ShloMosaic.Lib.WritesUnit

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

namespace Rows

theorem toNat_sub_one (w : BitVec 32) (h : 1 ≤ w.toNat) : (Scalar.subi w 1#32).toNat = w.toNat - 1 := by
  show (w - 1#32).toNat = _
  rw [BitVec.toNat_sub]
  have := w.isLt
  simp only [BitVec.toNat_ofNat]
  omega

theorem toNat_add_one (w : BitVec 32) (h : w.toNat ≤ 2046) : (Scalar.addi w 1#32).toNat = w.toNat + 1 := by
  show (w + 1#32).toNat = _
  rw [BitVec.toNat_add]
  simp only [BitVec.toNat_ofNat]
  omega

theorem trips64 : k1_t1_loop.trips = 64 := by decide

theorem rowWord (k : Fin k1_t1_loop.trips) :
    (Scalar.indexCast (Scalar.addi 0#32 (Scalar.muli (Scf.iv 0#32 1#32 k) 1#32))).toNat = k.val := by
  have r_k : k.val < 64 := Nat.lt_of_lt_of_le k.isLt (le_of_eq trips64)
  have h0 : Affine.IsInt 0#32 0 := Affine.ofNat _ (by omega)
  have h1 : Affine.IsInt 1#32 1 := Affine.ofNat _ (by omega)
  have h_arg6 : Affine.IsInt (Scf.iv 0#32 1#32 k) (k.val : Int) := Affine.iv h0 h1 k.val (by omega)
  have h_v1 : Affine.IsInt _ (k.val : Int) := Affine.muli h_arg6 h1 (by omega)
  have h_v2 : Affine.IsInt _ (k.val : Int) := Affine.addi h0 h_v1 (by omega)
  have := Affine.toNat_of (Affine.indexCast h_v2) (by omega)
  omega

theorem off9_eq (k : Fin k1_t1_loop.trips) : k1_off9 k = ![0, k.val, 0] := by
  unfold k1_off9; dsimp only; rw [rowWord]
theorem off10_eq (k : Fin k1_t1_loop.trips) : k1_off10 k = ![0, k.val, 512] := by
  unfold k1_off10; dsimp only; rw [rowWord]
theorem off11_eq (k : Fin k1_t1_loop.trips) : k1_off11 k = ![0, k.val, 1024] := by
  unfold k1_off11; dsimp only; rw [rowWord]
theorem off12_eq (k : Fin k1_t1_loop.trips) : k1_off12 k = ![0, k.val, 1536] := by
  unfold k1_off12; dsimp only; rw [rowWord]

theorem gridWord (i : grid1.Coords) : (Scalar.indexCast (BitVec.ofNat 32 (i 0).val)).toNat = (i 0).val := by
  have : (i 0).val < 16 := (i 0).isLt
  show (BitVec.ofNat 32 (i 0).val).toNat = _
  rw [BitVec.toNat_ofNat]; omega

theorem off1_eq (i : grid1.Coords) (k : Fin k1_t1_loop.trips) : k1_off1 i k = ![(i 0).val, k.val, 0] := by
  unfold k1_off1; dsimp only; rw [rowWord, gridWord]
theorem off2_eq (i : grid1.Coords) (k : Fin k1_t1_loop.trips) : k1_off2 i k = ![(i 0).val, k.val, 1] := by
  unfold k1_off2; dsimp only; rw [rowWord, gridWord]
theorem off3_eq (i : grid1.Coords) (k : Fin k1_t1_loop.trips) : k1_off3 i k = ![(i 0).val, k.val, 2] := by
  unfold k1_off3; dsimp only; rw [rowWord, gridWord]

theorem chk1_of (e s : BitVec 32) (he : e.toNat < 16) (hs1 : 1 ≤ s.toNat) (hs2 : s.toNat ≤ 2047) : k1_chk1 e s := by
  have hm := toNat_sub_one s hs1
  refine ⟨?_, ?_, ?_⟩
  · unfold k1_off4; dsimp only; rw [hm]
    intro a; fin_cases a <;> simp <;> omega
  · unfold k1_off7; dsimp only
    intro a; fin_cases a <;> simp <;> omega
  · unfold k1_off8; dsimp only; rw [hm]
    intro a; fin_cases a <;> simp <;> omega

theorem chk2_of (e en : BitVec 32) (he : e.toNat < 16) (hen : en.toNat ≤ 2046) : k1_chk2 e en := by
  have hp := toNat_add_one en hen
  refine ⟨?_, ?_⟩
  · unfold k1_off5; dsimp only
    intro a; fin_cases a <;> simp <;> omega
  · unfold k1_off6; dsimp only; rw [hp]
    intro a; fin_cases a <;> simp <;> omega

theorem off4_at (e s : BitVec 32) (hs : 1 ≤ s.toNat) : k1_off4 e s = ![e.toNat, s.toNat - 1, 0] := by
  unfold k1_off4; dsimp only; rw [toNat_sub_one s hs]
theorem off5_at (e en : BitVec 32) : k1_off5 e en = ![e.toNat, en.toNat, 0] := by
  unfold k1_off5; rfl
theorem off6_at (e en : BitVec 32) (h : en.toNat ≤ 2046) : k1_off6 e en = ![e.toNat, en.toNat + 1, 0] := by
  unfold k1_off6; dsimp only; rw [toNat_add_one en h]
theorem off7_at (e s : BitVec 32) : k1_off7 e s = ![e.toNat, s.toNat, 0] := by
  unfold k1_off7; rfl

def row (k : Fin k1_t1_loop.trips) : Fin 64 := ⟨k.val, Nat.lt_of_lt_of_le k.isLt (le_of_eq trips64)⟩

section Tbl
variable {c : Dev nD} (Tb : Memref sig .tc .smem S16x64x3 .i32) (sp : Bf (F := F) c Tb) (tb : S16x64x3.Idx → BitVec 32)
  (htb : Tb.view.read (Elt F) sp = tb)

include htb in
/-- A window of one word at (b, n, w) has the single index (b, n, w). -/
theorem sp_word (off : Fin 3 → ℕ) (inb : ∀ a, off a + S1x1x1.size a ≤ S16x64x3.size a)
    (x : (Rect.unit (s := S16x64x3) off S1x1x1.size inb).toLoadRect.shape.Idx) (b : Fin 16) (n : Fin 64) (w : Fin 3)
    (hoff : off = ![b.val, n.val, w.val]) :
    View.readAt (Elt F) Tb.view (Rect.unit (s := S16x64x3) off S1x1x1.size inb).toLoadRect sp x = tb (sIdx b n w) := by
  subst hoff htb
  rw [View.readAt_apply]
  congr 1
  funext a
  apply Fin.ext
  have hx0 : (x 0).val = 0 := by have h : (x 0).val < 1 := (x 0).isLt; omega
  have hx1 : (x 1).val = 0 := by have h : (x 1).val < 1 := (x 1).isLt; omega
  have hx2 : (x 2).val = 0 := by have h : (x 2).val < 1 := (x 2).isLt; omega
  fin_cases a
  · show b.val + 1 * (x 0).val = b.val; omega
  · show n.val + 1 * (x 1).val = n.val; omega
  · show w.val + 1 * (x 2).val = w.val; omega

abbrev wd (off : Fin 3 → ℕ) (inb : ∀ a, off a + S1x1x1.size a ≤ S16x64x3.size a)
    (x : (Rect.unit (s := S16x64x3) off S1x1x1.size inb).toLoadRect.shape.Idx) : BitVec 32 :=
  View.readAt (Elt F) Tb.view (Rect.unit (s := S16x64x3) off S1x1x1.size inb).toLoadRect sp x

variable (hsp : SpansOk tb) (i : grid1.Coords) (k : Fin k1_t1_loop.trips)
  (h1 : ∀ a, k1_off1 i k a + S1x1x1.size a ≤ S16x64x3.size a) (h2 : ∀ a, k1_off2 i k a + S1x1x1.size a ≤ S16x64x3.size a)
  (h3 : ∀ a, k1_off3 i k a + S1x1x1.size a ≤ S16x64x3.size a) (x1) (x2) (x3)

include htb in
theorem w1_eq : wd Tb sp (k1_off1 i k) h1 x1 = tb (sIdx (i 0) (row k) 0) := sp_word Tb sp tb htb _ h1 x1 (i 0) (row k) 0 (off1_eq i k)
include htb in
theorem w2_eq : wd Tb sp (k1_off2 i k) h2 x2 = tb (sIdx (i 0) (row k) 1) := sp_word Tb sp tb htb _ h2 x2 (i 0) (row k) 1 (off2_eq i k)
include htb in
theorem w3_eq : wd Tb sp (k1_off3 i k) h3 x3 = tb (sIdx (i 0) (row k) 2) := sp_word Tb sp tb htb _ h3 x3 (i 0) (row k) 2 (off3_eq i k)

include htb hsp in
theorem chk1_at : k1_chk1 (wd Tb sp (k1_off1 i k) h1 x1) (wd Tb sp (k1_off2 i k) h2 x2) := by
  rw [w1_eq Tb sp tb htb, w2_eq Tb sp tb htb]
  obtain ⟨he, hs1, hs2, -⟩ := hsp (i 0) (row k)
  exact chk1_of _ _ he hs1 hs2

include htb hsp in
theorem chk2_at : k1_chk2 (wd Tb sp (k1_off1 i k) h1 x1) (wd Tb sp (k1_off3 i k) h3 x3) := by
  rw [w1_eq Tb sp tb htb, w3_eq Tb sp tb htb]
  obtain ⟨he, -, -, hen⟩ := hsp (i 0) (row k)
  exact chk2_of _ _ he hen

include htb hsp in
theorem off4_tbl : k1_off4 (wd Tb sp (k1_off1 i k) h1 x1) (wd Tb sp (k1_off2 i k) h2 x2) = ![spE tb (i 0) (row k), spS tb (i 0) (row k) - 1, 0] := by
  rw [w1_eq Tb sp tb htb, w2_eq Tb sp tb htb]
  exact off4_at _ _ (hsp (i 0) (row k)).2.1

include htb in
theorem off5_tbl : k1_off5 (wd Tb sp (k1_off1 i k) h1 x1) (wd Tb sp (k1_off3 i k) h3 x3) = ![spE tb (i 0) (row k), spEn tb (i 0) (row k), 0] := by
  rw [w1_eq Tb sp tb htb, w3_eq Tb sp tb htb]
  exact off5_at _ _

include htb hsp in
theorem off6_tbl : k1_off6 (wd Tb sp (k1_off1 i k) h1 x1) (wd Tb sp (k1_off3 i k) h3 x3) = ![spE tb (i 0) (row k), spEn tb (i 0) (row k) + 1, 0] := by
  rw [w1_eq Tb sp tb htb, w3_eq Tb sp tb htb]
  exact off6_at _ _ (hsp (i 0) (row k)).2.2.2

include htb in
theorem off7_tbl : k1_off7 (wd Tb sp (k1_off1 i k) h1 x1) (wd Tb sp (k1_off2 i k) h2 x2) = ![spE tb (i 0) (row k), spS tb (i 0) (row k), 0] := by
  rw [w1_eq Tb sp tb htb, w2_eq Tb sp tb htb]
  exact off7_at _ _

end Tbl

abbrev heldX (c : Dev nD) (q : PosShare TreeShare) (X : Bf (F := F) c (Memref.whole main_arg1)) : sProp (MM F) :=
  (Memref.whole main_arg1).view.loc (c : Thread nD τ) ↦{q} X

theorem range_peel (Φ : ℕ → sProp (MM F)) (k : ℕ) :
    BI.bigSep (Finset.range (k + 1)) Φ = iprop(Φ k ∗ BI.bigSep (Finset.range k) Φ) := by
  rw [Finset.range_add_one, BI.bigSep_insert Finset.notMem_range_self]
  first | rfl | skip

/-- Full ownership of the array splits into four read shares, the remainder, and five shares kept together. -/
theorem toksX_eqv (c : Dev nD) (X : Bf (F := F) c (Memref.whole main_arg1)) :
    pt c (Memref.whole main_arg1) X ⊣⊢
      iprop(heldX c (Transfers.shareDrop fullShare 9) X ∗ heldX c (Transfers.shareTokN fullShare 8) X
        ∗ heldX c (Transfers.shareTokN fullShare 7) X ∗ heldX c (Transfers.shareTokN fullShare 6) X
        ∗ heldX c (Transfers.shareTokN fullShare 5) X
        ∗ BI.bigSep (Finset.range 5) (fun i => heldX c (Transfers.shareTokN fullShare i) X)) := by
  have h : pt c (Memref.whole main_arg1) X ⊣⊢ iprop(heldX c (Transfers.shareDrop fullShare 9) X
      ∗ BI.bigSep (Finset.range 9) (fun i => heldX c (Transfers.shareTokN fullShare i) X)) :=
    Transfers.pointsTo_toks_range fullShare 9
  rw [range_peel, range_peel, range_peel, range_peel] at h
  exact h

theorem squeeze_symm_row (h : S1024.numel = S1x1024.numel) (x : S1x1024.Idx) :
    (Shape.reshapeEquiv h).symm x = ValueIdx.ix1 (⟨(x 1).val, (x 1).isLt⟩ : Fin 1024) := by
  rw [Equiv.symm_apply_eq]
  refine (Shape.reshapeEquiv_eq_of_rowMajor h ?_).symm
  rw [Shape.rowMajor_val_two, Shape.rowMajor_val_one]
  have h0 : (x 0).val = 0 := by have h : (x 0).val < 1 := (x 0).isLt; omega
  show (x 0).val * 1024 + (x 1).val = (x 1).val
  omega

def rowPay (d : S1024.Idx → Elt F .f32) : S1x1024.Idx → Elt F .f32 :=
  fun x => d (ValueIdx.ix1 (⟨(x 1).val, (x 1).isLt⟩ : Fin 1024))

section Scratch
variable {c : Dev nD} (Sc : Memref sig .tc .vmem S4x1024 .f32)

theorem row_write (g : Bf (F := F) c Sc) (r : ℕ)
    (hinb : ∀ a, (![r, 0] : Fin 2 → ℕ) a + S1x1024.size a ≤ S4x1024.size a) (u) (q) (d : S1024.Idx → Elt F .f32) :
    View.write (Elt F) ((Sc.slice (Rect.unit (s := S4x1024) ![r, 0] S1x1024.size hinb) u).squeeze S1024 q).view g d Finset.univ
      = Sc.view.writes (Elt F) g [⟨Rect.unit (s := S4x1024) ![r, 0] S1x1024.size hinb, rowPay d⟩] := by
  show View.write (Elt F) ((Sc.view.slice (Rect.unit (s := S4x1024) ![r, 0] S1x1024.size hinb)).reshape S1024 q.numel_eq) g d Finset.univ = _
  rw [View.write_reshape_univ]
  exact congrArg (fun w => View.write (Elt F) (Sc.view.slice (Rect.unit (s := S4x1024) ![r, 0] S1x1024.size hinb)) g w Finset.univ)
    (funext fun x => congrArg d (squeeze_symm_row _ x))

variable (fs : Bf (F := F) c Sc)
    (h0 : ∀ a, (![0, 0] : Fin 2 → ℕ) a + S1x1024.size a ≤ S4x1024.size a) (h1 : ∀ a, (![1, 0] : Fin 2 → ℕ) a + S1x1024.size a ≤ S4x1024.size a)
    (h2 : ∀ a, (![2, 0] : Fin 2 → ℕ) a + S1x1024.size a ≤ S4x1024.size a) (h3 : ∀ a, (![3, 0] : Fin 2 → ℕ) a + S1x1024.size a ≤ S4x1024.size a)
    (d0 d1 d2 d3 : S1024.Idx → Elt F .f32)

abbrev scratchAfter : Bf (F := F) c Sc :=
  Sc.view.writes (Elt F) fs
    [⟨Rect.unit (s := S4x1024) ![3, 0] S1x1024.size h3, rowPay d3⟩, ⟨Rect.unit (s := S4x1024) ![2, 0] S1x1024.size h2, rowPay d2⟩,
     ⟨Rect.unit (s := S4x1024) ![1, 0] S1x1024.size h1, rowPay d1⟩, ⟨Rect.unit (s := S4x1024) ![0, 0] S1x1024.size h0, rowPay d0⟩]

theorem scratch_nest (u0 u1 u2 u3) (q0 q1 q2 q3) :
    View.write (Elt F) ((Sc.slice (Rect.unit (s := S4x1024) ![3, 0] S1x1024.size h3) u3).squeeze S1024 q3).view
      (View.write (Elt F) ((Sc.slice (Rect.unit (s := S4x1024) ![2, 0] S1x1024.size h2) u2).squeeze S1024 q2).view
        (View.write (Elt F) ((Sc.slice (Rect.unit (s := S4x1024) ![1, 0] S1x1024.size h1) u1).squeeze S1024 q1).view
          (View.write (Elt F) ((Sc.slice (Rect.unit (s := S4x1024) ![0, 0] S1x1024.size h0) u0).squeeze S1024 q0).view
            fs d0 Finset.univ) d1 Finset.univ) d2 Finset.univ) d3 Finset.univ
      = scratchAfter Sc fs h0 h1 h2 h3 d0 d1 d2 d3 := by
  rw [row_write (c := c), row_write (c := c), row_write (c := c), row_write (c := c), ← View.writes_append, ← View.writes_append, ← View.writes_append]
  rfl

variable (y : Fin 1024)

theorem scratch_at3 :
    Sc.view.read (Elt F) (scratchAfter Sc fs h0 h1 h2 h3 d0 d1 d2 d3) (ValueIdx.ix2 (3 : Fin 4) y) = d3 (ValueIdx.ix1 y) := by
  rw [View.read_writes_cons_unit_of_mem Sc.view fs h3 (rowPay d3) _ (ValueIdx.ix2 (3 : Fin 4) y)
    (ValueIdx.ix2 (0 : Fin 1) y) rfl (fun a => by fin_cases a <;> simp)]
  rfl

theorem scratch_at2 :
    Sc.view.read (Elt F) (scratchAfter Sc fs h0 h1 h2 h3 d0 d1 d2 d3) (ValueIdx.ix2 (2 : Fin 4) y) = d2 (ValueIdx.ix1 y) := by
  rw [View.read_writes_cons_unit_of_not_mem Sc.view fs h3 (rowPay d3) _ (ValueIdx.ix2 (2 : Fin 4) y) rfl 0 (Or.inl (show (2 : ℕ) < _ by decide)),
    View.read_writes_cons_unit_of_mem Sc.view fs h2 (rowPay d2) _ (ValueIdx.ix2 (2 : Fin 4) y)
      (ValueIdx.ix2 (0 : Fin 1) y) rfl (fun a => by fin_cases a <;> simp)]
  rfl

theorem scratch_at1 :
    Sc.view.read (Elt F) (scratchAfter Sc fs h0 h1 h2 h3 d0 d1 d2 d3) (ValueIdx.ix2 (1 : Fin 4) y) = d1 (ValueIdx.ix1 y) := by
  rw [View.read_writes_cons_unit_of_not_mem Sc.view fs h3 (rowPay d3) _ (ValueIdx.ix2 (1 : Fin 4) y) rfl 0 (Or.inl (show (1 : ℕ) < _ by decide)),
    View.read_writes_cons_unit_of_not_mem Sc.view fs h2 (rowPay d2) _ (ValueIdx.ix2 (1 : Fin 4) y) rfl 0 (Or.inl (show (1 : ℕ) < _ by decide)),
    View.read_writes_cons_unit_of_mem Sc.view fs h1 (rowPay d1) _ (ValueIdx.ix2 (1 : Fin 4) y)
      (ValueIdx.ix2 (0 : Fin 1) y) rfl (fun a => by fin_cases a <;> simp)]
  rfl

theorem scratch_at0 :
    Sc.view.read (Elt F) (scratchAfter Sc fs h0 h1 h2 h3 d0 d1 d2 d3) (ValueIdx.ix2 (0 : Fin 4) y) = d0 (ValueIdx.ix1 y) := by
  rw [View.read_writes_cons_unit_of_not_mem Sc.view fs h3 (rowPay d3) _ (ValueIdx.ix2 (0 : Fin 4) y) rfl 0 (Or.inl (show (0 : ℕ) < _ by decide)),
    View.read_writes_cons_unit_of_not_mem Sc.view fs h2 (rowPay d2) _ (ValueIdx.ix2 (0 : Fin 4) y) rfl 0 (Or.inl (show (0 : ℕ) < _ by decide)),
    View.read_writes_cons_unit_of_not_mem Sc.view fs h1 (rowPay d1) _ (ValueIdx.ix2 (0 : Fin 4) y) rfl 0 (Or.inl (show (0 : ℕ) < _ by decide)),
    View.read_writes_cons_unit_of_mem Sc.view fs h0 (rowPay d0) _ (ValueIdx.ix2 (0 : Fin 4) y)
      (ValueIdx.ix2 (0 : Fin 1) y) rfl (fun a => by fin_cases a <;> simp)]
  rfl

theorem half_row (W : Bf (F := F) c Sc) (r off : ℕ)
    (inb : ∀ a, (![r, off] : Fin 2 → ℕ) a + S1x512.size a ≤ S4x1024.size a) (hc) (rr : Fin 4) (hr : rr.val = r) (ho : off + 512 ≤ 1024) (j : Fin 512) :
    shapeCast S512 (View.readAt (Elt F) Sc.view (Rect.unit (s := S4x1024) ![r, off] S1x512.size inb).toLoadRect W) hc (ValueIdx.ix1 j)
      = Sc.view.read (Elt F) W (ValueIdx.ix2 rr (⟨off + j.val, by omega⟩ : Fin 1024)) := by
  refine (ValueIdx.shapeCast_1a_a_apply (a := 512) _ hc j).trans ?_
  rw [View.readAt_apply]
  congr 1
  funext a
  apply Fin.ext
  fin_cases a
  · show r + 1 * 0 = rr.val; omega
  · show off + 1 * j.val = off + j.val; omega

end Scratch

theorem hbm_row {c : Dev nD} (X : Bf (F := F) c (Memref.whole main_arg1)) (a b : ℕ) (ha : a < 16) (hb : b < 2048)
    (off : Fin 3 → ℕ) (hoff : off = ![a, b, 0]) (inb : ∀ x, off x + S1x1x1024.size x ≤ S16x2048x1024.size x) (u) (q) (y : Fin 1024) :
    ReadAs.same.apply (View.read (Elt F) (((Memref.whole main_arg1).slice (Rect.unit (s := S16x2048x1024) off S1x1x1024.size inb) u).squeeze S1024 q).view X) (ValueIdx.ix1 y)
      = X (wIdx a b y.val) := by
  subst hoff
  show shapeCast S1024 ((Memref.whole main_arg1).view.readAt (Elt F) (Rect.unit (s := S16x2048x1024) ![a, b, 0] S1x1x1024.size inb).toLoadRect X) q.numel_eq (ValueIdx.ix1 y) = _
  refine (shapeCast_apply (s := ⟨3, ![1, 1, 1024]⟩) (t := ⟨1, ![1024]⟩) _ _ (ValueIdx.ix1 y) (ValueIdx.ix3 (0 : Fin 1) (0 : Fin 1) y) ?_).trans ?_
  · rw [Shape.rowMajor_val_three, Shape.rowMajor_val_one]
    show (0 * 1 + 0) * 1024 + y.val = y.val
    omega
  · show X _ = X _
    congr 1
    funext x
    apply Fin.ext
    fin_cases x
    · show a + 1 * 0 = a % 16
      rw [Nat.mod_eq_of_lt ha]; omega
    · show b + 1 * 0 = b % 2048
      rw [Nat.mod_eq_of_lt hb]; omega
    · show 0 + 1 * y.val = y.val % 1024
      rw [Nat.mod_eq_of_lt y.isLt]; omega

theorem cast3_at (v : FVec F S512 .f32) (hc : S512.ShapeCasts S1x1x512) (j : Fin 512) :
    shapeCast S1x1x512 v hc (ValueIdx.ix3 (0 : Fin 1) (0 : Fin 1) j) = v (ValueIdx.ix1 j) :=
  shapeCast_apply (s := ⟨1, ![512]⟩) (t := ⟨3, ![1, 1, 512]⟩) v hc _ _ (by
    rw [Shape.rowMajor_val_one, Shape.rowMajor_val_three]
    show j.val = (0 * 1 + 0) * 512 + j.val
    omega)

theorem vec_eq_of_forall (v w : FVec F S512 .f32) (h : ∀ j : Fin 512, v (ValueIdx.ix1 j) = w (ValueIdx.ix1 j)) : v = w :=
  funext fun y => (congrArg v (ValueIdx.eq_ix1 y)).trans ((h (y 0)).trans (congrArg w (ValueIdx.eq_ix1 y).symm))

theorem hit_hx (k : ℕ) (n : Fin 64) (hn : n.val = k) (j : Fin 2048) (o : ℕ) (x : Fin 512) (hx : j.val = o + x.val) :
    ∀ a, ((ValueIdx.ix3 (0 : Fin 1) n j) a).val = (![0, k, o] : Fin 3 → ℕ) a + ((ValueIdx.ix3 (0 : Fin 1) (0 : Fin 1) x) a).val := by
  intro a
  fin_cases a
  · show (0 : ℕ) = 0 + 0; omega
  · show n.val = k + 0; omega
  · show j.val = o + x.val; exact hx

/-- Writing the four quarters of row k keeps every row below k and makes row k the specification's. -/
theorem rows_step {c : Dev nD} (M3 : Memref sig .tc .vmem S1x64x2048 .f32) (f : Bf (F := F) c M3)
    (X : S16x2048x1024.Idx → Elt F .f32) (tb : S16x64x3.Idx → BitVec 32) (i : grid1.Coords)
    (k : Fin k1_t1_loop.trips) (v63 v65 : FVec F S512 .f32) (v66 v68 : Vec F S1x512 .f32)
    (i9 : ∀ a, k1_off9 k a + S1x1x512.size a ≤ S1x64x2048.size a) (i10 : ∀ a, k1_off10 k a + S1x1x512.size a ≤ S1x64x2048.size a)
    (i11 : ∀ a, k1_off11 k a + S1x1x512.size a ≤ S1x64x2048.size a) (i12 : ∀ a, k1_off12 k a + S1x1x512.size a ≤ S1x64x2048.size a)
    (hc : S1x512.ShapeCasts S512)
    (hf : ∀ n : Fin 64, n.val < k.val → ∀ j : Fin 2048, M3.view.read (Elt F) f (ValueIdx.ix3 0 n j) = diffAt X tb (i 0) n j.val)
    (H63 : ∀ j : Fin 512, v63 (ValueIdx.ix1 j) = wRow X (spE tb (i 0) (row k)) (spS tb (i 0) (row k) - 1) 0 (ValueIdx.ix1 j))
    (H65 : ∀ j : Fin 512, v65 (ValueIdx.ix1 j) = wRow X (spE tb (i 0) (row k)) (spEn tb (i 0) (row k)) 0 (ValueIdx.ix1 j))
    (H67 : ∀ j : Fin 512, shapeCast S512 v66 hc (ValueIdx.ix1 j) = wRow X (spE tb (i 0) (row k)) (spEn tb (i 0) (row k) + 1) 512 (ValueIdx.ix1 j))
    (H69 : ∀ j : Fin 512, shapeCast S512 v68 hc (ValueIdx.ix1 j) = wRow X (spE tb (i 0) (row k)) (spS tb (i 0) (row k)) 512 (ValueIdx.ix1 j)) :
    ∀ n : Fin 64, n.val < k.val + 1 → ∀ j : Fin 2048,
      M3.view.read (Elt F) (M3.view.writes (Elt F) f
        [⟨Rect.unit (s := S1x64x2048) (k1_off12 k) S1x1x512.size i12, k1_pay5 v66⟩,
         ⟨Rect.unit (s := S1x64x2048) (k1_off11 k) S1x1x512.size i11, k1_pay4 v63⟩,
         ⟨Rect.unit (s := S1x64x2048) (k1_off10 k) S1x1x512.size i10, k1_pay3 v66 v68⟩,
         ⟨Rect.unit (s := S1x64x2048) (k1_off9 k) S1x1x512.size i9, k1_pay2 v63 v65⟩]) (ValueIdx.ix3 0 n j)
        = diffAt X tb (i 0) n j.val := by
  intro n hn j
  have E63 := vec_eq_of_forall _ _ H63
  have E65 := vec_eq_of_forall _ _ H65
  have E67 : k1_pay1 v66 = _ := vec_eq_of_forall _ _ H67
  have E69 := vec_eq_of_forall _ _ H69
  by_cases hlt : n.val < k.val
  · rw [View.read_writes_cons_unit_of_not_mem M3.view f i12 _ _ _ (off12_eq k) 1 (Or.inl hlt),
      View.read_writes_cons_unit_of_not_mem M3.view f i11 _ _ _ (off11_eq k) 1 (Or.inl hlt),
      View.read_writes_cons_unit_of_not_mem M3.view f i10 _ _ _ (off10_eq k) 1 (Or.inl hlt),
      View.read_writes_cons_unit_of_not_mem M3.view f i9 _ _ _ (off9_eq k) 1 (Or.inl hlt)]
    exact hf n hlt j
  · have hnk : n.val = k.val := by omega
    have hn' : n = row k := Fin.ext hnk
    subst hn'
    have hj := j.isLt
    unfold diffAt
    dsimp only
    by_cases h1 : j.val < 512
    · rw [if_pos h1,
        View.read_writes_cons_unit_of_not_mem M3.view f i12 _ _ _ (off12_eq k) 2 (Or.inl (by show j.val < 1536; omega)),
        View.read_writes_cons_unit_of_not_mem M3.view f i11 _ _ _ (off11_eq k) 2 (Or.inl (by show j.val < 1024; omega)),
        View.read_writes_cons_unit_of_not_mem M3.view f i10 _ _ _ (off10_eq k) 2 (Or.inl (by show j.val < 512; omega)),
        View.read_writes_cons_unit_of_mem M3.view f i9 _ _ _ (ValueIdx.ix3 (0 : Fin 1) (0 : Fin 1) (⟨j.val, h1⟩ : Fin 512)) (off9_eq k)
          (hit_hx k.val (row k) rfl j 0 _ (by show j.val = 0 + j.val; omega))]
      show shapeCast S1x1x512 (subf v65 v63) _ (ValueIdx.ix3 (0 : Fin 1) (0 : Fin 1) (⟨j.val, h1⟩ : Fin 512)) = _
      rw [cast3_at, E63, E65]
      exact congrArg _ (congrArg ValueIdx.ix1 (Fin.ext (Nat.mod_eq_of_lt h1).symm))
    · rw [if_neg h1]
      by_cases h2 : j.val < 1024
      · rw [if_pos h2,
          View.read_writes_cons_unit_of_not_mem M3.view f i12 _ _ _ (off12_eq k) 2 (Or.inl (by show j.val < 1536; omega)),
          View.read_writes_cons_unit_of_not_mem M3.view f i11 _ _ _ (off11_eq k) 2 (Or.inl (by show j.val < 1024; omega)),
          View.read_writes_cons_unit_of_mem M3.view f i10 _ _ _ (ValueIdx.ix3 (0 : Fin 1) (0 : Fin 1) (⟨j.val - 512, by omega⟩ : Fin 512)) (off10_eq k)
            (hit_hx k.val (row k) rfl j 512 _ (by show j.val = 512 + (j.val - 512); omega))]
        show shapeCast S1x1x512 (subf (shapeCast S512 v68 _) (k1_pay1 v66)) _ (ValueIdx.ix3 (0 : Fin 1) (0 : Fin 1) (⟨j.val - 512, _⟩ : Fin 512)) = _
        rw [cast3_at, E67, E69]
        exact congrArg _ (congrArg ValueIdx.ix1 (Fin.ext (by show j.val - 512 = j.val % 512; omega)))
      · rw [if_neg h2]
        by_cases h3 : j.val < 1536
        · rw [if_pos h3,
            View.read_writes_cons_unit_of_not_mem M3.view f i12 _ _ _ (off12_eq k) 2 (Or.inl (by show j.val < 1536; omega)),
            View.read_writes_cons_unit_of_mem M3.view f i11 _ _ _ (ValueIdx.ix3 (0 : Fin 1) (0 : Fin 1) (⟨j.val - 1024, by omega⟩ : Fin 512)) (off11_eq k)
              (hit_hx k.val (row k) rfl j 1024 _ (by show j.val = 1024 + (j.val - 1024); omega))]
          show shapeCast S1x1x512 v63 _ (ValueIdx.ix3 (0 : Fin 1) (0 : Fin 1) (⟨j.val - 1024, _⟩ : Fin 512)) = _
          rw [cast3_at, E63]
          show X (wIdx _ _ (0 + (j.val - 1024))) = _
          rw [Nat.zero_add]
        · rw [if_neg h3,
            View.read_writes_cons_unit_of_mem M3.view f i12 _ _ _ (ValueIdx.ix3 (0 : Fin 1) (0 : Fin 1) (⟨j.val - 1536, by omega⟩ : Fin 512)) (off12_eq k)
              (hit_hx k.val (row k) rfl j 1536 _ (by show j.val = 1536 + (j.val - 1536); omega))]
          show shapeCast S1x1x512 (k1_pay1 v66) _ (ValueIdx.ix3 (0 : Fin 1) (0 : Fin 1) (⟨j.val - 1536, _⟩ : Fin 512)) = _
          rw [cast3_at, E67]
          show X (wIdx _ _ (512 + (j.val - 1536))) = _
          exact congrArg X (congrArg (wIdx _ _) (by omega))

/-- A [1, 64, 2048] block is determined by its 64 rows. -/
theorem blk_of_rows {c : Dev nD} (M3 : Memref sig .tc .vmem S1x64x2048 .f32) (f : Bf (F := F) c M3)
    (X : S16x2048x1024.Idx → Elt F .f32) (tb : S16x64x3.Idx → BitVec 32) (b : Fin 16) (T : ℕ) (hT : 64 ≤ T)
    (h : ∀ n : Fin 64, n.val < T → ∀ j : Fin 2048, M3.view.read (Elt F) f (ValueIdx.ix3 0 n j) = diffAt X tb b n j.val) :
    M3.view.read (Elt F) f = diffBlk X tb b := by
  funext y
  have h0 : (y 0).val = 0 := by have h' : (y 0).val < 1 := (y 0).isLt; omega
  have hy : y = ValueIdx.ix3 (0 : Fin 1) (y 1) (y 2) :=
    (ValueIdx.eq_ix3 y).trans (congrArg (fun a : Fin 1 => ValueIdx.ix3 a (y 1) (y 2)) (Fin.ext h0 : y 0 = (0 : Fin 1)))
  exact (congrArg (M3.view.read (Elt F) f) hy).trans (h (y 1) (Nat.lt_of_lt_of_le (y 1).isLt hT) (y 2))

/-- Loop invariant at trip k: rows below k of the block equal the specification's; everything else is held unchanged. -/
abbrev inv (c : Dev nD) (i : grid1.Coords) (M3 : Memref sig .tc .vmem S1x64x2048 .f32)
    (Tb : Memref sig .tc .smem S16x64x3 .i32) (Sc : Memref sig .tc .vmem S4x1024 .f32) (sems : sProp (MM F))
    (X : Bf (F := F) c (Memref.whole main_arg1)) (sp : Bf (F := F) c Tb) (tb : S16x64x3.Idx → BitVec 32) (k : ℕ) (_u : Unit) : sProp (MM F) :=
  iprop(⌜SpansOk tb⌝
    ∗ (∃ f : Bf (F := F) c M3, pt c M3 f
        ∗ ⌜∀ n : Fin 64, n.val < k → ∀ j : Fin 2048, M3.view.read (Elt F) f (ValueIdx.ix3 0 n j) = diffAt X tb (i 0) n j.val⌝)
    ∗ pt c (Memref.whole main_arg1) X ∗ pt c Tb sp
    ∗ (∃ fs : Bf (F := F) c Sc, pt c Sc fs)
    ∗ sems ∗ ∃ W, owes (c : Thread nD τ) 0 W)

end Rows

end Cert.Proof.KB

end
-- ==== Proof.KB.Body1.lean ====
import proofs.«409333_j59115929862503_1_alg».proof.Proof.KB.Rows

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Rows

/-- The four cells of a call's own semaphore array. -/
abbrev smAt (sm : DmaSems sig S4) : Fin 4 → SemLoc sig := fun
  | 0 => .dma ((sm.slice (Rect.unit (s := S4) ![0] S1.size inb_S4_S1_0)).squeeze S_ squeezes_S1_S_).sem
  | 1 => .dma ((sm.slice (Rect.unit (s := S4) ![1] S1.size inb_S4_S1_1)).squeeze S_ squeezes_S1_S_).sem
  | 2 => .dma ((sm.slice (Rect.unit (s := S4) ![2] S1.size inb_S4_S1_2)).squeeze S_ squeezes_S1_S_).sem
  | 3 => .dma ((sm.slice (Rect.unit (s := S4) ![3] S1.size inb_S4_S1_3)).squeeze S_ squeezes_S1_S_).sem

abbrev semsG (c : Dev nD) (sm : DmaSems sig S4) : sProp (MM F) :=
  iprop(semVal ((c : Thread nD τ), smAt sm 0) 0 ∗ semVal ((c : Thread nD τ), smAt sm 1) 0 ∗ semVal ((c : Thread nD τ), smAt sm 2) 0 ∗ semVal ((c : Thread nD τ), smAt sm 3) 0)

variable (Tb : Memref sig .tc .smem S16x64x3 .i32) (hTb : Tb.IsWhole) (Sc : Memref sig .tc .vmem S4x1024 .f32) (hSc : Sc.IsWhole) (sm : DmaSems sig S4)

set_option warn.classDefReducibility false in
set_option maxHeartbeats 4000000 in
set_option sl_exec.dmaWindow true in
/-- One trip extends the invariant from k to k + 1. -/
@[sl_loop] noncomputable def loopInv_k1_t1 (c : Dev nD) (i : grid1.Coords) (M3 : Memref sig .tc .vmem S1x64x2048 .f32) (h3 : M3.IsWhole)
    (X : Bf (F := F) c (Memref.whole main_arg1)) (sp : Bf (F := F) c Tb) :
    LoopInvTy_k1_t1 (F := F) Unit ℕ (UU nD τ) ℕ Variants.none c none Set.univ i
      Tb hTb (Memref.whole main_arg1) (Memref.isWhole_whole _) M3 h3
      Sc hSc sm (BitVec.ofNat 32 (i 0).val) where
  inv := inv (F := F) c i M3 Tb Sc (semsG c sm) X sp (Tb.view.read (Elt F) sp)
  step k acc := by
    iintro ⟨%hsp, ⟨%f, H3, %hf⟩, HX, Hsp, ⟨%fs, Hs⟩, ⟨Hd0, Hd1, Hd2, Hd3⟩, ⟨%W, HO⟩⟩
    ihave HX' := (toksX_eqv c X).1 $$ HX
    icases HX' with ⟨HXd, HX8, HX7, HX6, HX5, HXr⟩
    unfold k1_t1_body
    sl_exec (disch := first | sl_exact chk1_at Tb sp _ rfl hsp _ _ _ _ _ _ | sl_exact chk2_at Tb sp _ rfl hsp _ _ _ _ _ _)
    sl_step
    have he : spE (Tb.view.read (Elt F) sp) (i 0) (row k) < 16 := (hsp (i 0) (row k)).1
    have hs1 : 1 ≤ spS (Tb.view.read (Elt F) sp) (i 0) (row k) := (hsp (i 0) (row k)).2.1
    have hs2 : spS (Tb.view.read (Elt F) sp) (i 0) (row k) ≤ 2047 := (hsp (i 0) (row k)).2.2.1
    have hen : spEn (Tb.view.read (Elt F) sp) (i 0) (row k) ≤ 2046 := (hsp (i 0) (row k)).2.2.2
    isplitr; · ipureintro; exact hsp
    isplitl [H3]
    · iexists _
      isplitl [H3]; · iexact H3
      ipureintro
      refine rows_step M3 f X (Tb.view.read (Elt F) sp) i k _ _ _ _ _ _ _ _ (by decide) hf ?_ ?_ ?_ ?_
      · intro j
        refine (half_row (c := c) _ _ 0 0 _ _ 0 rfl (by omega) j).trans ?_
        rw [scratch_nest (c := c), scratch_at0 (c := c)]
        exact hbm_row (c := c) X (spE (Tb.view.read (Elt F) sp) (i 0) (row k)) (spS (Tb.view.read (Elt F) sp) (i 0) (row k) - 1) he (by omega) _ (off4_tbl Tb sp _ rfl hsp i k _ _ _ _) _ _ _ _
      · intro j
        refine (half_row (c := c) _ _ 1 0 _ _ 1 rfl (by omega) j).trans ?_
        rw [scratch_nest (c := c), scratch_at1 (c := c)]
        exact hbm_row (c := c) X (spE (Tb.view.read (Elt F) sp) (i 0) (row k)) (spEn (Tb.view.read (Elt F) sp) (i 0) (row k)) he (by omega) _ (off5_tbl Tb sp _ rfl i k _ _ _ _) _ _ _ _
      · intro j
        refine (half_row (c := c) _ _ 2 512 _ _ 2 rfl (by omega) j).trans ?_
        rw [scratch_nest (c := c), scratch_at2 (c := c)]
        exact hbm_row (c := c) X (spE (Tb.view.read (Elt F) sp) (i 0) (row k)) (spEn (Tb.view.read (Elt F) sp) (i 0) (row k) + 1) he (by omega) _ (off6_tbl Tb sp _ rfl hsp i k _ _ _ _) _ _ _ _
      · intro j
        refine (half_row (c := c) _ _ 3 512 _ _ 3 rfl (by omega) j).trans ?_
        rw [scratch_nest (c := c), scratch_at3 (c := c)]
        exact hbm_row (c := c) X (spE (Tb.view.read (Elt F) sp) (i 0) (row k)) (spS (Tb.view.read (Elt F) sp) (i 0) (row k)) he (by omega) _ (off7_tbl Tb sp _ rfl i k _ _ _ _) _ _ _ _
    isplitl [HXd HX8 HX7 HX6 HX5 HXr]
    · iapply (toksX_eqv c X).2
      isplitl [HXd]; · iexact HXd
      isplitl [HX8]; · iexact HX8
      isplitl [HX7]; · iexact HX7
      isplitl [HX6]; · iexact HX6
      isplitl [HX5]; · iexact HX5
      iexact HXr
    isplitl [Hsp]; · iexact Hsp
    isplitl [Hs]; · iexists _; iexact Hs
    isplitl [Hd0 Hd1 Hd2 Hd3]
    · isplitl [Hd0]; · iexact Hd0
      isplitl [Hd1]; · iexact Hd1
      isplitl [Hd2]; · iexact Hd2
      iexact Hd3
    iexists _; iexact HO

set_option maxHeartbeats 4000000 in
set_option sl_exec.dmaWindow true in
/-- One grid point of a span-difference call, at any table, scratch and semaphore array: the output block ends as the specification's. -/
theorem diffRun (c : Dev nD) (t : Fin grid1.N) (M3 : Memref sig .tc .vmem S1x64x2048 .f32) (h3 : M3.IsWhole)
    (X : Bf (F := F) c (Memref.whole main_arg1)) (sp : Bf (F := F) c Tb) (hsp : SpansOk (Tb.view.read (Elt F) sp))
    (f3 : Bf (F := F) c M3) (fs : Bf (F := F) c Sc)
    (W : Waits sig Unit) (Q : PUnit → sProp (MM F)) :
    iprop(pt c M3 f3 ∗ pt c (Memref.whole main_arg1) X ∗ pt c Tb sp ∗ pt c Sc fs ∗ semsG c sm ∗ owes (c : Thread nD τ) 0 W
      ∗ (iprop((∃ f' : Bf (F := F) c M3, pt c M3 f' ∗ ⌜M3.view.read (Elt F) f' = diffBlk X (Tb.view.read (Elt F) sp) (grid1.coords t 0)⌝) ∗ pt c (Memref.whole main_arg1) X ∗ pt c Tb sp
            ∗ (∃ f, pt c Sc f) ∗ semsG c sm ∗ ∃ W, owes (c : Thread nD τ) 0 W) -∗ Q ⟨⟩))
    ⊢ wp frame (wpE (defs₀ (F := F)) Variants.none c none) Set.univ
        (cc1__diff_extract_kernel (grid1.coords t) Tb hTb (Memref.whole main_arg1) (Memref.isWhole_whole _) M3 h3 Sc hSc sm) Q := by
  iintro ⟨H3, HX, Hsp, Hs, ⟨Hd0, Hd1, Hd2, Hd3⟩, HO, Hk⟩
  sl_exec!
  sl_step
  iapply Hk
  isplitl [H3]
  · iexists _
    isplitl [H3]; · iexact H3
    ipureintro
    exact blk_of_rows (c := c) M3 _ X (Tb.view.read (Elt F) sp) _ _ (le_of_eq trips64.symm) (by assumption)
  isplitl [HX]; · iexact HX
  isplitl [Hsp]; · iexact Hsp
  isplitl [Hs]; · iexists _; iexact Hs
  isplitl [Hd0 Hd1 Hd2 Hd3]
  · isplitl [Hd0]; · iexact Hd0
    isplitl [Hd1]; · iexact Hd1
    isplitl [Hd2]; · iexact Hd2
    iexact Hd3
  iexists _; iexact HO

end Cert.Proof.KB

end
-- ==== Proof.KB.Oblig.lean ====
import proofs.«409333_j59115929862503_1_alg».proof.Proof.KB.Common
import proofs.«409333_j59115929862503_1_alg».proof.Proof.KB.Dats
import proofs.«409333_j59115929862503_1_alg».proof.Proof.KB.Body0
import proofs.«409333_j59115929862503_1_alg».proof.Proof.KB.Body1
import Idealize.ShloMosaic.Lib.Pipeline.Regions

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

theorem body_obligation0 (c : Dev nD) (hl : LensOk (W0 m c main_arg2)) :
    Pipeline.BodyObligation (dat0 m c) (defs₀ (F := F)) Variants.none () Set.univ := fun t => by
  rw [bigSep_W0, bigSep_W0]
  simp only []
  rw [show (dat0 m c).Φ t.castSucc = Φ0 m c from rfl, show (dat0 m c).Φ t.succ = Φ0 m c from rfl,
    show (dat0 m c).after 0 t = topicBlk (W0 m c main_arg0) (W0 m c main_arg2) from rfl]
  unfold Φ0 Pipeline.Dat.owesAt Pipeline.owesWithin
  rw [scopedRest0_eq]
  rw [show (dat0 m c).owed t.castSucc = 0 from rfl, show (dat0 m c).owed t.succ = 0 from rfl]

  have h3 : (stage0_0 ((cfg0 (adm m 0)).slots t 0)).IsWhole := hstage0_0 _
  unfold owns
  rw [h3.set_eq_univ]
  iintro ⟨⟨HX, HT, Hsems, ⟨%fs, Hs⟩, Hr1, Hr2, Hr3, Hr4, Hr5, Hr6, Hr7, Hr8, Hr9⟩, ⟨%W, -, HO⟩, ⟨%d, %f3, -, H3⟩⟩
  iapply (kernelRun0 c t _ h3 (W0 m c main_arg0) (W0 m c main_arg2) hl f3 fs W)
  iframe H3 HX HT Hs Hsems HO
  iintro ⟨⟨%f', H3, %hf'⟩, HX, HT, Hs, Hsems, ⟨%W', HO⟩⟩

  isplitr [HO H3]
  · iframe

  isplitl [HO]
  · iexists W'; isplitr; · ipureintro; exact fun _ _ => Or.inl trivial
    iexact HO

  iexists f'; isplitr; · ipureintro; exact hf'
  iexact H3

theorem body_obligation1 (c : Dev nD) (hs : SpansOk (W0 m c main_arg3)) :
    Pipeline.BodyObligation (dat1 m c) (defs₀ (F := F)) Variants.none () Set.univ := fun t => by
  rw [bigSep_W1, bigSep_W1]
  simp only []
  rw [show (dat1 m c).Φ t.castSucc = Φ1 m c from rfl, show (dat1 m c).Φ t.succ = Φ1 m c from rfl,
    show (dat1 m c).after 0 t = diffBlk (W0 m c main_arg1) (W0 m c main_arg3) (grid1.coords t 0) from rfl]
  unfold Φ1 Pipeline.Dat.owesAt Pipeline.owesWithin
  rw [scopedRest1_eq]
  rw [show (dat1 m c).owed t.castSucc = 0 from rfl, show (dat1 m c).owed t.succ = 0 from rfl]

  have h3 : (stage1_0 ((cfg1 (adm m 1)).slots t 0)).IsWhole := hstage1_0 _
  unfold owns
  rw [h3.set_eq_univ]
  iintro ⟨⟨HX, HT, Hsems, Hr0, Hr1, ⟨%fs, Hs⟩, Hr3, Hr4, Hr5, Hr6, Hr7, Hr8⟩, ⟨%W, -, HO⟩, ⟨%d, %f3, -, H3⟩⟩
  iapply (diffRun (Memref.whole main_arg3) (Memref.isWhole_whole _) (Memref.whole cc1_scratch0) (Memref.isWhole_whole _) cc1_scratch1 c t _ h3 (W0 m c main_arg1) (W0 m c main_arg3) hs f3 fs W)
  iframe H3 HX HT Hs
  isplitl [Hsems]; · iexact Hsems
  iframe HO
  iintro ⟨⟨%f', H3, %hf'⟩, HX, HT, Hs, Hsems, ⟨%W', HO⟩⟩

  isplitr [HO H3]
  · iframe; iexact Hsems

  isplitl [HO]
  · iexists W'; isplitr; · ipureintro; exact fun _ _ => Or.inl trivial
    iexact HO

  iexists f'; isplitr; · ipureintro; exact hf'
  iexact H3

theorem body_obligation2 (c : Dev nD) (hs : SpansOk (W0 m c main_arg4)) :
    Pipeline.BodyObligation (dat2 m c) (defs₀ (F := F)) Variants.none () Set.univ := fun t => by
  rw [bigSep_W2, bigSep_W2]
  simp only []
  rw [show (dat2 m c).Φ t.castSucc = Φ2 m c from rfl, show (dat2 m c).Φ t.succ = Φ2 m c from rfl,
    show (dat2 m c).after 0 t = diffBlk (W0 m c main_arg1) (W0 m c main_arg4) (grid2.coords t 0) from rfl]
  unfold Φ2 Pipeline.Dat.owesAt Pipeline.owesWithin
  rw [scopedRest2_eq]
  rw [show (dat2 m c).owed t.castSucc = 0 from rfl, show (dat2 m c).owed t.succ = 0 from rfl]

  have h3 : (stage2_0 ((cfg2 (adm m 2)).slots t 0)).IsWhole := hstage2_0 _
  unfold owns
  rw [h3.set_eq_univ]
  iintro ⟨⟨HX, HT, Hsems, Hr0, Hr1, Hr2, Hr3, Hr4, ⟨%fs, Hs⟩, Hr6, Hr7, Hr8⟩, ⟨%W, -, HO⟩, ⟨%d, %f3, -, H3⟩⟩
  iapply (diffRun (Memref.whole main_arg4) (Memref.isWhole_whole _) (Memref.whole cc2_scratch0) (Memref.isWhole_whole _) cc2_scratch1 c t _ h3 (W0 m c main_arg1) (W0 m c main_arg4) hs f3 fs W)
  iframe H3 HX HT Hs
  isplitl [Hsems]; · iexact Hsems
  iframe HO
  iintro ⟨⟨%f', H3, %hf'⟩, HX, HT, Hs, Hsems, ⟨%W', HO⟩⟩

  isplitr [HO H3]
  · iframe; iexact Hsems

  isplitl [HO]
  · iexists W'; isplitr; · ipureintro; exact fun _ _ => Or.inl trivial
    iexact HO

  iexists f'; isplitr; · ipureintro; exact hf'
  iexact H3

theorem body_obligation3 (c : Dev nD) (hs : SpansOk (W0 m c main_arg5)) :
    Pipeline.BodyObligation (dat3 m c) (defs₀ (F := F)) Variants.none () Set.univ := fun t => by
  rw [bigSep_W3, bigSep_W3]
  simp only []
  rw [show (dat3 m c).Φ t.castSucc = Φ3 m c from rfl, show (dat3 m c).Φ t.succ = Φ3 m c from rfl,
    show (dat3 m c).after 0 t = diffBlk (W0 m c main_arg1) (W0 m c main_arg5) (grid3.coords t 0) from rfl]
  unfold Φ3 Pipeline.Dat.owesAt Pipeline.owesWithin
  rw [scopedRest3_eq]
  rw [show (dat3 m c).owed t.castSucc = 0 from rfl, show (dat3 m c).owed t.succ = 0 from rfl]

  have h3 : (stage3_0 ((cfg3 (adm m 3)).slots t 0)).IsWhole := hstage3_0 _
  unfold owns
  rw [h3.set_eq_univ]
  iintro ⟨⟨HX, HT, Hsems, Hr0, Hr1, Hr2, Hr3, Hr4, Hr5, Hr6, Hr7, ⟨%fs, Hs⟩⟩, ⟨%W, -, HO⟩, ⟨%d, %f3, -, H3⟩⟩
  iapply (diffRun (Memref.whole main_arg5) (Memref.isWhole_whole _) (Memref.whole cc3_scratch0) (Memref.isWhole_whole _) cc3_scratch1 c t _ h3 (W0 m c main_arg1) (W0 m c main_arg5) hs f3 fs W)
  iframe H3 HX HT Hs
  isplitl [Hsems]; · iexact Hsems
  iframe HO
  iintro ⟨⟨%f', H3, %hf'⟩, HX, HT, Hs, Hsems, ⟨%W', HO⟩⟩

  isplitr [HO H3]
  · iframe; iexact Hsems

  isplitl [HO]
  · iexists W'; isplitr; · ipureintro; exact fun _ _ => Or.inl trivial
    iexact HO

  iexists f'; isplitr; · ipureintro; exact hf'
  iexact H3

end Cert.Proof.KB

end
-- ==== Proof.KB.Run.lean ====
import proofs.«409333_j59115929862503_1_alg».proof.Proof.KB.Common
import proofs.«409333_j59115929862503_1_alg».proof.Proof.KB.Oblig
import Idealize.ShloMosaic.Lib.Pipeline.Regions
import Idealize.ShloMosaic.Lib.Pipeline.RegionsLoop

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

abbrev EP : Emb (UR sig nD τ) (MM F) := embL
abbrev 𝒱₀ : Variants := Variants.none

abbrev L : GSem nD τ sig → Finset Unit := fun _ => ∅
abbrev lv : GSem nD τ sig → Unit → ℕ := fun _ _ => 0

abbrev R (c : Dev nD) : sProp (MM F) := iprop(∃ W, owes (c : Thread nD τ) (0 : CellTallies nD τ sig Unit) W)

def outs : Gen.Outs (F := F) := fun _ r c =>
  if h0 : r = main_v0 then h0 ▸ final0 m c
  else if h1 : r = main_v1 then h1 ▸ final1 m c
  else if h2 : r = main_v2 then h2 ▸ final2 m c
  else if h3 : r = main_v3 then h3 ▸ final3 m c
  else m ((c : Thread nD τ).loc r)

theorem outs_v0 (J : ℕ) (c : Dev nD) : outs m J main_v0 c = final0 m c := by unfold outs; rw [dif_pos rfl]
theorem outs_v1 (J : ℕ) (c : Dev nD) : outs m J main_v1 c = final1 m c := by
  unfold outs; rw [dif_neg (by decide), dif_pos rfl]
theorem outs_v2 (J : ℕ) (c : Dev nD) : outs m J main_v2 c = final2 m c := by
  unfold outs; rw [dif_neg (by decide), dif_neg (by decide), dif_pos rfl]
theorem outs_v3 (J : ℕ) (c : Dev nD) : outs m J main_v3 c = final3 m c := by
  unfold outs; rw [dif_neg (by decide), dif_neg (by decide), dif_neg (by decide), dif_pos rfl]

theorem V1_at (c : Dev nD) (r : Ref sig .tc) (h0 : r ∉ ([main_v0] : List (Ref sig .tc))) :
    V1 m (outs m) c r = m ((c : Thread nD τ).loc r) := V1_of m (outs m) c r h0
theorem V2_at (c : Dev nD) (r : Ref sig .tc) (h0 : r ∉ ([main_v0] : List (Ref sig .tc))) (h1 : r ∉ ([main_v1] : List (Ref sig .tc))) :
    V2 m (outs m) c r = m ((c : Thread nD τ).loc r) := (V2_of m (outs m) c r h1).trans (V1_at m c r h0)
theorem V3_at (c : Dev nD) (r : Ref sig .tc) (h0 : r ∉ ([main_v0] : List (Ref sig .tc))) (h1 : r ∉ ([main_v1] : List (Ref sig .tc)))
    (h2 : r ∉ ([main_v2] : List (Ref sig .tc))) :
    V3 m (outs m) c r = m ((c : Thread nD τ).loc r) := (V3_of m (outs m) c r h2).trans (V2_at m c r h0 h1)

theorem ownSems0_eq0 (c : Dev nD) :
    (Pipeline.ownSems0 (Ix := Unit) (Name := ℕ) (U := UU nD τ) (Lvl := ℕ) (Val := Elt F) (τ := τ) osem0 c : sProp (MM F)) = sems0_0 c :=
  Pipeline.ownSems0_eq_of_list c osem0 [0, 1] (by decide) (by decide)

theorem ownSemFacts0 : Pipeline.OwnSemFacts spec0 osem0 := by decide

theorem prefHeld0_eq (c : Dev nD) (T : (pcfgs (F := F) 0).pre.Contents (Elt F)) :
    (Pipeline.prefHeld (Ix := Unit) (Name := ℕ) (U := UU nD τ) (Lvl := ℕ) (pcfgs (F := F) 0).pre c (fun _ => fullShare) T : sProp (MM F))
      = iprop(((c : Thread nD τ).loc main_arg2) ↦{fullShare} T 0) := by
  unfold Pipeline.prefHeld
  exact bigSep_W0 _
theorem prefHeld0_V (c : Dev nD) (V : (b : Ref sig .tc) → Buf (Elt F) ((c : Thread nD τ).loc b)) :
    (Pipeline.prefHeld (Ix := Unit) (Name := ℕ) (U := UU nD τ) (Lvl := ℕ) (pcfgs (F := F) 0).pre c (fun _ => fullShare)
        (fun k => V ((pcfgs (F := F) 0).pre.ref k)) : sProp (MM F))
      = iprop(((c : Thread nD τ).loc main_arg2) ↦{fullShare} V main_arg2) := prefHeld0_eq c _

theorem hF0 (c : Dev nD) (w : Fin (Pipeline.pin (pcfgs (F := F)) (adm m) 0).W) :
    (pdats m 0 c).arrAt w (Pipeline.pin (pcfgs (F := F)) (adm m) 0).N
      = V1 m (outs m) c (Pipeline.arrRef (Pipeline.pin (pcfgs (F := F)) (adm m) 0).spec w) :=
  match w with
  | ⟨0, _⟩ => ((Function.update_self (Proc.devRef .tc main_v0 : DevRef τ sig) (outs m 1 main_v0 c) (V0 m c)).trans (outs_v0 m 1 c)).symm
  | ⟨_ + 1, h⟩ => absurd h (Nat.not_lt.2 (Nat.le_add_left _ _))
theorem hrest0 (c : Dev nD) : ∀ b, b ∉ Finset.univ.image (Pipeline.arrRef (Pipeline.pin (pcfgs (F := F)) (adm m) 0).spec)
    → V1 m (outs m) c b = V0 m c b :=
  fun b hb => V1_of m (outs m) c b fun h => hb (Finset.mem_image.mpr ⟨0, Finset.mem_univ _, (List.mem_singleton.mp h).symm⟩)

theorem hA0 (c : Dev nD) (w : Fin (Pipeline.pin (pcfgs (F := F)) (adm m) 0).W) :
    (pdats m 0 c).A w = V0 m c (Pipeline.arrRef (Pipeline.pin (pcfgs (F := F)) (adm m) 0).spec w) :=
  match w with
  | ⟨0, _⟩ => rfl
  | ⟨_ + 1, h⟩ => absurd h (Nat.not_lt.2 (Nat.le_add_left _ _))

theorem ownSems0_eq1 (c : Dev nD) :
    (Pipeline.ownSems0 (Ix := Unit) (Name := ℕ) (U := UU nD τ) (Lvl := ℕ) (Val := Elt F) (τ := τ) osem1 c : sProp (MM F)) = sems0_1 c :=
  Pipeline.ownSems0_eq_of_list c osem1 [0, 1, 2, 3] (by decide) (by decide)

theorem ownSemFacts1 : Pipeline.OwnSemFacts spec1 osem1 := by decide

theorem prefHeld1_eq (c : Dev nD) (T : (pcfgs (F := F) 1).pre.Contents (Elt F)) :
    (Pipeline.prefHeld (Ix := Unit) (Name := ℕ) (U := UU nD τ) (Lvl := ℕ) (pcfgs (F := F) 1).pre c (fun _ => fullShare) T : sProp (MM F))
      = iprop(((c : Thread nD τ).loc main_arg3) ↦{fullShare} T 0) := by
  unfold Pipeline.prefHeld
  exact bigSep_W1 _
theorem prefHeld1_V (c : Dev nD) (V : (b : Ref sig .tc) → Buf (Elt F) ((c : Thread nD τ).loc b)) :
    (Pipeline.prefHeld (Ix := Unit) (Name := ℕ) (U := UU nD τ) (Lvl := ℕ) (pcfgs (F := F) 1).pre c (fun _ => fullShare)
        (fun k => V ((pcfgs (F := F) 1).pre.ref k)) : sProp (MM F))
      = iprop(((c : Thread nD τ).loc main_arg3) ↦{fullShare} V main_arg3) := prefHeld1_eq c _

theorem hF1 (c : Dev nD) (w : Fin (Pipeline.pin (pcfgs (F := F)) (adm m) 1).W) :
    (pdats m 1 c).arrAt w (Pipeline.pin (pcfgs (F := F)) (adm m) 1).N
      = V2 m (outs m) c (Pipeline.arrRef (Pipeline.pin (pcfgs (F := F)) (adm m) 1).spec w) :=
  match w with
  | ⟨0, _⟩ => ((Function.update_self (Proc.devRef .tc main_v1 : DevRef τ sig) (outs m 2 main_v1 c) (V1 m (outs m) c)).trans (outs_v1 m 2 c)).symm
  | ⟨_ + 1, h⟩ => absurd h (Nat.not_lt.2 (Nat.le_add_left _ _))
theorem hrest1 (c : Dev nD) : ∀ b, b ∉ Finset.univ.image (Pipeline.arrRef (Pipeline.pin (pcfgs (F := F)) (adm m) 1).spec)
    → V2 m (outs m) c b = V1 m (outs m) c b :=
  fun b hb => V2_of m (outs m) c b fun h => hb (Finset.mem_image.mpr ⟨0, Finset.mem_univ _, (List.mem_singleton.mp h).symm⟩)

theorem hA1 (c : Dev nD) (w : Fin (Pipeline.pin (pcfgs (F := F)) (adm m) 1).W) :
    (pdats m 1 c).A w = V1 m (outs m) c (Pipeline.arrRef (Pipeline.pin (pcfgs (F := F)) (adm m) 1).spec w) :=
  match w with
  | ⟨0, _⟩ => (V1_at m c main_v1 (by decide)).symm
  | ⟨_ + 1, h⟩ => absurd h (Nat.not_lt.2 (Nat.le_add_left _ _))

theorem ownSems0_eq2 (c : Dev nD) :
    (Pipeline.ownSems0 (Ix := Unit) (Name := ℕ) (U := UU nD τ) (Lvl := ℕ) (Val := Elt F) (τ := τ) osem2 c : sProp (MM F)) = sems0_2 c :=
  Pipeline.ownSems0_eq_of_list c osem2 [0, 1, 2, 3] (by decide) (by decide)

theorem ownSemFacts2 : Pipeline.OwnSemFacts spec2 osem2 := by decide

theorem prefHeld2_eq (c : Dev nD) (T : (pcfgs (F := F) 2).pre.Contents (Elt F)) :
    (Pipeline.prefHeld (Ix := Unit) (Name := ℕ) (U := UU nD τ) (Lvl := ℕ) (pcfgs (F := F) 2).pre c (fun _ => fullShare) T : sProp (MM F))
      = iprop(((c : Thread nD τ).loc main_arg4) ↦{fullShare} T 0) := by
  unfold Pipeline.prefHeld
  exact bigSep_W2 _
theorem prefHeld2_V (c : Dev nD) (V : (b : Ref sig .tc) → Buf (Elt F) ((c : Thread nD τ).loc b)) :
    (Pipeline.prefHeld (Ix := Unit) (Name := ℕ) (U := UU nD τ) (Lvl := ℕ) (pcfgs (F := F) 2).pre c (fun _ => fullShare)
        (fun k => V ((pcfgs (F := F) 2).pre.ref k)) : sProp (MM F))
      = iprop(((c : Thread nD τ).loc main_arg4) ↦{fullShare} V main_arg4) := prefHeld2_eq c _

theorem hF2 (c : Dev nD) (w : Fin (Pipeline.pin (pcfgs (F := F)) (adm m) 2).W) :
    (pdats m 2 c).arrAt w (Pipeline.pin (pcfgs (F := F)) (adm m) 2).N
      = V3 m (outs m) c (Pipeline.arrRef (Pipeline.pin (pcfgs (F := F)) (adm m) 2).spec w) :=
  match w with
  | ⟨0, _⟩ => ((Function.update_self (Proc.devRef .tc main_v2 : DevRef τ sig) (outs m 3 main_v2 c) (V2 m (outs m) c)).trans (outs_v2 m 3 c)).symm
  | ⟨_ + 1, h⟩ => absurd h (Nat.not_lt.2 (Nat.le_add_left _ _))
theorem hrest2 (c : Dev nD) : ∀ b, b ∉ Finset.univ.image (Pipeline.arrRef (Pipeline.pin (pcfgs (F := F)) (adm m) 2).spec)
    → V3 m (outs m) c b = V2 m (outs m) c b :=
  fun b hb => V3_of m (outs m) c b fun h => hb (Finset.mem_image.mpr ⟨0, Finset.mem_univ _, (List.mem_singleton.mp h).symm⟩)

theorem hA2 (c : Dev nD) (w : Fin (Pipeline.pin (pcfgs (F := F)) (adm m) 2).W) :
    (pdats m 2 c).A w = V2 m (outs m) c (Pipeline.arrRef (Pipeline.pin (pcfgs (F := F)) (adm m) 2).spec w) :=
  match w with
  | ⟨0, _⟩ => (V2_at m c main_v2 (by decide) (by decide)).symm
  | ⟨_ + 1, h⟩ => absurd h (Nat.not_lt.2 (Nat.le_add_left _ _))

theorem ownSems0_eq3 (c : Dev nD) :
    (Pipeline.ownSems0 (Ix := Unit) (Name := ℕ) (U := UU nD τ) (Lvl := ℕ) (Val := Elt F) (τ := τ) osem3 c : sProp (MM F)) = sems0_3 c :=
  Pipeline.ownSems0_eq_of_list c osem3 [0, 1, 2, 3] (by decide) (by decide)

theorem ownSemFacts3 : Pipeline.OwnSemFacts spec3 osem3 := by decide

theorem prefHeld3_eq (c : Dev nD) (T : (pcfgs (F := F) 3).pre.Contents (Elt F)) :
    (Pipeline.prefHeld (Ix := Unit) (Name := ℕ) (U := UU nD τ) (Lvl := ℕ) (pcfgs (F := F) 3).pre c (fun _ => fullShare) T : sProp (MM F))
      = iprop(((c : Thread nD τ).loc main_arg5) ↦{fullShare} T 0) := by
  unfold Pipeline.prefHeld
  exact bigSep_W3 _
theorem prefHeld3_V (c : Dev nD) (V : (b : Ref sig .tc) → Buf (Elt F) ((c : Thread nD τ).loc b)) :
    (Pipeline.prefHeld (Ix := Unit) (Name := ℕ) (U := UU nD τ) (Lvl := ℕ) (pcfgs (F := F) 3).pre c (fun _ => fullShare)
        (fun k => V ((pcfgs (F := F) 3).pre.ref k)) : sProp (MM F))
      = iprop(((c : Thread nD τ).loc main_arg5) ↦{fullShare} V main_arg5) := prefHeld3_eq c _

theorem hF3 (c : Dev nD) (w : Fin (Pipeline.pin (pcfgs (F := F)) (adm m) 3).W) :
    (pdats m 3 c).arrAt w (Pipeline.pin (pcfgs (F := F)) (adm m) 3).N
      = V4 m (outs m) c (Pipeline.arrRef (Pipeline.pin (pcfgs (F := F)) (adm m) 3).spec w) :=
  match w with
  | ⟨0, _⟩ => ((Function.update_self (Proc.devRef .tc main_v3 : DevRef τ sig) (outs m 4 main_v3 c) (V3 m (outs m) c)).trans (outs_v3 m 4 c)).symm
  | ⟨_ + 1, h⟩ => absurd h (Nat.not_lt.2 (Nat.le_add_left _ _))
theorem hrest3 (c : Dev nD) : ∀ b, b ∉ Finset.univ.image (Pipeline.arrRef (Pipeline.pin (pcfgs (F := F)) (adm m) 3).spec)
    → V4 m (outs m) c b = V3 m (outs m) c b :=
  fun b hb => V4_of m (outs m) c b fun h => hb (Finset.mem_image.mpr ⟨0, Finset.mem_univ _, (List.mem_singleton.mp h).symm⟩)

theorem hA3 (c : Dev nD) (w : Fin (Pipeline.pin (pcfgs (F := F)) (adm m) 3).W) :
    (pdats m 3 c).A w = V3 m (outs m) c (Pipeline.arrRef (Pipeline.pin (pcfgs (F := F)) (adm m) 3).spec w) :=
  match w with
  | ⟨0, _⟩ => (V3_at m c main_v3 (by decide) (by decide) (by decide)).symm
  | ⟨_ + 1, h⟩ => absurd h (Nat.not_lt.2 (Nat.le_add_left _ _))

set_option backward.isDefEq.respectTransparency.types false in

def reg0 (hl : ∀ c : Dev nD, LensOk (W0 m c main_arg2)) :
    Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := Fin 2
  osem := osem0
  ho := ownSemFacts0
  hbody c := (body_obligation0 m c (hl c)).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop((((c : Thread nD τ).loc main_arg0) ↦{fullShare} V0 m c main_arg0) ∗ sems0_0 c)
  Y c := iprop((((c : Thread nD τ).loc main_arg0) ↦{fullShare} V0 m c main_arg0) ∗ (((c : Thread nD τ).loc main_arg2) ↦{fullShare} V0 m c main_arg2))
  Z c := iprop((((c : Thread nD τ).loc main_arg1) ↦{fullShare} V0 m c main_arg1)
    ∗ (((c : Thread nD τ).loc main_v1) ↦{fullShare} V0 m c main_v1)
    ∗ (((c : Thread nD τ).loc main_v2) ↦{fullShare} V0 m c main_v2)
    ∗ (((c : Thread nD τ).loc main_v3) ↦{fullShare} V0 m c main_v3)
    ∗ (((c : Thread nD τ).loc main_arg3) ↦{fullShare} V0 m c main_arg3)
    ∗ (((c : Thread nD τ).loc main_arg4) ↦{fullShare} V0 m c main_arg4)
    ∗ (((c : Thread nD τ).loc main_arg5) ↦{fullShare} V0 m c main_arg5))
  hentry c := by
    obtain rfl : c = 0 := Subsingleton.elim c 0
    rw [ownSems0_eq0, prefHeld0_eq]
    have hsplit := ((Entails.of_eq (Pipeline.unscopedBufs_held (Ix := Unit) (Name := ℕ) (U := UU nD τ) (Lvl := ℕ) 0 (V0 m 0)).symm).trans
      (Pipeline.arrays_of_unscopedBufs (p := 0) (pcfgs (F := F)) (adm m) (pdats m) (launch0 (F := F)).win (launch0 (F := F)).arr_whole 0
        ((pdats m 0 0).share_full fun _ => rfl) (fun b => V0 m 0 b) (hA0 m 0))).trans
      (sep_mono_right ((Entails.of_eq (Pipeline.unscopedRest_split (launch0 (F := F)).pre 0 (fun b => V0 m 0 b))).trans
        (BIClass.sep_mono (Entails.of_eq (prefHeld0_V 0 (fun b => V0 m 0 b))) (Entails.of_eq (unscopedRestP0_eq 0 (fun b => V0 m 0 b))))))
    have ht : (((((0 : Dev nD) : Thread nD τ).loc main_arg2) ↦{fullShare} V0 m 0 main_arg2) : sProp (MM F)) ⊢ iprop((((0 : Dev nD) : Thread nD τ).loc main_arg2) ↦{fullShare} (adm m 0).1 0) :=
      BIBase.Entails.rfl
    iintro ⟨⟨Hub, HO⟩, Hos, -⟩
    ihave H := hsplit $$ Hub
    icases H with ⟨Ha, Ht, H_arg0, H_arg1, H_v1, H_v2, H_v3, H_arg3, H_arg4, H_arg5⟩
    ihave Ht' := ht $$ Ht
    imodintro
    iframe Ha Ht'
    isplitl [HO]
    · unfold Pipeline.Dat.owesAt Pipeline.owesWithin
      icases HO with ⟨%W, HO⟩; iexists W; isplitr; · ipureintro; exact fun _ _ => Or.inl trivial
      iexact HO
    iframe
  hin c := by
    obtain rfl : c = 0 := Subsingleton.elim c 0
    rw [show (pdats m 0 0).Φ 0 = Φ0 m 0 from rfl, prefHeld0_eq]; unfold Φ0
    iintro ⟨⟨HA, Hos⟩, Ht, Hr⟩
    iframe
    iexact Ht
  hout c := by
    rw [ownSems0_eq0, show (pdats m 0 c).Φ (Fin.last _) = Φ0 m c from rfl]; unfold Φ0
    iintro ⟨HA, Ht, Hos, Hr⟩
    iframe
  hexit c := by
    have hjoin := ((sep_mono_right ((BIClass.sep_mono (Entails.of_eq (prefHeld0_V c (fun b => V0 m c b)).symm) (Entails.of_eq (unscopedRestP0_eq c (fun b => V0 m c b)).symm)).trans
        (Entails.of_eq (Pipeline.unscopedRest_split (Ix := Unit) (Name := ℕ) (U := UU nD τ) (Lvl := ℕ) (launch0 (F := F)).pre c (fun b => V0 m c b)).symm))).trans
      (Pipeline.unscopedBufs_of_arrays (p := 0) (pcfgs (F := F)) (adm m) (Ix := Unit) (Name := ℕ) (U := UU nD τ) (Lvl := ℕ)
        (launch0 (F := F)).win (launch0 (F := F)).arr_whole c (pdats m) ((pdats m 0 c).share_full fun _ => rfl)
        (fun b => V0 m c b) (fun b => V1 m (outs m) c b) ((pdats m 0 c).arrAt · (Pipeline.pin (pcfgs (F := F)) (adm m) 0).N) (hF0 m c) (hrest0 m c))).trans
      (Entails.of_eq (Pipeline.unscopedBufs_held (Ix := Unit) (Name := ℕ) (U := UU nD τ) (Lvl := ℕ) c (V1 m (outs m) c)))
    iintro ⟨Ha, HO, ⟨H_arg0, Ht⟩, H_arg1, H_v1, H_v2, H_v3, H_arg3, H_arg4, H_arg5⟩
    imodintro
    isplitr [HO]
    · iapply hjoin; iframe
    · unfold Pipeline.Dat.owesAt Pipeline.owesWithin
      icases HO with ⟨%W, -, HO⟩; iexists W; iexact HO

set_option backward.isDefEq.respectTransparency.types false in

def reg1 (hs : ∀ c : Dev nD, SpansOk (W0 m c main_arg3)) :
    Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 4
  osem := osem1
  ho := ownSemFacts1
  hbody c := (body_obligation1 m c (hs c)).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop((((c : Thread nD τ).loc main_arg1) ↦{fullShare} V1 m (outs m) c main_arg1) ∗ sems0_1 c)
  Y c := iprop((((c : Thread nD τ).loc main_arg1) ↦{fullShare} V1 m (outs m) c main_arg1) ∗ (((c : Thread nD τ).loc main_arg3) ↦{fullShare} V1 m (outs m) c main_arg3))
  Z c := iprop((((c : Thread nD τ).loc main_arg0) ↦{fullShare} V1 m (outs m) c main_arg0)
    ∗ (((c : Thread nD τ).loc main_v0) ↦{fullShare} V1 m (outs m) c main_v0)
    ∗ (((c : Thread nD τ).loc main_v2) ↦{fullShare} V1 m (outs m) c main_v2)
    ∗ (((c : Thread nD τ).loc main_v3) ↦{fullShare} V1 m (outs m) c main_v3)
    ∗ (((c : Thread nD τ).loc main_arg2) ↦{fullShare} V1 m (outs m) c main_arg2)
    ∗ (((c : Thread nD τ).loc main_arg4) ↦{fullShare} V1 m (outs m) c main_arg4)
    ∗ (((c : Thread nD τ).loc main_arg5) ↦{fullShare} V1 m (outs m) c main_arg5))
  hentry c := by
    obtain rfl : c = 0 := Subsingleton.elim c 0
    rw [ownSems0_eq1, prefHeld1_eq]
    have hsplit := ((Entails.of_eq (Pipeline.unscopedBufs_held (Ix := Unit) (Name := ℕ) (U := UU nD τ) (Lvl := ℕ) 0 (V1 m (outs m) 0)).symm).trans
      (Pipeline.arrays_of_unscopedBufs (p := 1) (pcfgs (F := F)) (adm m) (pdats m) (launch1 (F := F)).win (launch1 (F := F)).arr_whole 0
        ((pdats m 1 0).share_full fun _ => rfl) (fun b => V1 m (outs m) 0 b) (hA1 m 0))).trans
      (sep_mono_right ((Entails.of_eq (Pipeline.unscopedRest_split (launch1 (F := F)).pre 0 (fun b => V1 m (outs m) 0 b))).trans
        (BIClass.sep_mono (Entails.of_eq (prefHeld1_V 0 (fun b => V1 m (outs m) 0 b))) (Entails.of_eq (unscopedRestP1_eq 0 (fun b => V1 m (outs m) 0 b))))))
    have ht : (((((0 : Dev nD) : Thread nD τ).loc main_arg3) ↦{fullShare} V1 m (outs m) 0 main_arg3) : sProp (MM F)) ⊢ iprop((((0 : Dev nD) : Thread nD τ).loc main_arg3) ↦{fullShare} (adm m 1).1 0) :=
      Entails.of_eq (by rw [V1_at m 0 main_arg3 (by decide)]; rfl)
    iintro ⟨⟨Hub, HO⟩, Hos, -⟩
    ihave H := hsplit $$ Hub
    icases H with ⟨Ha, Ht, H_arg0, H_arg1, H_v0, H_v2, H_v3, H_arg2, H_arg4, H_arg5⟩
    ihave Ht' := ht $$ Ht
    imodintro
    iframe Ha Ht'
    isplitl [HO]
    · unfold Pipeline.Dat.owesAt Pipeline.owesWithin
      icases HO with ⟨%W, HO⟩; iexists W; isplitr; · ipureintro; exact fun _ _ => Or.inl trivial
      iexact HO
    iframe
  hin c := by
    obtain rfl : c = 0 := Subsingleton.elim c 0
    rw [show (pdats m 1 0).Φ 0 = Φ1 m 0 from rfl, prefHeld1_eq]; unfold Φ1
    rw [V1_at m 0 main_arg1 (by decide)]
    iintro ⟨⟨HA, Hos⟩, Ht, Hr⟩
    iframe
    iexact Ht
  hout c := by
    rw [ownSems0_eq1, show (pdats m 1 c).Φ (Fin.last _) = Φ1 m c from rfl]; unfold Φ1
    rw [V1_at m c main_arg1 (by decide), V1_at m c main_arg3 (by decide)]
    iintro ⟨HA, Ht, Hos, Hr⟩
    iframe
  hexit c := by
    have hjoin := ((sep_mono_right ((BIClass.sep_mono (Entails.of_eq (prefHeld1_V c (fun b => V1 m (outs m) c b)).symm) (Entails.of_eq (unscopedRestP1_eq c (fun b => V1 m (outs m) c b)).symm)).trans
        (Entails.of_eq (Pipeline.unscopedRest_split (Ix := Unit) (Name := ℕ) (U := UU nD τ) (Lvl := ℕ) (launch1 (F := F)).pre c (fun b => V1 m (outs m) c b)).symm))).trans
      (Pipeline.unscopedBufs_of_arrays (p := 1) (pcfgs (F := F)) (adm m) (Ix := Unit) (Name := ℕ) (U := UU nD τ) (Lvl := ℕ)
        (launch1 (F := F)).win (launch1 (F := F)).arr_whole c (pdats m) ((pdats m 1 c).share_full fun _ => rfl)
        (fun b => V1 m (outs m) c b) (fun b => V2 m (outs m) c b) ((pdats m 1 c).arrAt · (Pipeline.pin (pcfgs (F := F)) (adm m) 1).N) (hF1 m c) (hrest1 m c))).trans
      (Entails.of_eq (Pipeline.unscopedBufs_held (Ix := Unit) (Name := ℕ) (U := UU nD τ) (Lvl := ℕ) c (V2 m (outs m) c)))
    iintro ⟨Ha, HO, ⟨H_arg1, Ht⟩, H_arg0, H_v0, H_v2, H_v3, H_arg2, H_arg4, H_arg5⟩
    imodintro
    isplitr [HO]
    · iapply hjoin; iframe
    · unfold Pipeline.Dat.owesAt Pipeline.owesWithin
      icases HO with ⟨%W, -, HO⟩; iexists W; iexact HO

set_option backward.isDefEq.respectTransparency.types false in

def reg2 (hs : ∀ c : Dev nD, SpansOk (W0 m c main_arg4)) :
    Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := Fin 4
  osem := osem2
  ho := ownSemFacts2
  hbody c := (body_obligation2 m c (hs c)).loose
  hwaits := Pipeline.hwaits_of_owed_zero _ _ _ _ L lv 2 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop((((c : Thread nD τ).loc main_arg1) ↦{fullShare} V2 m (outs m) c main_arg1) ∗ sems0_2 c)
  Y c := iprop((((c : Thread nD τ).loc main_arg1) ↦{fullShare} V2 m (outs m) c main_arg1) ∗ (((c : Thread nD τ).loc main_arg4) ↦{fullShare} V2 m (outs m) c main_arg4))
  Z c := iprop((((c : Thread nD τ).loc main_arg0) ↦{fullShare} V2 m (outs m) c main_arg0)
    ∗ (((c : Thread nD τ).loc main_v0) ↦{fullShare} V2 m (outs m) c main_v0)
    ∗ (((c : Thread nD τ).loc main_v1) ↦{fullShare} V2 m (outs m) c main_v1)
    ∗ (((c : Thread nD τ).loc main_v3) ↦{fullShare} V2 m (outs m) c main_v3)
    ∗ (((c : Thread nD τ).loc main_arg2) ↦{fullShare} V2 m (outs m) c main_arg2)
    ∗ (((c : Thread nD τ).loc main_arg3) ↦{fullShare} V2 m (outs m) c main_arg3)
    ∗ (((c : Thread nD τ).loc main_arg5) ↦{fullShare} V2 m (outs m) c main_arg5))
  hentry c := by
    obtain rfl : c = 0 := Subsingleton.elim c 0
    rw [ownSems0_eq2, prefHeld2_eq]
    have hsplit := ((Entails.of_eq (Pipeline.unscopedBufs_held (Ix := Unit) (Name := ℕ) (U := UU nD τ) (Lvl := ℕ) 0 (V2 m (outs m) 0)).symm).trans
      (Pipeline.arrays_of_unscopedBufs (p := 2) (pcfgs (F := F)) (adm m) (pdats m) (launch2 (F := F)).win (launch2 (F := F)).arr_whole 0
        ((pdats m 2 0).share_full fun _ => rfl) (fun b => V2 m (outs m) 0 b) (hA2 m 0))).trans
      (sep_mono_right ((Entails.of_eq (Pipeline.unscopedRest_split (launch2 (F := F)).pre 0 (fun b => V2 m (outs m) 0 b))).trans
        (BIClass.sep_mono (Entails.of_eq (prefHeld2_V 0 (fun b => V2 m (outs m) 0 b))) (Entails.of_eq (unscopedRestP2_eq 0 (fun b => V2 m (outs m) 0 b))))))
    have ht : (((((0 : Dev nD) : Thread nD τ).loc main_arg4) ↦{fullShare} V2 m (outs m) 0 main_arg4) : sProp (MM F)) ⊢ iprop((((0 : Dev nD) : Thread nD τ).loc main_arg4) ↦{fullShare} (adm m 2).1 0) :=
      Entails.of_eq (by rw [V2_at m 0 main_arg4 (by decide) (by decide)]; rfl)
    iintro ⟨⟨Hub, HO⟩, Hos, -⟩
    ihave H := hsplit $$ Hub
    icases H with ⟨Ha, Ht, H_arg0, H_arg1, H_v0, H_v1, H_v3, H_arg2, H_arg3, H_arg5⟩
    ihave Ht' := ht $$ Ht
    imodintro
    iframe Ha Ht'
    isplitl [HO]
    · unfold Pipeline.Dat.owesAt Pipeline.owesWithin
      icases HO with ⟨%W, HO⟩; iexists W; isplitr; · ipureintro; exact fun _ _ => Or.inl trivial
      iexact HO
    iframe
  hin c := by
    obtain rfl : c = 0 := Subsingleton.elim c 0
    rw [show (pdats m 2 0).Φ 0 = Φ2 m 0 from rfl, prefHeld2_eq]; unfold Φ2
    rw [V2_at m 0 main_arg1 (by decide) (by decide)]
    iintro ⟨⟨HA, Hos⟩, Ht, Hr⟩
    iframe
    iexact Ht
  hout c := by
    rw [ownSems0_eq2, show (pdats m 2 c).Φ (Fin.last _) = Φ2 m c from rfl]; unfold Φ2
    rw [V2_at m c main_arg1 (by decide) (by decide), V2_at m c main_arg4 (by decide) (by decide)]
    iintro ⟨HA, Ht, Hos, Hr⟩
    iframe
  hexit c := by
    have hjoin := ((sep_mono_right ((BIClass.sep_mono (Entails.of_eq (prefHeld2_V c (fun b => V2 m (outs m) c b)).symm) (Entails.of_eq (unscopedRestP2_eq c (fun b => V2 m (outs m) c b)).symm)).trans
        (Entails.of_eq (Pipeline.unscopedRest_split (Ix := Unit) (Name := ℕ) (U := UU nD τ) (Lvl := ℕ) (launch2 (F := F)).pre c (fun b => V2 m (outs m) c b)).symm))).trans
      (Pipeline.unscopedBufs_of_arrays (p := 2) (pcfgs (F := F)) (adm m) (Ix := Unit) (Name := ℕ) (U := UU nD τ) (Lvl := ℕ)
        (launch2 (F := F)).win (launch2 (F := F)).arr_whole c (pdats m) ((pdats m 2 c).share_full fun _ => rfl)
        (fun b => V2 m (outs m) c b) (fun b => V3 m (outs m) c b) ((pdats m 2 c).arrAt · (Pipeline.pin (pcfgs (F := F)) (adm m) 2).N) (hF2 m c) (hrest2 m c))).trans
      (Entails.of_eq (Pipeline.unscopedBufs_held (Ix := Unit) (Name := ℕ) (U := UU nD τ) (Lvl := ℕ) c (V3 m (outs m) c)))
    iintro ⟨Ha, HO, ⟨H_arg1, Ht⟩, H_arg0, H_v0, H_v1, H_v3, H_arg2, H_arg3, H_arg5⟩
    imodintro
    isplitr [HO]
    · iapply hjoin; iframe
    · unfold Pipeline.Dat.owesAt Pipeline.owesWithin
      icases HO with ⟨%W, -, HO⟩; iexists W; iexact HO

set_option backward.isDefEq.respectTransparency.types false in

def reg3 (hs : ∀ c : Dev nD, SpansOk (W0 m c main_arg5)) :
    Pipeline.RegionSeg (pcfgs (F := F)) (adm m) (pdats m) () defs₀ 𝒱₀ L lv 3 where
  win := (launch3 (F := F)).win.to₀
  block_pos := (launch3 (F := F)).block_pos
  stage_whole := (launch3 (F := F)).stage_whole
  K := Fin 4
  osem := osem3
  ho := ownSemFacts3
  hbody c := (body_obligation3 m c (hs c)).loose
  hwaits := Pipeline.hwaits_of_owed_zero _ _ _ _ L lv 3 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop((((c : Thread nD τ).loc main_arg1) ↦{fullShare} V3 m (outs m) c main_arg1) ∗ sems0_3 c)
  Y c := iprop((((c : Thread nD τ).loc main_arg1) ↦{fullShare} V3 m (outs m) c main_arg1) ∗ (((c : Thread nD τ).loc main_arg5) ↦{fullShare} V3 m (outs m) c main_arg5))
  Z c := iprop((((c : Thread nD τ).loc main_arg0) ↦{fullShare} V3 m (outs m) c main_arg0)
    ∗ (((c : Thread nD τ).loc main_v0) ↦{fullShare} V3 m (outs m) c main_v0)
    ∗ (((c : Thread nD τ).loc main_v1) ↦{fullShare} V3 m (outs m) c main_v1)
    ∗ (((c : Thread nD τ).loc main_v2) ↦{fullShare} V3 m (outs m) c main_v2)
    ∗ (((c : Thread nD τ).loc main_arg2) ↦{fullShare} V3 m (outs m) c main_arg2)
    ∗ (((c : Thread nD τ).loc main_arg3) ↦{fullShare} V3 m (outs m) c main_arg3)
    ∗ (((c : Thread nD τ).loc main_arg4) ↦{fullShare} V3 m (outs m) c main_arg4))
  hentry c := by
    obtain rfl : c = 0 := Subsingleton.elim c 0
    rw [ownSems0_eq3, prefHeld3_eq]
    have hsplit := ((Entails.of_eq (Pipeline.unscopedBufs_held (Ix := Unit) (Name := ℕ) (U := UU nD τ) (Lvl := ℕ) 0 (V3 m (outs m) 0)).symm).trans
      (Pipeline.arrays_of_unscopedBufs (p := 3) (pcfgs (F := F)) (adm m) (pdats m) (launch3 (F := F)).win (launch3 (F := F)).arr_whole 0
        ((pdats m 3 0).share_full fun _ => rfl) (fun b => V3 m (outs m) 0 b) (hA3 m 0))).trans
      (sep_mono_right ((Entails.of_eq (Pipeline.unscopedRest_split (launch3 (F := F)).pre 0 (fun b => V3 m (outs m) 0 b))).trans
        (BIClass.sep_mono (Entails.of_eq (prefHeld3_V 0 (fun b => V3 m (outs m) 0 b))) (Entails.of_eq (unscopedRestP3_eq 0 (fun b => V3 m (outs m) 0 b))))))
    have ht : (((((0 : Dev nD) : Thread nD τ).loc main_arg5) ↦{fullShare} V3 m (outs m) 0 main_arg5) : sProp (MM F)) ⊢ iprop((((0 : Dev nD) : Thread nD τ).loc main_arg5) ↦{fullShare} (adm m 3).1 0) :=
      Entails.of_eq (by rw [V3_at m 0 main_arg5 (by decide) (by decide) (by decide)]; rfl)
    iintro ⟨⟨Hub, HO⟩, Hos, -⟩
    ihave H := hsplit $$ Hub
    icases H with ⟨Ha, Ht, H_arg0, H_arg1, H_v0, H_v1, H_v2, H_arg2, H_arg3, H_arg4⟩
    ihave Ht' := ht $$ Ht
    imodintro
    iframe Ha Ht'
    isplitl [HO]
    · unfold Pipeline.Dat.owesAt Pipeline.owesWithin
      icases HO with ⟨%W, HO⟩; iexists W; isplitr; · ipureintro; exact fun _ _ => Or.inl trivial
      iexact HO
    iframe
  hin c := by
    obtain rfl : c = 0 := Subsingleton.elim c 0
    rw [show (pdats m 3 0).Φ 0 = Φ3 m 0 from rfl, prefHeld3_eq]; unfold Φ3
    rw [V3_at m 0 main_arg1 (by decide) (by decide) (by decide)]
    iintro ⟨⟨HA, Hos⟩, Ht, Hr⟩
    iframe
    iexact Ht
  hout c := by
    rw [ownSems0_eq3, show (pdats m 3 c).Φ (Fin.last _) = Φ3 m c from rfl]; unfold Φ3
    rw [V3_at m c main_arg1 (by decide) (by decide) (by decide), V3_at m c main_arg5 (by decide) (by decide) (by decide)]
    iintro ⟨HA, Ht, Hos, Hr⟩
    iframe
  hexit c := by
    have hjoin := ((sep_mono_right ((BIClass.sep_mono (Entails.of_eq (prefHeld3_V c (fun b => V3 m (outs m) c b)).symm) (Entails.of_eq (unscopedRestP3_eq c (fun b => V3 m (outs m) c b)).symm)).trans
        (Entails.of_eq (Pipeline.unscopedRest_split (Ix := Unit) (Name := ℕ) (U := UU nD τ) (Lvl := ℕ) (launch3 (F := F)).pre c (fun b => V3 m (outs m) c b)).symm))).trans
      (Pipeline.unscopedBufs_of_arrays (p := 3) (pcfgs (F := F)) (adm m) (Ix := Unit) (Name := ℕ) (U := UU nD τ) (Lvl := ℕ)
        (launch3 (F := F)).win (launch3 (F := F)).arr_whole c (pdats m) ((pdats m 3 c).share_full fun _ => rfl)
        (fun b => V3 m (outs m) c b) (fun b => V4 m (outs m) c b) ((pdats m 3 c).arrAt · (Pipeline.pin (pcfgs (F := F)) (adm m) 3).N) (hF3 m c) (hrest3 m c))).trans
      (Entails.of_eq (Pipeline.unscopedBufs_held (Ix := Unit) (Name := ℕ) (U := UU nD τ) (Lvl := ℕ) c (V4 m (outs m) c)))
    iintro ⟨Ha, HO, ⟨H_arg1, Ht⟩, H_arg0, H_v0, H_v1, H_v2, H_arg2, H_arg3, H_arg4⟩
    imodintro
    isplitr [HO]
    · iapply hjoin; iframe
    · unfold Pipeline.Dat.owesAt Pipeline.owesWithin
      icases HO with ⟨%W, -, HO⟩; iexists W; iexact HO

theorem V4_main_v3 (c : Dev nD) : V4 m (outs m) c main_v3 = final3 m c :=
  (Function.update_self (Proc.devRef .tc main_v3 : DevRef τ sig) (outs m 4 main_v3 c) (V3 m (outs m) c)).trans (outs_v3 m 4 c)
theorem V4_main_v2 (c : Dev nD) : V4 m (outs m) c main_v2 = final2 m c :=
  (V4_of m (outs m) c main_v2 (by decide)).trans <|
    (Function.update_self (Proc.devRef .tc main_v2 : DevRef τ sig) (outs m 3 main_v2 c) (V2 m (outs m) c)).trans (outs_v2 m 3 c)
theorem V4_main_v1 (c : Dev nD) : V4 m (outs m) c main_v1 = final1 m c :=
  (V4_of m (outs m) c main_v1 (by decide)).trans <| (V3_of m (outs m) c main_v1 (by decide)).trans <|
    (Function.update_self (Proc.devRef .tc main_v1 : DevRef τ sig) (outs m 2 main_v1 c) (V1 m (outs m) c)).trans (outs_v1 m 2 c)
theorem V4_main_v0 (c : Dev nD) : V4 m (outs m) c main_v0 = final0 m c :=
  (V4_of m (outs m) c main_v0 (by decide)).trans <| (V3_of m (outs m) c main_v0 (by decide)).trans <| (V2_of m (outs m) c main_v0 (by decide)).trans <|
    (Function.update_self (Proc.devRef .tc main_v0 : DevRef τ sig) (outs m 1 main_v0 c) (V0 m c)).trans (outs_v0 m 1 c)

def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

set_option backward.isDefEq.respectTransparency.types false in

theorem run_main (hl : ∀ c : Dev nD, LensOk (W0 m c main_arg2)) (h3 : ∀ c : Dev nD, SpansOk (W0 m c main_arg3))
    (h4 : ∀ c : Dev nD, SpansOk (W0 m c main_arg4)) (h5 : ∀ c : Dev nD, SpansOk (W0 m c main_arg5)) :
    θ_run (defs (F := F)) (onTc (τ := τ) (main (F := F))) ⟨m, fun _ => 0, ρ⟩ (fun r => ∀ c : Dev nD,
      r.2.mem ((c.tc : Thread nD τ).loc main_v0) = final0 m c
      ∧ r.2.mem ((c.tc : Thread nD τ).loc main_v1) = final1 m c
      ∧ r.2.mem ((c.tc : Thread nD τ).loc main_v2) = final2 m c
      ∧ r.2.mem ((c.tc : Thread nD τ).loc main_v3) = final3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) (adm m) (pdats m) () (cellOf_inj (adm m)) EP defs₀ 𝒱₀ L lv m ρ main
    [.region (reg0 m hl), .region (reg1 m h3), .region (reg2 m h4), .region (reg3 m h5)]
    (fun c Q => by rw [main_segs (adm m) (pdats m) () 𝒱₀ L lv (reg0 m hl) (reg1 m h3) (reg2 m h4) (reg3 m h5) c])
    (by simp only [Pipeline.Seg.pipes_host, Pipeline.Seg.pipes_region, Pipeline.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V4 m (outs m) c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s =>
      s.mem ((c.tc : Thread nD τ).loc main_v0) = final0 m c
      ∧ s.mem ((c.tc : Thread nD τ).loc main_v1) = final1 m c
      ∧ s.mem ((c.tc : Thread nD τ).loc main_v2) = final2 m c
      ∧ s.mem ((c.tc : Thread nD τ).loc main_v3) = final3 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => by
      unfold StableHlo.held
      iintro ⟨Hh, HSI⟩
      ihave Hr := (pointsTo_read_all (Pipeline.ucRefs τ sig) (fun b => ((c : Thread nD τ).1, b)) (V4 m (outs m) c) s') $$ [Hh HSI]
      · isplitl [Hh] <;> iassumption
      icases Hr with ⟨%h, HSI⟩
      imodintro
      isplitr
      · ipureintro
        exact ⟨(h (Proc.devRef .tc main_v0) (Finset.mem_filter.mpr ⟨StableHlo.devRef_mem_tcRefs main_v0, by decide⟩)).trans (V4_main_v0 m c),
          (h (Proc.devRef .tc main_v1) (Finset.mem_filter.mpr ⟨StableHlo.devRef_mem_tcRefs main_v1, by decide⟩)).trans (V4_main_v1 m c),
          (h (Proc.devRef .tc main_v2) (Finset.mem_filter.mpr ⟨StableHlo.devRef_mem_tcRefs main_v2, by decide⟩)).trans (V4_main_v2 m c),
          (h (Proc.devRef .tc main_v3) (Finset.mem_filter.mpr ⟨StableHlo.devRef_mem_tcRefs main_v3, by decide⟩)).trans (V4_main_v3 m c),
          (h (Proc.devRef .tc main_arg0) (Finset.mem_filter.mpr ⟨StableHlo.devRef_mem_tcRefs main_arg0, by decide⟩)).trans (V4_main_arg0 m (outs m) c),
          (h (Proc.devRef .tc main_arg1) (Finset.mem_filter.mpr ⟨StableHlo.devRef_mem_tcRefs main_arg1, by decide⟩)).trans (V4_main_arg1 m (outs m) c),
          (h (Proc.devRef .tc main_arg2) (Finset.mem_filter.mpr ⟨StableHlo.devRef_mem_tcRefs main_arg2, by decide⟩)).trans (V4_main_arg2 m (outs m) c),
          (h (Proc.devRef .tc main_arg3) (Finset.mem_filter.mpr ⟨StableHlo.devRef_mem_tcRefs main_arg3, by decide⟩)).trans (V4_main_arg3 m (outs m) c),
          (h (Proc.devRef .tc main_arg4) (Finset.mem_filter.mpr ⟨StableHlo.devRef_mem_tcRefs main_arg4, by decide⟩)).trans (V4_main_arg4 m (outs m) c),
          (h (Proc.devRef .tc main_arg5) (Finset.mem_filter.mpr ⟨StableHlo.devRef_mem_tcRefs main_arg5, by decide⟩)).trans (V4_main_arg5 m (outs m) c)⟩
      · iexact HSI)
    (hQ := fun _ h => h)

end Cert.Proof.KB

end
-- ==== Proof.RefValue.lean ====
import proofs.«409333_j59115929862503_1_alg».proof.Proof.KI.Common
import proofs.«409333_j59115929862503_1_alg».proof.Proof.Gen.ReferenceIdeal.Run
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws

noncomputable section

namespace Cert.Proof.RefValue

open Idealize.ShloMosaic Idealize.ShloMosaic.TcCoe Idealize.SL.Sem
open Idealize.ShloMosaic.ValueIdx
open Cert.ReferenceIdeal
open Cert.Proof.KI (topicBlk diffArr LensOk SpansOk)

theorem wrap_word (w N : BitVec 32) (hw : w.toNat < 2 ^ 31) :
    Scalar.select (IntOp.cmpi .slt w 0#32) (IntOp.addi w N) w = w := by
  have h : ¬ IntOp.cmpi .slt w 0#32 = 1#1 := by
    rw [StableHlo.Predicate.slt_iff_toNat hw (by decide)]; simp
  rw [eq_zero_of_ne_one h, select_zero]

theorem clamp_word (w : BitVec 32) (n : Nat) (hw : w.toNat ≤ n) (hn : n < 2 ^ 31) :
    min w.toInt.toNat n = w.toNat := by
  rw [StableHlo.Predicate.toInt_eq_toNat_of_lt (by omega)]
  simp only [Int.toNat_natCast]
  omega

theorem toNat_sub_one (w : BitVec 32) (h : 1 ≤ w.toNat) : (IntOp.subi w 1#32).toNat = w.toNat - 1 := by
  show (w - 1#32).toNat = _
  have := w.isLt
  rw [BitVec.toNat_sub]
  simp only [BitVec.toNat_ofNat]
  omega

theorem toNat_add_one (w : BitVec 32) (h : w.toNat < 2 ^ 31) : (IntOp.addi w 1#32).toNat = w.toNat + 1 := by
  show (w + 1#32).toNat = _
  rw [BitVec.toNat_add]
  simp only [BitVec.toNat_ofNat]
  omega

section Gather
variable [Facts₀] {α : Type}

theorem gatherB_apply (x : S16x2048x512.Idx → α) (idx : IVec S16x64x2 32) (j : S16x64x512.Idx) :
    Host.gather gather_S16x2048x512_S16x64x2_S16x64x512_2_01_n_n_01_2_11512 x idx j
      = x (ix3 (⟨min (idx (ix3 (j 0) (j 1) (0 : Fin 2))).toInt.toNat 15, by omega⟩ : Fin 16)
               (⟨min (idx (ix3 (j 0) (j 1) (1 : Fin 2))).toInt.toNat 2047, by omega⟩ : Fin 2048) (j 2)) := by
  unfold Host.gather
  congr 1
  funext a
  refine Fin.ext ?_
  match a with
  | ⟨0, h0⟩ =>
    show GatherDims.start _ j idx ⟨0, h0⟩ + GatherDims.batchCoord _ j ⟨0, h0⟩ + GatherDims.offCoord _ j ⟨0, h0⟩ = _
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (⟨0, h0⟩ : Fin S16x2048x512.rank) ∈ gather_S16x2048x512_S16x64x2_S16x64x512_2_01_n_n_01_2_11512.startIndexMap from List.mem_cons_self)]
    have hsi : gather_S16x2048x512_S16x64x2_S16x64x512_2_01_n_n_01_2_11512.siIdx j
        ⟨List.idxOf (⟨0, h0⟩ : Fin S16x2048x512.rank) gather_S16x2048x512_S16x64x2_S16x64x512_2_01_n_n_01_2_11512.startIndexMap,
          List.idxOf_lt_length_iff.2 List.mem_cons_self⟩ = ix3 (j 0) (j 1) (0 : Fin 2) := by
      funext b; refine Fin.ext ?_
      match b with
      | ⟨0, _⟩ => rfl
      | ⟨1, _⟩ => rfl
      | ⟨2, _⟩ => rfl
    rw [hsi]
    rfl
  | ⟨1, h1⟩ =>
    show GatherDims.start _ j idx ⟨1, h1⟩ + GatherDims.batchCoord _ j ⟨1, h1⟩ + GatherDims.offCoord _ j ⟨1, h1⟩ = _
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos (show (⟨1, h1⟩ : Fin S16x2048x512.rank) ∈ gather_S16x2048x512_S16x64x2_S16x64x512_2_01_n_n_01_2_11512.startIndexMap from List.mem_cons_of_mem _ List.mem_cons_self)]
    have hsi : gather_S16x2048x512_S16x64x2_S16x64x512_2_01_n_n_01_2_11512.siIdx j
        ⟨List.idxOf (⟨1, h1⟩ : Fin S16x2048x512.rank) gather_S16x2048x512_S16x64x2_S16x64x512_2_01_n_n_01_2_11512.startIndexMap,
          List.idxOf_lt_length_iff.2 (List.mem_cons_of_mem _ List.mem_cons_self)⟩ = ix3 (j 0) (j 1) (1 : Fin 2) := by
      funext b; refine Fin.ext ?_
      match b with
      | ⟨0, _⟩ => rfl
      | ⟨1, _⟩ => rfl
      | ⟨2, _⟩ => rfl
    rw [hsi]
    rfl
  | ⟨2, h2⟩ =>
    show GatherDims.start _ j idx ⟨2, h2⟩ + GatherDims.batchCoord _ j ⟨2, h2⟩ + GatherDims.offCoord _ j ⟨2, h2⟩ = _
    have hns : (⟨2, h2⟩ : Fin S16x2048x512.rank) ∉ gather_S16x2048x512_S16x64x2_S16x64x512_2_01_n_n_01_2_11512.startIndexMap := by
      show ¬ ((⟨2, h2⟩ : Fin 3) ∈ ([0, 1] : List (Fin 3)))
      intro h
      simp [Fin.ext_iff] at h
    rw [GatherDims.batchCoord_eq_zero _ _ _ List.not_mem_nil]
    unfold GatherDims.start
    rw [dif_neg hns]
    simp only [Nat.add_zero, Nat.zero_add]
    rfl

end Gather

section Reads
variable {α : Type}

theorem col_apply (sp : S16x64x3.Idx → α) (o : Nat) (ho : o < 3) (hs : S16x64x3.Slices ![0, 0, o] S16x64x1)
    (hc : S16x64x1.ShapeCasts S16x64) (b : Fin 16) (n : Fin 64) :
    shapeCast S16x64 (extractStridedSlice S16x64x1 ![0, 0, o] sp hs) hc (ix2 b n) = sp (ix3 b n ⟨o, ho⟩) := by
  rw [shapeCast_apply _ hc (ix2 b n) (ix3 b n (0 : Fin 1)) (by
    rw [Shape.rowMajor_val_three, Shape.rowMajor_val_two]
    show (b.val * 64 + n.val) * 1 + 0 = b.val * 64 + n.val
    omega)]
  exact extractStridedSlice_apply _ sp hs _ _ (fun a => match a with
    | ⟨0, _⟩ => by show b.val = 0 + b.val; omega
    | ⟨1, _⟩ => by show n.val = 0 + n.val; omega
    | ⟨2, _⟩ => by show o = o + 0; omega)

theorem half_apply (X : S16x2048x1024.Idx → α) (o : Nat) (ho : o + 512 ≤ 1024)
    (hs : S16x2048x1024.Slices ![0, 0, o] S16x2048x512) (e : Fin 16) (r : Fin 2048) (c : Fin 512) :
    extractStridedSlice S16x2048x512 ![0, 0, o] X hs (ix3 e r c) = X (ix3 e r (⟨o + c.val, by omega⟩ : Fin 1024)) :=
  extractStridedSlice_apply _ X hs _ _ (fun a => match a with
    | ⟨0, _⟩ => by show e.val = 0 + e.val; omega
    | ⟨1, _⟩ => by show r.val = 0 + r.val; omega
    | ⟨2, _⟩ => by show o + c.val = o + c.val; rfl)

theorem bc3_apply (A : S16x64.Idx → α) (h : S16x64.BroadcastsInDim S16x64x1 ![0, 1]) (b : Fin 16) (n : Fin 64) (u : Fin 1) :
    broadcastInDim S16x64x1 ![0, 1] h A (ix3 b n u) = A (ix2 b n) :=
  broadcastInDim_apply _ h A _ _ (fun a => match a with | ⟨0, _⟩ => rfl | ⟨1, _⟩ => rfl)

theorem pair0_apply (A B : S16x64x1.Idx → α) (h : Shape.Concatenates [S16x64x1, S16x64x1] S16x64x2 2) (b : Fin 16) (n : Fin 64) :
    concatenate S16x64x2 2 [⟨S16x64x1, A⟩, ⟨S16x64x1, B⟩] h (ix3 b n (0 : Fin 2)) = A (ix3 b n (0 : Fin 1)) :=
  concatenate_pair_apply_left 2 A B h _ rfl _ (fun a => match a with | ⟨0, _⟩ => rfl | ⟨1, _⟩ => rfl | ⟨2, _⟩ => rfl)

theorem pair1_apply (A B : S16x64x1.Idx → α) (h : Shape.Concatenates [S16x64x1, S16x64x1] S16x64x2 2) (b : Fin 16) (n : Fin 64) :
    concatenate S16x64x2 2 [⟨S16x64x1, A⟩, ⟨S16x64x1, B⟩] h (ix3 b n (1 : Fin 2)) = B (ix3 b n (0 : Fin 1)) :=
  concatenate_pair_apply_right 2 A B h _ rfl rfl _
    (fun a ha => match a, ha with | ⟨0, _⟩, _ => rfl | ⟨1, _⟩, _ => rfl | ⟨2, _⟩, ha => absurd rfl ha) rfl

theorem wrap_apply {s : Shape} (h : S_.BroadcastsInDim s ![]) (v : IVec s 32) (N : BitVec 32) (i : s.Idx)
    (hv : (v i).toNat < 2 ^ 31) :
    select (cmpi .slt v (broadcastInDim s ![] h (constantI S_ 32 0#32))) (addi v (broadcastInDim s ![] h (constantI S_ 32 N))) v i = v i := by
  show Scalar.select (IntOp.cmpi .slt (v i) (broadcastInDim s ![] h (constantI S_ 32 0#32) i))
    (IntOp.addi (v i) (broadcastInDim s ![] h (constantI S_ 32 N) i)) (v i) = v i
  rw [broadcastInDim_scalar_apply, broadcastInDim_scalar_apply]
  exact wrap_word _ _ hv

theorem cat4_apply (x0 x1 x2 x3 : S16x64x512.Idx → α)
    (h : Shape.Concatenates [S16x64x512, S16x64x512, S16x64x512, S16x64x512] S16x64x2048 2) (b : Fin 16) (n : Fin 64) (j : Fin 2048) :
    concatenate S16x64x2048 2 [⟨S16x64x512, x0⟩, ⟨S16x64x512, x1⟩, ⟨S16x64x512, x2⟩, ⟨S16x64x512, x3⟩] h (ix3 b n j)
      = if h0 : j.val < 512 then x0 (ix3 b n (⟨j.val, h0⟩ : Fin 512))
        else if h1 : j.val < 1024 then x1 (ix3 b n (⟨j.val - 512, by omega⟩ : Fin 512))
        else if h2 : j.val < 1536 then x2 (ix3 b n (⟨j.val - 1024, by omega⟩ : Fin 512))
        else x3 (ix3 b n (⟨j.val - 1536, by omega⟩ : Fin 512)) := by
  have hj := j.isLt
  split_ifs with h0 h1 h2
  · exact concatenate_apply_piece (t := S16x64x2048) 2 [⟨S16x64x512, x0⟩, ⟨S16x64x512, x1⟩, ⟨S16x64x512, x2⟩, ⟨S16x64x512, x3⟩] h (ix3 b n j) 0 (by simp) S16x64x512 x0 rfl rfl 0 rfl (ix3 b n (⟨j.val, h0⟩ : Fin 512))
      (fun a ha => match a, ha with | ⟨0, _⟩, _ => rfl | ⟨1, _⟩, _ => rfl | ⟨2, _⟩, ha => absurd rfl ha)
      (by show 0 + j.val = j.val; omega)
  · exact concatenate_apply_piece (t := S16x64x2048) 2 [⟨S16x64x512, x0⟩, ⟨S16x64x512, x1⟩, ⟨S16x64x512, x2⟩, ⟨S16x64x512, x3⟩] h (ix3 b n j) 1 (by simp) S16x64x512 x1 rfl rfl 512 rfl (ix3 b n (⟨j.val - 512, by omega⟩ : Fin 512))
      (fun a ha => match a, ha with | ⟨0, _⟩, _ => rfl | ⟨1, _⟩, _ => rfl | ⟨2, _⟩, ha => absurd rfl ha)
      (by show 512 + (j.val - 512) = j.val; omega)
  · exact concatenate_apply_piece (t := S16x64x2048) 2 [⟨S16x64x512, x0⟩, ⟨S16x64x512, x1⟩, ⟨S16x64x512, x2⟩, ⟨S16x64x512, x3⟩] h (ix3 b n j) 2 (by simp) S16x64x512 x2 rfl rfl 1024 rfl (ix3 b n (⟨j.val - 1024, by omega⟩ : Fin 512))
      (fun a ha => match a, ha with | ⟨0, _⟩, _ => rfl | ⟨1, _⟩, _ => rfl | ⟨2, _⟩, ha => absurd rfl ha)
      (by show 1024 + (j.val - 1024) = j.val; omega)
  · exact concatenate_apply_piece (t := S16x64x2048) 2 [⟨S16x64x512, x0⟩, ⟨S16x64x512, x1⟩, ⟨S16x64x512, x2⟩, ⟨S16x64x512, x3⟩] h (ix3 b n j) 3 (by simp) S16x64x512 x3 rfl rfl 1536 rfl (ix3 b n (⟨j.val - 1536, by omega⟩ : Fin 512))
      (fun a ha => match a, ha with | ⟨0, _⟩, _ => rfl | ⟨1, _⟩, _ => rfl | ⟨2, _⟩, ha => absurd rfl ha)
      (by show 1536 + (j.val - 1536) = j.val; omega)

end Reads

section Diff
variable [Facts₀]
open Facts₀
open Cert.Proof.KI (wIdx wRow diffAt sIdx spE spS spEn)

def wrapAt (N : BitVec 32) (v : IVec S16x64 32) : IVec S16x64 32 :=
  select (cmpi .slt v (broadcastInDim S16x64 ![] bcast_S_S16x64 (constantI S_ 32 0#32)))
    (addi v (broadcastInDim S16x64 ![] bcast_S_S16x64 (constantI S_ 32 N))) v

def rowsOf {α : Type} (H : S16x2048x512.Idx → α) (e r : IVec S16x64 32) : S16x64x512.Idx → α :=
  Host.gather gather_S16x2048x512_S16x64x2_S16x64x512_2_01_n_n_01_2_11512 H
    (concatenate S16x64x2 2 [⟨S16x64x1, (broadcastInDim S16x64x1 ![0, 1] bcast_S16x64_S16x64x1_0_1 (wrapAt 16#32 e))⟩,
      ⟨S16x64x1, (broadcastInDim S16x64x1 ![0, 1] bcast_S16x64_S16x64x1_0_1 (wrapAt 2048#32 r))⟩] concatenates_S16x64x1_S16x64x1_S16x64x2_d2)

theorem rowsOf_apply {α : Type} (H : S16x2048x512.Idx → α) (e r : IVec S16x64 32) (b : Fin 16) (n : Fin 64) (c : Fin 512)
    (he : (e (ix2 b n)).toNat ≤ 15) (hr : (r (ix2 b n)).toNat ≤ 2047) :
    rowsOf H e r (ix3 b n c)
      = H (ix3 (⟨(e (ix2 b n)).toNat, by omega⟩ : Fin 16) (⟨(r (ix2 b n)).toNat, by omega⟩ : Fin 2048) c) := by
  have key : ∀ idx : IVec S16x64x2 32, idx (ix3 b n (0 : Fin 2)) = e (ix2 b n) → idx (ix3 b n (1 : Fin 2)) = r (ix2 b n) →
      Host.gather gather_S16x2048x512_S16x64x2_S16x64x512_2_01_n_n_01_2_11512 H idx (ix3 b n c)
        = H (ix3 (⟨(e (ix2 b n)).toNat, by omega⟩ : Fin 16) (⟨(r (ix2 b n)).toNat, by omega⟩ : Fin 2048) c) := by
    intro idx h0 h1
    rw [gatherB_apply]
    refine congrArg H (funext fun a => Fin.ext ?_)
    match a with
    | ⟨0, _⟩ =>
      show min (idx (ix3 b n (0 : Fin 2))).toInt.toNat 15 = (e (ix2 b n)).toNat
      rw [h0]; exact clamp_word _ _ he (by norm_num)
    | ⟨1, _⟩ =>
      show min (idx (ix3 b n (1 : Fin 2))).toInt.toNat 2047 = (r (ix2 b n)).toNat
      rw [h1]; exact clamp_word _ _ hr (by norm_num)
    | ⟨2, _⟩ => rfl
  unfold rowsOf
  refine key _ ?_ ?_
  · rw [pair0_apply, bc3_apply]; exact wrap_apply _ _ _ _ (by omega)
  · rw [pair1_apply, bc3_apply]; exact wrap_apply _ _ _ _ (by omega)

theorem wIdx_of_lt (e r c : Nat) (he : e < 16) (hr : r < 2048) (hc : c < 1024) :
    wIdx e r c = ix3 (⟨e, he⟩ : Fin 16) (⟨r, hr⟩ : Fin 2048) (⟨c, hc⟩ : Fin 1024) := by
  unfold wIdx
  funext a
  match a with
  | ⟨0, _⟩ => exact Fin.ext (Nat.mod_eq_of_lt he)
  | ⟨1, _⟩ => exact Fin.ext (Nat.mod_eq_of_lt hr)
  | ⟨2, _⟩ => exact Fin.ext (Nat.mod_eq_of_lt hc)

end Diff

section DiffValue
variable [Facts₀] {F : FTy → Type} [FloatOps F]
open Facts₀
open Cert.Proof.KI (wIdx wRow diffAt sIdx spE spS spEn)

def cE (sp : IVec S16x64x3 32) : IVec S16x64 32 :=
  shapeCast S16x64 (extractStridedSlice S16x64x1 ![0, 0, 0] sp slices_S16x64x3_S16x64x1_0_0_0) shapeCasts_S16x64x1_S16x64
def cS (sp : IVec S16x64x3 32) : IVec S16x64 32 :=
  shapeCast S16x64 (extractStridedSlice S16x64x1 ![0, 0, 1] sp slices_S16x64x3_S16x64x1_0_0_1) shapeCasts_S16x64x1_S16x64
def cEn (sp : IVec S16x64x3 32) : IVec S16x64 32 :=
  shapeCast S16x64 (extractStridedSlice S16x64x1 ![0, 0, 2] sp slices_S16x64x3_S16x64x1_0_0_2) shapeCasts_S16x64x1_S16x64

def oneW : IVec S16x64 32 := broadcastInDim S16x64 ![] bcast_S_S16x64 (constantI S_ 32 1#32)

def loH {α : Type} (X : S16x2048x1024.Idx → α) : S16x2048x512.Idx → α :=
  extractStridedSlice S16x2048x512 ![0, 0, 0] X slices_S16x2048x1024_S16x2048x512_0_0_0
def hiH {α : Type} (X : S16x2048x1024.Idx → α) : S16x2048x512.Idx → α :=
  extractStridedSlice S16x2048x512 ![0, 0, 512] X slices_S16x2048x1024_S16x2048x512_0_0_512

def refDiff (X : S16x2048x1024.Idx → Elt F .f32) (sp : IVec S16x64x3 32) : S16x64x2048.Idx → Elt F .f32 :=
  concatenate S16x64x2048 2 [⟨S16x64x512, (subf (rowsOf (loH X) (cE sp) (cEn sp)) (rowsOf (loH X) (cE sp) (subi (cS sp) oneW)))⟩,
    ⟨S16x64x512, (subf (rowsOf (hiH X) (cE sp) (cS sp)) (rowsOf (hiH X) (cE sp) (addi (cEn sp) oneW)))⟩,
    ⟨S16x64x512, (rowsOf (loH X) (cE sp) (subi (cS sp) oneW))⟩,
    ⟨S16x64x512, (rowsOf (hiH X) (cE sp) (addi (cEn sp) oneW))⟩]
    concatenates_S16x64x512_S16x64x512_S16x64x512_S16x64x512_S16x64x2048_d2

theorem subf_at {s : Shape} {φ : FTy} (a b : FVec F s φ) (i : s.Idx) : subf a b i = FloatOps.subf (a i) (b i) := rfl

theorem wRow_at (X : S16x2048x1024.Idx → Elt F .f32) (e r off : Nat) (k : Fin 512) :
    wRow X e r off (ix1 k) = X (wIdx e r (off + k.val)) := rfl

theorem refDiff_at (X : S16x2048x1024.Idx → Elt F .f32) (sp : IVec S16x64x3 32) (h : SpansOk sp)
    (b : Fin 16) (n : Fin 64) (j : Fin 2048) :
    refDiff X sp (ix3 b n j) = diffAt X sp b n j.val := by
  obtain ⟨he, hs1, hs2, hen⟩ := h b n
  have hj := j.isLt
  have cE_at : cE sp (ix2 b n) = sp (sIdx b n 0) := col_apply sp 0 (by decide) _ _ b n
  have cS_at : cS sp (ix2 b n) = sp (sIdx b n 1) := col_apply sp 1 (by decide) _ _ b n
  have cEn_at : cEn sp (ix2 b n) = sp (sIdx b n 2) := col_apply sp 2 (by decide) _ _ b n
  have one_at : oneW (ix2 b n) = 1#32 := by unfold oneW; rw [broadcastInDim_scalar_apply]; rfl
  have hS1 : (subi (cS sp) oneW (ix2 b n)).toNat = spS sp b n - 1 := by
    show (IntOp.subi (cS sp (ix2 b n)) (oneW (ix2 b n))).toNat = _
    rw [cS_at, one_at]; exact toNat_sub_one _ hs1
  have hEn1 : (addi (cEn sp) oneW (ix2 b n)).toNat = spEn sp b n + 1 := by
    show (IntOp.addi (cEn sp (ix2 b n)) (oneW (ix2 b n))).toNat = _
    rw [cEn_at, one_at]; exact toNat_add_one _ (by omega)
  have hS0 : (cS sp (ix2 b n)).toNat = spS sp b n := by rw [cS_at]; rfl
  have hEn0 : (cEn sp (ix2 b n)).toNat = spEn sp b n := by rw [cEn_at]; rfl
  have hS : 1 ≤ spS sp b n ∧ spS sp b n ≤ 2047 := ⟨hs1, hs2⟩
  have hEn : spEn sp b n ≤ 2046 := hen
  have hE : spE sp b n < 16 := he
  have hlo : ∀ (r : IVec S16x64 32) (R : Nat) (c : Fin 512), (r (ix2 b n)).toNat = R → R ≤ 2047 →
      rowsOf (loH X) (cE sp) r (ix3 b n c) = X (wIdx (spE sp b n) R (0 + c.val)) := by
    intro r R c hR hle
    subst hR
    rw [rowsOf_apply _ _ _ b n c (by rw [cE_at]; omega) hle]
    unfold loH
    rw [half_apply _ 0 (by norm_num), wIdx_of_lt _ _ _ hE (by omega) (by omega)]
    refine congrArg X (funext fun a => Fin.ext ?_)
    match a with
    | ⟨0, _⟩ => show (cE sp (ix2 b n)).toNat = spE sp b n; rw [cE_at]; rfl
    | ⟨1, _⟩ => rfl
    | ⟨2, _⟩ => rfl
  have hhi : ∀ (r : IVec S16x64 32) (R : Nat) (c : Fin 512), (r (ix2 b n)).toNat = R → R ≤ 2047 →
      rowsOf (hiH X) (cE sp) r (ix3 b n c) = X (wIdx (spE sp b n) R (512 + c.val)) := by
    intro r R c hR hle
    subst hR
    rw [rowsOf_apply _ _ _ b n c (by rw [cE_at]; omega) hle]
    unfold hiH
    rw [half_apply _ 512 (by norm_num), wIdx_of_lt _ _ _ hE (by omega) (by omega)]
    refine congrArg X (funext fun a => Fin.ext ?_)
    match a with
    | ⟨0, _⟩ => show (cE sp (ix2 b n)).toNat = spE sp b n; rw [cE_at]; rfl
    | ⟨1, _⟩ => rfl
    | ⟨2, _⟩ => rfl
  unfold refDiff
  rw [cat4_apply]
  simp only [diffAt]
  split_ifs with h0 h1 h2
  · rw [subf_at, subf_at, wRow_at, wRow_at, hlo _ _ _ hEn0 (by omega), hlo _ _ _ hS1 (by omega)]
    show FloatOps.subf (X (wIdx (spE sp b n) (spEn sp b n) (0 + j.val))) (X (wIdx (spE sp b n) (spS sp b n - 1) (0 + j.val)))
      = FloatOps.subf (X (wIdx (spE sp b n) (spEn sp b n) (0 + j.val % 512))) (X (wIdx (spE sp b n) (spS sp b n - 1) (0 + j.val % 512)))
    rw [Nat.mod_eq_of_lt h0]
  · rw [subf_at, subf_at, wRow_at, wRow_at, hhi _ _ _ hS0 (by omega), hhi _ _ _ hEn1 (by omega)]
    show FloatOps.subf (X (wIdx (spE sp b n) (spS sp b n) (512 + (j.val - 512)))) (X (wIdx (spE sp b n) (spEn sp b n + 1) (512 + (j.val - 512))))
      = FloatOps.subf (X (wIdx (spE sp b n) (spS sp b n) (512 + j.val % 512))) (X (wIdx (spE sp b n) (spEn sp b n + 1) (512 + j.val % 512)))
    rw [show j.val % 512 = j.val - 512 from by omega]
  · rw [hlo _ _ _ hS1 (by omega)]
    show X (wIdx (spE sp b n) (spS sp b n - 1) (0 + (j.val - 1024))) = _
    rw [Nat.zero_add]
  · rw [hhi _ _ _ hEn1 (by omega)]
    show X (wIdx (spE sp b n) (spEn sp b n + 1) (512 + (j.val - 1536))) = _
    rw [show 512 + (j.val - 1536) = j.val - 1024 from by omega]

theorem refDiff_eq (X : S16x2048x1024.Idx → Elt F .f32) (sp : IVec S16x64x3 32) (h : SpansOk sp) :
    refDiff X sp = diffArr X sp := by
  funext y
  exact (congrArg (refDiff X sp) (eq_ix3 y)).trans (refDiff_at X sp h (y 0) (y 1) (y 2))

end DiffValue

section GatherA
variable [Facts₀] {α : Type}

theorem gatherA_apply (x : S16x128x1024.Idx → α) (idx : IVec S16x3 32) (j : S16x512.Idx) :
    Host.gather gather_S16x128x1024_S16x3_S16x512_1_01_n_n_012_1_11512 x idx j
      = x (ix3 (⟨min (idx (ix2 (j 0) (0 : Fin 3))).toInt.toNat 15, by omega⟩ : Fin 16)
               (⟨min (idx (ix2 (j 0) (1 : Fin 3))).toInt.toNat 127, by omega⟩ : Fin 128)
               (⟨min (idx (ix2 (j 0) (2 : Fin 3))).toInt.toNat 512 + (j 1).val, by have := idx2_lt1 j; omega⟩ : Fin 1024)) := by
  unfold Host.gather
  congr 1
  funext a
  refine Fin.ext ?_
  match a with
  | ⟨0, h0⟩ =>
    show GatherDims.start _ j idx ⟨0, h0⟩ + GatherDims.batchCoord _ j ⟨0, h0⟩ + GatherDims.offCoord _ j ⟨0, h0⟩ = _
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (⟨0, h0⟩ : Fin S16x128x1024.rank) ∈ gather_S16x128x1024_S16x3_S16x512_1_01_n_n_012_1_11512.startIndexMap from List.mem_cons_self)]
    have hsi : gather_S16x128x1024_S16x3_S16x512_1_01_n_n_012_1_11512.siIdx j
        ⟨List.idxOf (⟨0, h0⟩ : Fin S16x128x1024.rank) gather_S16x128x1024_S16x3_S16x512_1_01_n_n_012_1_11512.startIndexMap,
          List.idxOf_lt_length_iff.2 List.mem_cons_self⟩ = ix2 (j 0) (0 : Fin 3) := by
      funext b; refine Fin.ext ?_
      match b with
      | ⟨0, _⟩ => rfl
      | ⟨1, _⟩ => rfl
    rw [hsi]
    rfl
  | ⟨1, h1⟩ =>
    show GatherDims.start _ j idx ⟨1, h1⟩ + GatherDims.batchCoord _ j ⟨1, h1⟩ + GatherDims.offCoord _ j ⟨1, h1⟩ = _
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos (show (⟨1, h1⟩ : Fin S16x128x1024.rank) ∈ gather_S16x128x1024_S16x3_S16x512_1_01_n_n_012_1_11512.startIndexMap from (List.mem_cons_of_mem _ List.mem_cons_self))]
    have hsi : gather_S16x128x1024_S16x3_S16x512_1_01_n_n_012_1_11512.siIdx j
        ⟨List.idxOf (⟨1, h1⟩ : Fin S16x128x1024.rank) gather_S16x128x1024_S16x3_S16x512_1_01_n_n_012_1_11512.startIndexMap,
          List.idxOf_lt_length_iff.2 (List.mem_cons_of_mem _ List.mem_cons_self)⟩ = ix2 (j 0) (1 : Fin 3) := by
      funext b; refine Fin.ext ?_
      match b with
      | ⟨0, _⟩ => rfl
      | ⟨1, _⟩ => rfl
    rw [hsi]
    rfl
  | ⟨2, h2⟩ =>
    show GatherDims.start _ j idx ⟨2, h2⟩ + GatherDims.batchCoord _ j ⟨2, h2⟩ + GatherDims.offCoord _ j ⟨2, h2⟩ = _
    rw [GatherDims.batchCoord_eq_zero _ _ _ List.not_mem_nil]
    simp only [Nat.add_zero]
    unfold GatherDims.start
    rw [dif_pos (show (⟨2, h2⟩ : Fin S16x128x1024.rank) ∈ gather_S16x128x1024_S16x3_S16x512_1_01_n_n_012_1_11512.startIndexMap from (List.mem_cons_of_mem _ (List.mem_cons_of_mem _ List.mem_cons_self)))]
    have hsi : gather_S16x128x1024_S16x3_S16x512_1_01_n_n_012_1_11512.siIdx j
        ⟨List.idxOf (⟨2, h2⟩ : Fin S16x128x1024.rank) gather_S16x128x1024_S16x3_S16x512_1_01_n_n_012_1_11512.startIndexMap,
          List.idxOf_lt_length_iff.2 (List.mem_cons_of_mem _ (List.mem_cons_of_mem _ List.mem_cons_self))⟩ = ix2 (j 0) (2 : Fin 3) := by
      funext b; refine Fin.ext ?_
      match b with
      | ⟨0, _⟩ => rfl
      | ⟨1, _⟩ => rfl
    rw [hsi]
    rfl

end GatherA

section Topic
variable [Facts₀] {F : FTy → Type} [FloatOps F]
open Facts₀
open Cert.Proof.KI (tIdx)

section
variable {α : Type}

theorem bc2_apply (A : S16.Idx → α) (h : S16.BroadcastsInDim S16x1 ![0]) (b : Fin 16) (u : Fin 1) :
    broadcastInDim S16x1 ![0] h A (ix2 b u) = A (ix1 b) :=
  broadcastInDim_apply _ h A _ _ (fun a => match a with | ⟨0, _⟩ => rfl)

theorem cat3_0 (x0 x1 x2 : S16x1.Idx → α) (h : Shape.Concatenates [S16x1, S16x1, S16x1] S16x3 1) (b : Fin 16) :
    concatenate S16x3 1 [⟨S16x1, x0⟩, ⟨S16x1, x1⟩, ⟨S16x1, x2⟩] h (ix2 b (0 : Fin 3)) = x0 (ix2 b (0 : Fin 1)) :=
  concatenate_apply_piece (t := S16x3) 1 [⟨S16x1, x0⟩, ⟨S16x1, x1⟩, ⟨S16x1, x2⟩] h (ix2 b (0 : Fin 3)) 0 (by simp) S16x1 x0 rfl rfl 0 rfl
    (ix2 b (0 : Fin 1)) (fun a ha => match a, ha with | ⟨0, _⟩, _ => rfl | ⟨1, _⟩, ha => absurd rfl ha) rfl

theorem cat3_1 (x0 x1 x2 : S16x1.Idx → α) (h : Shape.Concatenates [S16x1, S16x1, S16x1] S16x3 1) (b : Fin 16) :
    concatenate S16x3 1 [⟨S16x1, x0⟩, ⟨S16x1, x1⟩, ⟨S16x1, x2⟩] h (ix2 b (1 : Fin 3)) = x1 (ix2 b (0 : Fin 1)) :=
  concatenate_apply_piece (t := S16x3) 1 [⟨S16x1, x0⟩, ⟨S16x1, x1⟩, ⟨S16x1, x2⟩] h (ix2 b (1 : Fin 3)) 1 (by simp) S16x1 x1 rfl rfl 1 rfl
    (ix2 b (0 : Fin 1)) (fun a ha => match a, ha with | ⟨0, _⟩, _ => rfl | ⟨1, _⟩, ha => absurd rfl ha) rfl

theorem cat3_2 (x0 x1 x2 : S16x1.Idx → α) (h : Shape.Concatenates [S16x1, S16x1, S16x1] S16x3 1) (b : Fin 16) :
    concatenate S16x3 1 [⟨S16x1, x0⟩, ⟨S16x1, x1⟩, ⟨S16x1, x2⟩] h (ix2 b (2 : Fin 3)) = x2 (ix2 b (0 : Fin 1)) :=
  concatenate_apply_piece (t := S16x3) 1 [⟨S16x1, x0⟩, ⟨S16x1, x1⟩, ⟨S16x1, x2⟩] h (ix2 b (2 : Fin 3)) 2 (by simp) S16x1 x2 rfl rfl 2 rfl
    (ix2 b (0 : Fin 1)) (fun a ha => match a, ha with | ⟨0, _⟩, _ => rfl | ⟨1, _⟩, ha => absurd rfl ha) rfl

theorem cat2_apply (x0 x1 : S16x512.Idx → α) (h : Shape.Concatenates [S16x512, S16x512] S16x1024 1) (b : Fin 16) (j : Fin 1024) :
    concatenate S16x1024 1 [⟨S16x512, x0⟩, ⟨S16x512, x1⟩] h (ix2 b j)
      = if h0 : j.val < 512 then x0 (ix2 b (⟨j.val, h0⟩ : Fin 512)) else x1 (ix2 b (⟨j.val - 512, by omega⟩ : Fin 512)) := by
  have hj := j.isLt
  split_ifs with h0
  · exact concatenate_pair_apply_left 1 x0 x1 h _ rfl _ (fun a => match a with | ⟨0, _⟩ => rfl | ⟨1, _⟩ => rfl)
  · exact concatenate_pair_apply_right 1 x0 x1 h _ rfl rfl _
      (fun a ha => match a, ha with | ⟨0, _⟩, _ => rfl | ⟨1, _⟩, ha => absurd rfl ha)
      (by show j.val - 512 + 512 = j.val; omega)

end

def wrapV (N : BitVec 32) (v : IVec S16 32) : IVec S16 32 :=
  select (cmpi .slt v (broadcastInDim S16 ![] bcast_S_S16 (constantI S_ 32 0#32)))
    (addi v (broadcastInDim S16 ![] bcast_S_S16 (constantI S_ 32 N))) v

def refTopic (X : S16x128x1024.Idx → Elt F .f32) (lens : IVec S16 32) : S16x1024.Idx → Elt F .f32 :=
  concatenate S16x1024 1 [⟨S16x512, (Host.gather gather_S16x128x1024_S16x3_S16x512_1_01_n_n_012_1_11512 X (concatenate S16x3 1 [⟨S16x1, (broadcastInDim S16x1 ![0] bcast_S16_S16x1_0 (wrapV 16#32 (iotaInDim S16 32 0)))⟩, ⟨S16x1, (broadcastInDim S16x1 ![0] bcast_S16_S16x1_0 (wrapV 128#32 (subi lens (broadcastInDim S16 ![] bcast_S_S16 (constantI S_ 32 1#32)))))⟩, ⟨S16x1, (broadcastInDim S16x1 ![] bcast_S_S16x1 (constantI S_ 32 0#32))⟩] concatenates_S16x1_S16x1_S16x1_S16x3_d1))⟩,
    ⟨S16x512, (Host.gather gather_S16x128x1024_S16x3_S16x512_1_01_n_n_012_1_11512 X (concatenate S16x3 1 [⟨S16x1, (broadcastInDim S16x1 ![0] bcast_S16_S16x1_0 (wrapV 16#32 (iotaInDim S16 32 0)))⟩, ⟨S16x1, (broadcastInDim S16x1 ![0] bcast_S16_S16x1_0 (id (broadcastInDim S16 ![] bcast_S_S16 (constantI S_ 32 0#32))))⟩, ⟨S16x1, (broadcastInDim S16x1 ![] bcast_S_S16x1 (constantI S_ 32 512#32))⟩] concatenates_S16x1_S16x1_S16x1_S16x3_d1))⟩]
    concatenates_S16x512_S16x512_S16x1024_d1

theorem refTopic_at (X : S16x128x1024.Idx → Elt F .f32) (lens : IVec S16 32) (h : LensOk lens) (b : Fin 16) (j : Fin 1024) :
    refTopic X lens (ix2 b j) = topicBlk X lens (ix2 b j) := by
  obtain ⟨hl1, hl2⟩ := h b
  have hj := j.isLt
  have hb := b.isLt
  have key : ∀ (idx : IVec S16x3 32) (R C : Nat) (c : Fin 512), (idx (ix2 b (0 : Fin 3))).toNat = b.val →
      (idx (ix2 b (1 : Fin 3))).toNat = R → R ≤ 127 → (idx (ix2 b (2 : Fin 3))).toNat = C → C ≤ 512 →
      Host.gather gather_S16x128x1024_S16x3_S16x512_1_01_n_n_012_1_11512 X idx (ix2 b c) = X (tIdx b.val R (C + c.val)) := by
    intro idx R C c e0 e1 hR e2 hC
    have hc := c.isLt
    rw [gatherA_apply]
    unfold tIdx
    refine congrArg X (funext fun a => Fin.ext ?_)
    match a with
    | ⟨0, _⟩ =>
      show min (idx (ix2 b (0 : Fin 3))).toInt.toNat 15 = b.val % 16
      rw [clamp_word _ _ (by omega) (by norm_num), e0]; omega
    | ⟨1, _⟩ =>
      show min (idx (ix2 b (1 : Fin 3))).toInt.toNat 127 = R % 128
      rw [clamp_word _ _ (by omega) (by norm_num), e1]; omega
    | ⟨2, _⟩ =>
      show min (idx (ix2 b (2 : Fin 3))).toInt.toNat 512 + c.val = (C + c.val) % 1024
      rw [clamp_word _ _ (by omega) (by norm_num), e2]; omega
  have iota_at : wrapV 16#32 (iotaInDim S16 32 0) (ix1 b) = BitVec.ofNat 32 b.val :=
    wrap_apply _ _ _ _ (by show (BitVec.ofNat 32 b.val).toNat < 2 ^ 31; rw [BitVec.toNat_ofNat]; omega)
  have iota_nat : (BitVec.ofNat 32 b.val).toNat = b.val := by rw [BitVec.toNat_ofNat]; omega
  have one_at : (broadcastInDim S16 ![] bcast_S_S16 (constantI S_ 32 1#32)) (ix1 b) = 1#32 := by
    rw [broadcastInDim_scalar_apply]; rfl
  have row_nat : (subi lens (broadcastInDim S16 ![] bcast_S_S16 (constantI S_ 32 1#32)) (ix1 b)).toNat = (lens (ix1 b)).toNat - 1 := by
    show (IntOp.subi (lens (ix1 b)) ((broadcastInDim S16 ![] bcast_S_S16 (constantI S_ 32 1#32)) (ix1 b))).toNat = _
    rw [one_at]; exact toNat_sub_one _ hl1
  have row_at : wrapV 128#32 (subi lens (broadcastInDim S16 ![] bcast_S_S16 (constantI S_ 32 1#32))) (ix1 b)
      = subi lens (broadcastInDim S16 ![] bcast_S_S16 (constantI S_ 32 1#32)) (ix1 b) :=
    wrap_apply _ _ _ _ (by rw [row_nat]; omega)
  unfold refTopic
  rw [cat2_apply]
  show _ = if j.val < 512 then X (tIdx b.val ((lens (ix1 b)).toNat - 1) j.val) else X (tIdx b.val 0 j.val)
  split_ifs with h0
  · rw [key _ ((lens (ix1 b)).toNat - 1) 0 ⟨j.val, h0⟩
      (by rw [cat3_0, bc2_apply, iota_at]; exact iota_nat)
      (by rw [cat3_1, bc2_apply, row_at]; exact row_nat) (by omega)
      (by rw [cat3_2, broadcastInDim_scalar_apply]; rfl) (by omega)]
    show X (tIdx b.val ((lens (ix1 b)).toNat - 1) (0 + j.val)) = _
    rw [Nat.zero_add]
  · rw [key _ 0 512 ⟨j.val - 512, by omega⟩
      (by rw [cat3_0, bc2_apply, iota_at]; exact iota_nat)
      (by rw [cat3_1, bc2_apply]; show (id (broadcastInDim S16 ![] bcast_S_S16 (constantI S_ 32 0#32)) (ix1 b)).toNat = 0
          show ((broadcastInDim S16 ![] bcast_S_S16 (constantI S_ 32 0#32)) (ix1 b)).toNat = 0
          rw [broadcastInDim_scalar_apply]; rfl) (by omega)
      (by rw [cat3_2, broadcastInDim_scalar_apply]; rfl) (by omega)]
    show X (tIdx b.val 0 (512 + (j.val - 512))) = _
    rw [show 512 + (j.val - 512) = j.val from by omega]

theorem refTopic_eq (X : S16x128x1024.Idx → Elt F .f32) (lens : IVec S16 32) (h : LensOk lens) :
    refTopic X lens = topicBlk X lens := by
  funext y
  rw [eq_ix2 y]
  exact refTopic_at X lens h (y 0) (y 1)

end Topic

theorem run (m : (ℓ : Loc nD τ sig) → Buf (Elt Ideal) ℓ) (ρ : Dev nD → PrngReg)
    (hl : ∀ c : Dev nD, LensOk (m ((c.tc : Thread nD τ).loc main_arg2)))
    (h3 : ∀ c : Dev nD, SpansOk (m ((c.tc : Thread nD τ).loc main_arg3)))
    (h4 : ∀ c : Dev nD, SpansOk (m ((c.tc : Thread nD τ).loc main_arg4)))
    (h5 : ∀ c : Dev nD, SpansOk (m ((c.tc : Thread nD τ).loc main_arg5))) :
    θ_run (defs (F := Ideal)) (onTc (τ := τ) (main (F := Ideal))) ⟨m, fun _ => 0, ρ⟩ fun r => ∀ c : Dev nD,
      r.2.mem ((c.tc : Thread nD τ).loc main_v30) = topicBlk (F := Ideal) (m ((c.tc : Thread nD τ).loc main_arg0)) (m ((c.tc : Thread nD τ).loc main_arg2))
      ∧ r.2.mem ((c.tc : Thread nD τ).loc main_v101) = diffArr (F := Ideal) (m ((c.tc : Thread nD τ).loc main_arg1)) (m ((c.tc : Thread nD τ).loc main_arg3))
      ∧ r.2.mem ((c.tc : Thread nD τ).loc main_v243) = diffArr (F := Ideal) (m ((c.tc : Thread nD τ).loc main_arg1)) (m ((c.tc : Thread nD τ).loc main_arg5))
      ∧ r.2.mem ((c.tc : Thread nD τ).loc main_v172) = diffArr (F := Ideal) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ?_) (Cert.ReferenceIdeal.Value.run (F := Ideal) m ρ)
  obtain ⟨h30, h101, h243, h172, hargs⟩ := h c
  refine ⟨h30.trans ?_, h101.trans ?_, h243.trans ?_, h172.trans ?_, hargs⟩
  · exact refTopic_eq (F := Ideal) (m ((c.tc : Thread nD τ).loc main_arg0)) (m ((c.tc : Thread nD τ).loc main_arg2)) (hl c)
  · exact refDiff_eq (F := Ideal) (m ((c.tc : Thread nD τ).loc main_arg1)) (m ((c.tc : Thread nD τ).loc main_arg3)) (h3 c)
  · exact refDiff_eq (F := Ideal) (m ((c.tc : Thread nD τ).loc main_arg1)) (m ((c.tc : Thread nD τ).loc main_arg5)) (h5 c)
  · exact refDiff_eq (F := Ideal) (m ((c.tc : Thread nD τ).loc main_arg1)) (m ((c.tc : Thread nD τ).loc main_arg4)) (h4 c)

end Cert.Proof.RefValue

end
-- ==== Proof.lean ====
import proofs.«409333_j59115929862503_1_alg».proof.Defs
import proofs.«409333_j59115929862503_1_alg».proof.Proof.Gen.Kernel
import proofs.«409333_j59115929862503_1_alg».proof.Proof.Gen.KernelIdeal
import proofs.«409333_j59115929862503_1_alg».proof.Proof.Gen.ReferenceIdeal
import proofs.«409333_j59115929862503_1_alg».proof.Proof.Gen.ReferenceIdeal.Run
import proofs.«409333_j59115929862503_1_alg».proof.Proof.Gen.Pre_finite_inputs
import proofs.«409333_j59115929862503_1_alg».proof.Proof.PreFacts
import proofs.«409333_j59115929862503_1_alg».proof.Proof.KI.Run
import proofs.«409333_j59115929862503_1_alg».proof.Proof.KI.Bridge
import proofs.«409333_j59115929862503_1_alg».proof.Proof.KB.Run
import proofs.«409333_j59115929862503_1_alg».proof.Proof.RefValue
import Idealize.ShloMosaic.Adequacy
import Idealize.ShloMosaic.Init

noncomputable section

namespace Cert.Proof

open Idealize.ShloMosaic Idealize.SL.Sem

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

theorem hyps_K (m : (ℓ : Loc Cert.Kernel.nD Cert.Kernel.τ Cert.Kernel.sig) → Buf (Elt Bits) ℓ) (h : Cert.Pre_Kernel m) :
    (∀ c, KB.LensOk (KB.W0 m c Cert.Kernel.main_arg2)) ∧ (∀ c, KB.SpansOk (KB.W0 m c Cert.Kernel.main_arg3))
      ∧ (∀ c, KB.SpansOk (KB.W0 m c Cert.Kernel.main_arg4)) ∧ (∀ c, KB.SpansOk (KB.W0 m c Cert.Kernel.main_arg5)) :=
  ⟨fun c => PreFacts.lens_ok _ _ _ _ _ _ (h c), fun c => (PreFacts.spans_ok _ _ _ _ _ _ (h c)).1,
    fun c => (PreFacts.spans_ok _ _ _ _ _ _ (h c)).2.1, fun c => (PreFacts.spans_ok _ _ _ _ _ _ (h c)).2.2⟩

theorem hyps_KI (m : (ℓ : Loc Cert.KernelIdeal.nD Cert.KernelIdeal.τ Cert.KernelIdeal.sig) → Buf (Elt Ideal) ℓ) (h : Cert.Pre_KernelIdeal m) :
    (∀ c, KI.LensOk (KI.W0 m c Cert.KernelIdeal.main_arg2)) ∧ (∀ c, KI.SpansOk (KI.W0 m c Cert.KernelIdeal.main_arg3))
      ∧ (∀ c, KI.SpansOk (KI.W0 m c Cert.KernelIdeal.main_arg4)) ∧ (∀ c, KI.SpansOk (KI.W0 m c Cert.KernelIdeal.main_arg5)) :=
  ⟨fun c => PreFacts.lens_ok _ _ _ _ _ _ (h c), fun c => (PreFacts.spans_ok _ _ _ _ _ _ (h c)).1,
    fun c => (PreFacts.spans_ok _ _ _ _ _ _ (h c)).2.1, fun c => (PreFacts.spans_ok _ _ _ _ _ _ (h c)).2.2⟩

theorem frame_K : Cert.frame_Kernel := fun m ρ h =>
  (θ_run (Cert.Kernel.defs (F := Bits)) _ _).mono (fun _ hr c => (hr c).2.2.2.2)
    (KB.run_main (F := Bits) m ρ (hyps_K m h).1 (hyps_K m h).2.1 (hyps_K m h).2.2.1 (hyps_K m h).2.2.2)

theorem frame_KI : Cert.frame_KernelIdeal := fun m ρ h =>
  (θ_run (Cert.KernelIdeal.defs (F := Ideal)) _ _).mono (fun _ hr c => (hr c).2.2.2.2)
    (KI.run_main (F := Ideal) m ρ (hyps_KI m h).1 (hyps_KI m h).2.1 (hyps_KI m h).2.2.1 (hyps_KI m h).2.2.2)

theorem frame_R : Cert.frame_ReferenceIdeal := fun m ρ _ =>
  (θ_run (Cert.ReferenceIdeal.defs (F := Ideal)) _ _).mono (fun _ hr c => (hr c).2.2.2.2)
    (Cert.ReferenceIdeal.Value.run (F := Ideal) m ρ)

open Cert.KernelIdeal in
theorem algebraic : Cert.algebraic_KernelIdeal_ReferenceIdeal := fun m ρ m' ρ' h hagree => by
  obtain ⟨hl, h3, h4, h5⟩ := hyps_KI m h
  refine ⟨fun c => KI.topicBlk (F := Ideal) (KI.W0 m c main_arg0) (KI.W0 m c main_arg2),
    fun c => KI.diffArr (F := Ideal) (KI.W0 m c main_arg1) (KI.W0 m c main_arg3),
    fun c => KI.diffArr (F := Ideal) (KI.W0 m c main_arg1) (KI.W0 m c main_arg5),
    fun c => KI.diffArr (F := Ideal) (KI.W0 m c main_arg1) (KI.W0 m c main_arg4), ?_, ?_⟩
  · exact (θ_run (Cert.KernelIdeal.defs (F := Ideal)) _ _).mono
      (fun _ hr c => ⟨(hr c).1.trans (KI.final0_eq m c), (hr c).2.1.trans (KI.final1_eq m c), (hr c).2.2.2.1.trans (KI.final3_eq m c),
        (hr c).2.2.1.trans (KI.final2_eq m c), (hr c).2.2.2.2⟩)
      (KI.run_main (F := Ideal) m ρ hl h3 h4 h5)
  · have e : ∀ c : Dev Cert.KernelIdeal.nD, _ := hagree
    refine (θ_run (Cert.ReferenceIdeal.defs (F := Ideal)) _ _).mono (fun _ hr c => ?_)
      (RefValue.run m' ρ' (fun c => by rw [(e c).2.2.1]; exact hl c) (fun c => by rw [(e c).2.2.2.1]; exact h3 c)
        (fun c => by rw [(e c).2.2.2.2.1]; exact h4 c) (fun c => by rw [(e c).2.2.2.2.2]; exact h5 c))
    obtain ⟨r0, r1, r2, r3, rest⟩ := hr c
    obtain ⟨e0, e1, e2, e3, e4, e5⟩ := e c
    refine ⟨?_, ?_, ?_, ?_, rest⟩
    · rw [r0, e0, e2]
    · rw [r1, e1, e3]
    · rw [r2, e1, e5]
    · rw [r3, e1, e4]

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
